-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S128x10 .f32) (main_arg10 : FVec F S10 .f32) (main_v33 : IVec S_ 1) : IVec S_ 1 :=
  let main_v34 : FVec F S128x10 .f32 := Host.absf main_arg9
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x10 .f32) (main_arg10 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x10 .f32) (main_arg10 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x1 : Shape := ⟨2, ![50000, 1]⟩
abbrev S1x10 : Shape := ⟨2, ![1, 10]⟩
abbrev S256x10 : Shape := ⟨2, ![256, 10]⟩
abbrev S5000x1 : Shape := ⟨2, ![5000, 1]⟩
abbrev S256x128 : Shape := ⟨2, ![256, 128]⟩
abbrev S256x1 : Shape := ⟨2, ![256, 1]⟩
abbrev S5000x256 : Shape := ⟨2, ![5000, 256]⟩

abbrev nBuf : Space → Nat
  | .hbm => 111
  | .vmem => 39
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x10, .f32⟩
  | .hbm, ⟨10, _⟩ => ⟨S10, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S50000, .i32⟩
  | .hbm, ⟨16, _⟩ => ⟨S850000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x128, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x1, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x128, .f32⟩
  | .hbm, ⟨80, _⟩ => ⟨S850000x1, .f32⟩
  | .hbm, ⟨81, _⟩ => ⟨S850000x128, .f32⟩
  | .hbm, ⟨82, _⟩ => ⟨S850000x128, .f32⟩
  | .hbm, ⟨83, _⟩ => ⟨S_, .f32⟩
  | .hbm, ⟨84, _⟩ => ⟨S50000x128, .f32⟩
  | .hbm, ⟨85, _⟩ => ⟨S850000x1, .i32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S_, .i32⟩
  | .hbm, ⟨91, _⟩ => ⟨S850000, .i32⟩
  | .hbm, ⟨92, _⟩ => ⟨S850000, .i1⟩
  | .hbm, ⟨93, _⟩ => ⟨S_, .i32⟩
  | .hbm, ⟨94, _⟩ => ⟨S850000, .i32⟩
  | .hbm, ⟨95, _⟩ => ⟨S850000, .i32⟩
  | .hbm, ⟨96, _⟩ => ⟨S850000, .i32⟩
  | .hbm, ⟨97, _⟩ => ⟨S850000x1, .i32⟩
  | .hbm, ⟨98, _⟩ => ⟨S850000x128, .f32⟩
  | .hbm, ⟨99, _⟩ => ⟨S850000x1, .f32⟩
  | .hbm, ⟨100, _⟩ => ⟨S850000x128, .f32⟩
  | .hbm, ⟨101, _⟩ => ⟨S850000x128, .f32⟩
  | .hbm, ⟨102, _⟩ => ⟨S_, .f32⟩
  | .hbm, ⟨103, _⟩ => ⟨S50000x128, .f32⟩
  | .hbm, ⟨104, _⟩ => ⟨S850000x1, .i32⟩
  | .hbm, ⟨105, _⟩ => ⟨S50000x128, .f32⟩
  | .hbm, ⟨106, _⟩ => ⟨S1x128, .f32⟩
  | .hbm, ⟨107, _⟩ => ⟨S50000x128, .f32⟩
  | .hbm, ⟨108, _⟩ => ⟨S50000x1, .i32⟩
  | .hbm, ⟨109, _⟩ => ⟨S1x10, .f32⟩
  | .hbm, ⟨110, _⟩ => ⟨S256x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x1, .i32⟩
  | .local _ .vmem, ⟨33, _⟩ => ⟨S5000x1, .i32⟩
  | .local _ .vmem, ⟨34, _⟩ => ⟨S128x10, .f32⟩
  | .local _ .vmem, ⟨35, _⟩ => ⟨S1x10, .f32⟩
  | .local _ .vmem, ⟨36, _⟩ => ⟨S256x10, .f32⟩
  | .local _ .vmem, ⟨37, _⟩ => ⟨S256x128, .f32⟩
  | .local _ .vmem, ⟨38, _⟩ => ⟨S256x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc6_stg3_0 : Ref sig .tc := ⟨.vmem, 35, rfl⟩
abbrev cc6_stg4_0 : Ref sig .tc := ⟨.vmem, 36, rfl⟩
abbrev cc6_scratch0 : Ref sig .tc := ⟨.vmem, 37, rfl⟩
abbrev cc6_scratch1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34
abbrev cc6_sem3_0 : DmaSem sig := 35
abbrev cc6_sem4_0 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v27 : BitVec 1 := Scalar.cmpi .eq arg0 c9_i32
  let v28 : BitVec 32 := Scalar.extui v27
  let c0_i32_14 : BitVec 32 := 0#32
  let v29 : BitVec 1 := Scalar.cmpi .ne v28 c0_i32_14
  v29

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x10 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x10 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S256x10 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S50000_S50000x1 : S50000.ShapeCasts S50000x1
  shapeCasts_S10_S1x10 : S10.ShapeCasts S1x10
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x256_d1_w32 : S5000x256.Iotas .tc 32 [1]
  broadcasts_S5000x1_S5000x256 : S5000x1.Broadcasts S5000x256
  natLt_1_32 : 1 < 32
  broadcasts_S256x1_S256x128 : S256x1.Broadcasts S256x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  inb_S256x10_S256x10_0_0 : ∀ a, (![0, 0] : Fin 2 → Nat) a + S256x10.size a ≤ S256x10.size a
  h_S256x10 : 0 < S256x10.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x256_S5000x128_S256x128_0_0_1_1_n_n_wf : DotDims.WF S5000x256 S5000x128 S256x128 [0] [0] [1] [1] [] []
  dot_S5000x256_S5000x1_S256x1_0_0_1_1_n_n_wf : DotDims.WF S5000x256 S5000x1 S256x1 [0] [0] [1] [1] [] []
  dot_S256x128_S128x10_S256x10_1_0_0_1_n_n_wf : DotDims.WF S256x128 S128x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S50000x1.size a
  hwx6_1 : ∀ i : grid6.Coords, EltTy.bits .i32 = 32 ∨ (Rect.block (s := S50000x1) S5000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x10.size a ≤ S128x10.size a
  hwx6_2 : ∀ i : grid6.Coords, EltTy.bits .f32 = 32 ∨ (Rect.block (s := S128x10) S128x10.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x10.size a ≤ S1x10.size a
  hwx6_3 : ∀ i : grid6.Coords, EltTy.bits .f32 = 32 ∨ (Rect.block (s := S1x10) S1x10.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S256x10.size a ≤ S256x10.size a
  hwx6_4 : ∀ i : grid6.Coords, EltTy.bits .f32 = 32 ∨ (Rect.block (s := S256x10) S256x10.size (cc6_transform_4 i) (hinb6_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x256_S5000x128_S256x128_0_0_1_1_n_n : DotDims S5000x256 S5000x128 S256x128 where
  lhsContracting := [0]
  rhsContracting := [0]
  lhsNonContracting := [1]
  rhsNonContracting := [1]
  lhsBatch := []
  rhsBatch := []
  wf := dot_S5000x256_S5000x128_S256x128_0_0_1_1_n_n_wf
def dot_S5000x256_S5000x1_S256x1_0_0_1_1_n_n : DotDims S5000x256 S5000x1 S256x1 where
  lhsContracting := [0]
  rhsContracting := [0]
  lhsNonContracting := [1]
  rhsNonContracting := [1]
  lhsBatch := []
  rhsBatch := []
  wf := dot_S5000x256_S5000x1_S256x1_0_0_1_1_n_n_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v77) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v78) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg9) S128x10.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v79) S1x10.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v80) S256x10.size cc6_transform_4 reads6_4 true true 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev idle6 : Fin 5 → grid6.Coords → Bool := fun | 0 => fun _ => false | 1 => fun _ => false | 2 => fun _ => false | 3 => fun _ => false | 4 => fun i => !(k6_cond2 i == 1#1) | ⟨_ + 5, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S256x128 : Shape := ⟨2, ![256, 128]⟩
abbrev S50000x1 : Shape := ⟨2, ![50000, 1]⟩
abbrev S256 : Shape := ⟨1, ![256]⟩
abbrev S256x1 : Shape := ⟨2, ![256, 1]⟩
abbrev S256x10 : Shape := ⟨2, ![256, 10]⟩
abbrev S1x10 : Shape := ⟨2, ![1, 10]⟩

abbrev nBuf : Space → Nat
  | .hbm => 209
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x10, .f32⟩
  | 10 => ⟨S10, .f32⟩
  | 11 => ⟨S1x800000, .i32⟩
  | 12 => ⟨S800000, .i32⟩
  | 13 => ⟨S1x800000, .i32⟩
  | 14 => ⟨S800000, .i32⟩
  | 15 => ⟨S50000, .i32⟩
  | 16 => ⟨S850000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x128, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x1, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000, .i32⟩
  | 75 => ⟨S850000, .i32⟩
  | 76 => ⟨S850000, .i32⟩
  | 77 => ⟨S_, .f32⟩
  | 78 => ⟨S850000, .f32⟩
  | 79 => ⟨S_, .f32⟩
  | 80 => ⟨S50000, .f32⟩
  | 81 => ⟨S850000x1, .i32⟩
  | 82 => ⟨S50000, .f32⟩
  | 83 => ⟨S_, .f32⟩
  | 84 => ⟨S50000, .f32⟩
  | 85 => ⟨S50000, .i1⟩
  | 86 => ⟨S50000, .f32⟩
  | 87 => ⟨S_, .f32⟩
  | 88 => ⟨S_, .f32⟩
  | 89 => ⟨S50000, .f32⟩
  | 90 => ⟨S50000, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S850000, .f32⟩
  | 110 => ⟨S50000x128, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x128, .f32⟩
  | 120 => ⟨S850000x1, .f32⟩
  | 121 => ⟨S850000x128, .f32⟩
  | 122 => ⟨S850000x128, .f32⟩
  | 123 => ⟨S_, .f32⟩
  | 124 => ⟨S50000x128, .f32⟩
  | 125 => ⟨S850000x1, .i32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S50000, .i32⟩
  | 6 => ⟨S850000, .i32⟩
  | 7 => ⟨S850000, .i32⟩
  | 8 => ⟨S_, .f32⟩
  | 9 => ⟨S850000, .f32⟩
  | 10 => ⟨S_, .f32⟩
  | 11 => ⟨S50000, .f32⟩
  | 12 => ⟨S850000x1, .i32⟩
  | 13 => ⟨S50000, .f32⟩
  | 14 => ⟨S_, .f32⟩
  | 15 => ⟨S50000, .f32⟩
  | 16 => ⟨S50000, .i1⟩
  | 17 => ⟨S50000, .f32⟩
  | 18 => ⟨S_, .f32⟩
  | 19 => ⟨S_, .f32⟩
  | 20 => ⟨S50000, .f32⟩
  | 21 => ⟨S50000, .f32⟩
  | 22 => ⟨S_, .i32⟩
  | 23 => ⟨S850000, .i32⟩
  | 24 => ⟨S850000, .i1⟩
  | 25 => ⟨S_, .i32⟩
  | 26 => ⟨S850000, .i32⟩
  | 27 => ⟨S850000, .i32⟩
  | 28 => ⟨S850000, .i32⟩
  | 29 => ⟨S850000x1, .i32⟩
  | 30 => ⟨S850000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S850000, .f32⟩
  | 41 => ⟨S50000x128, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000x128, .f32⟩
  | 51 => ⟨S850000x1, .f32⟩
  | 52 => ⟨S850000x128, .f32⟩
  | 53 => ⟨S850000x128, .f32⟩
  | 54 => ⟨S_, .f32⟩
  | 55 => ⟨S50000x128, .f32⟩
  | 56 => ⟨S850000x1, .i32⟩
  | 57 => ⟨S50000x128, .f32⟩
  | 58 => ⟨S1x128, .f32⟩
  | 59 => ⟨S50000x128, .f32⟩
  | 60 => ⟨S50000x128, .f32⟩
  | 61 => ⟨S_, .f32⟩
  | 62 => ⟨S256x128, .f32⟩
  | 63 => ⟨S50000x1, .i32⟩
  | 64 => ⟨S256x128, .f32⟩
  | 65 => ⟨S_, .f32⟩
  | 66 => ⟨S50000, .f32⟩
  | 67 => ⟨S_, .f32⟩
  | 68 => ⟨S256, .f32⟩
  | 69 => ⟨S50000x1, .i32⟩
  | 70 => ⟨S256, .f32⟩
  | 71 => ⟨S_, .f32⟩
  | 72 => ⟨S256, .f32⟩
  | 73 => ⟨S256, .f32⟩
  | 74 => ⟨S256x1, .f32⟩
  | 75 => ⟨S256x128, .f32⟩
  | 76 => ⟨S256x128, .f32⟩
  | 77 => ⟨S256x10, .f32⟩
  | 78 => ⟨S1x10, .f32⟩
  | 79 => ⟨S256x10, .f32⟩
  | 80 => ⟨S256x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_9 : Ref sig .tc := ⟨.hbm, 77, rfl⟩
abbrev main_v51 : Ref sig .tc := ⟨.hbm, 78, rfl⟩
abbrev main_cst_10 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_11 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v58 : Ref sig .tc := ⟨.hbm, 90, rfl⟩
abbrev main_c_13 : Ref sig .tc := ⟨.hbm, 91, rfl⟩
abbrev main_v59 : Ref sig .tc := ⟨.hbm, 92, rfl⟩
abbrev main_v60 : Ref sig .tc := ⟨.hbm, 93, rfl⟩
abbrev main_c_14 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_c_15 : Ref sig .tc := ⟨.hbm, 100, rfl⟩
abbrev main_v66 : Ref sig .tc := ⟨.hbm, 101, rfl⟩
abbrev main_v67 : Ref sig .tc := ⟨.hbm, 102, rfl⟩
abbrev main_c_16 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_17 : Ref sig .tc := ⟨.hbm, 111, rfl⟩
abbrev main_v75 : Ref sig .tc := ⟨.hbm, 112, rfl⟩
abbrev main_v76 : Ref sig .tc := ⟨.hbm, 113, rfl⟩
abbrev main_c_18 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_19 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_call3_cst : Ref sig .tc := ⟨.hbm, 130, rfl⟩
abbrev main_call3_v0 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_20 : Ref sig .tc := ⟨.hbm, 136, rfl⟩
abbrev main_v95 : Ref sig .tc := ⟨.hbm, 137, rfl⟩
abbrev main_cst_21 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_22 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_23 : Ref sig .tc := ⟨.hbm, 146, rfl⟩
abbrev main_call4_v0 : Ref sig .tc := ⟨.hbm, 147, rfl⟩
abbrev main_call4_v1 : Ref sig .tc := ⟨.hbm, 148, rfl⟩
abbrev main_v102 : Ref sig .tc := ⟨.hbm, 149, rfl⟩
abbrev main_c_24 : Ref sig .tc := ⟨.hbm, 150, rfl⟩
abbrev main_v103 : Ref sig .tc := ⟨.hbm, 151, rfl⟩
abbrev main_v104 : Ref sig .tc := ⟨.hbm, 152, rfl⟩
abbrev main_c_25 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_c_26 : Ref sig .tc := ⟨.hbm, 159, rfl⟩
abbrev main_v110 : Ref sig .tc := ⟨.hbm, 160, rfl⟩
abbrev main_v111 : Ref sig .tc := ⟨.hbm, 161, rfl⟩
abbrev main_c_27 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_c_28 : Ref sig .tc := ⟨.hbm, 170, rfl⟩
abbrev main_v119 : Ref sig .tc := ⟨.hbm, 171, rfl⟩
abbrev main_v120 : Ref sig .tc := ⟨.hbm, 172, rfl⟩
abbrev main_c_29 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_cst_30 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_cst_31 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_cst_32 : Ref sig .tc := ⟨.hbm, 193, rfl⟩
abbrev main_v138 : Ref sig .tc := ⟨.hbm, 194, rfl⟩
abbrev main_cst_33 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_cst_34 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S256x128 : S_.BroadcastsInDim S256x128 (![] : Fin 0 → Fin S256x128.rank)
  bcast_S50000_S50000x1_0 : S50000.BroadcastsInDim S50000x1 (![0] : Fin 1 → Fin S50000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x10_S256x10_1_0_0_1_n_n_wf : DotDims.WF S256x128 S128x10 S256x10 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

class Facts : Prop extends Facts₀ where

variable [Facts]
-- ==== Proof.K.Reg0.lean ====
import proofs.«410102_j40518721470743_1_alg».proof.Proof.Gen.Kernel.Launch
import proofs.«410102_j40518721470743_1_alg».proof.Proof.Gen.Kernel.Skeleton
import proofs.«410102_j40518721470743_1_alg».proof.Proof.Gen.Kernel.Points
import Idealize.ShloMosaic.Lib.Pipeline.FrameBody
import Idealize.ShloMosaic.Lib.Tactic

noncomputable section

namespace Cert.Kernel.Fr

open Cert.Kernel.Gen Idealize.ShloMosaic TcCoe Pipeline Idealize.SL RA BI BIBase Sem

variable {F : FTy → Type} [FloatOps F]

variable (V : (c : Dev nD) → (b : Ref sig .tc) → Buf (Elt F) ((c : Thread nD τ).loc b))

/-- The block of window `w` at grid point `t`, read off the window's array as `V` gives it on entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (arrRef spec0 w))

abbrev rA0 := Rect.unit (s := S5000x128) ![0, 0] S5000x128.size inb_S5000x128_S5000x128_0_0
abbrev rB0 := Rect.unit (s := S128x128) ![0, 0] S128x128.size inb_S128x128_S128x128_0_0

/-- The output block after the body: its one store, of the body's value of the two operand blocks. -/
def out0_2 (x0 : Vec F S5000x128 .f32) (x1 : Vec F S128x128 .f32) : Vec F S5000x128 .f32 :=
  View.canon [⟨rA0, k0_pay1 (View.ld x0 rA0) (View.ld x1 rB0)⟩]

/-- The body reads `x0` and `x1` and overwrites the whole output, whatever it held, with `out0_2 x0 x1`; `P` and `Q` pass through. -/
theorem sound_kernel0 (c : Dev nD) {i a1 h1 a2 h2 a3 h3} (x0 x1) {α β γ} {g : γ → _} {P Q : sProp (MT nD τ sig Unit (Elt F) ℕ (UR sig nD τ) ℕ)} :
    iprop(P ∗ Q ∗ (∃ _ : α, owns c a1 fullShare x0) ∗ (∃ _ : β, owns c a2 fullShare x1) ∗ ∃ d, owns c a3 fullShare (g d))
      ⊢ wp frame (wpE defs₀ Variants.none c none) Set.univ (cc0__linear_kernel i a1 h1 a2 h2 a3 h3) fun _ =>
        iprop(P ∗ Q ∗ owns c a1 fullShare x0 ∗ owns c a2 fullShare x1 ∗ owns c a3 fullShare (out0_2 x0 x1)) := by
  simp only [cc0__linear_kernel_eq_skeleton, cc0__linear_kernel_skel, owns]
  iintro ⟨HP, HQ, ⟨%_, %f0, %e0, H0⟩, ⟨%_, %f1, %e1, H1⟩, ⟨%d, %f2, -, H2⟩⟩
  subst e0 e1
  sl_exec!
  sl_step
  iframe HP HQ
  isplitl [H0]; · iexists _; iframe H0; itrivial
  isplitl [H1]; · iexists _; iframe H1; itrivial
  iexists _; iframe H2; ipureintro
  exact View.read_writes_junk_eq_canon _ _

/-- The call's proof data on core `c`: after the body each operand is at its block and the output at `out0_2` of the two. -/
def dat0 (c : Dev nD) : Dat τ (Elt F) Unit ℕ (UR sig nD τ) ℕ cfg0 c where
  A w := V c (arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := ΦA spec0 c
  q _ := fullShare
  owed _ := 0

theorem A_eq0 (c : Dev nD) (w : Fin cfg0.W) : (dat0 V c).A w = V c (arrRef spec0 w) := rfl

theorem after0_2 (c : Dev nD) (t : Fin cfg0.N) : (dat0 V c).after 2 t = out0_2 (iblk0 V c 0 t) (iblk0 V c 1 t) := by dsimp only [dat0]

/-- At every point both operands hold their blocks, so `sound_kernel0` applies. -/
theorem body_obligation0 (c : Dev nD) : BodyObligation (dat0 (F := F) V c) (defs₀ (F := F)) Variants.none () Set.univ := fun t => by
  simp only [bigSep_W0, after0_2, (dat0 V c).before_fetched 0 t (fetch0_0 t), (dat0 V c).before_in_eq_fetched 1 rfl (fun _ => rfl) (fun _ _ _ => rfl) (fun _ => rfl) t]
  sl_whnfR [defs₀, Defs.onTc]
  exact sound_kernel0 c (iblk0 V c 0 t) (iblk0 V c 1 t)

end Cert.Kernel.Fr

end
-- ==== Proof.K.Reg1.lean ====
import proofs.«410102_j40518721470743_1_alg».proof.Proof.Gen.Kernel.Launch
import proofs.«410102_j40518721470743_1_alg».proof.Proof.Gen.Kernel.Skeleton
import proofs.«410102_j40518721470743_1_alg».proof.Proof.Gen.Kernel.Points
import Idealize.ShloMosaic.Lib.Pipeline.FrameBody
import Idealize.ShloMosaic.Lib.Tactic

noncomputable section

namespace Cert.Kernel.Fr

open Cert.Kernel.Gen Idealize.ShloMosaic TcCoe Pipeline Idealize.SL RA BI BIBase Sem

variable {F : FTy → Type} [FloatOps F]

variable (V : (c : Dev nD) → (b : Ref sig .tc) → Buf (Elt F) ((c : Thread nD τ).loc b))

/-- The block of window `w` at grid point `t`, read off the window's array as `V` gives it on entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (arrRef spec1 w))

abbrev rA1 := Rect.unit (s := S5000x128) ![0, 0] S5000x128.size inb_S5000x128_S5000x128_0_0
abbrev rB1 := Rect.unit (s := S1x128) ![0, 0] S1x128.size inb_S1x128_S1x128_0_0

/-- The output block after the body: its one store, of the body's value of the two operand blocks. -/
def out1_2 (x0 : Vec F S5000x128 .f32) (x1 : Vec F S1x128 .f32) : Vec F S5000x128 .f32 :=
  View.canon [⟨rA1, k1_pay1 (View.ld x0 rA1) (View.ld x1 rB1)⟩]

/-- The body reads `x0` and `x1` and overwrites the whole output, whatever it held, with `out1_2 x0 x1`; `P` and `Q` pass through. -/
theorem sound_kernel1 (c : Dev nD) {i a1 h1 a2 h2 a3 h3} (x0 x1) {α β γ} {g : γ → _} {P Q : sProp (MT nD τ sig Unit (Elt F) ℕ (UR sig nD τ) ℕ)} :
    iprop(P ∗ Q ∗ (∃ _ : α, owns c a1 fullShare x0) ∗ (∃ _ : β, owns c a2 fullShare x1) ∗ ∃ d, owns c a3 fullShare (g d))
      ⊢ wp frame (wpE defs₀ Variants.none c none) Set.univ (cc1_kernel i a1 h1 a2 h2 a3 h3) fun _ =>
        iprop(P ∗ Q ∗ owns c a1 fullShare x0 ∗ owns c a2 fullShare x1 ∗ owns c a3 fullShare (out1_2 x0 x1)) := by
  simp only [cc1_kernel_eq_skeleton, cc1_kernel_skel, owns]
  iintro ⟨HP, HQ, ⟨%_, %f0, %e0, H0⟩, ⟨%_, %f1, %e1, H1⟩, ⟨%d, %f2, -, H2⟩⟩
  subst e0 e1
  sl_exec!
  sl_step
  iframe HP HQ
  isplitl [H0]; · iexists _; iframe H0; itrivial
  isplitl [H1]; · iexists _; iframe H1; itrivial
  iexists _; iframe H2; ipureintro
  exact View.read_writes_junk_eq_canon _ _

/-- The call's proof data on core `c`: after the body each operand is at its block and the output at `out1_2` of the two. -/
def dat1 (c : Dev nD) : Dat τ (Elt F) Unit ℕ (UR sig nD τ) ℕ cfg1 c where
  A w := V c (arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := ΦA spec1 c
  q _ := fullShare
  owed _ := 0

theorem A_eq1 (c : Dev nD) (w : Fin cfg1.W) : (dat1 V c).A w = V c (arrRef spec1 w) := rfl

theorem after1_2 (c : Dev nD) (t : Fin cfg1.N) : (dat1 V c).after 2 t = out1_2 (iblk1 V c 0 t) (iblk1 V c 1 t) := by dsimp only [dat1]

/-- At every point both operands hold their blocks, so `sound_kernel1` applies. -/
theorem body_obligation1 (c : Dev nD) : BodyObligation (dat1 (F := F) V c) (defs₀ (F := F)) Variants.none () Set.univ := fun t => by
  simp only [bigSep_W1, after1_2, (dat1 V c).before_fetched 0 t (fetch1_0 t), (dat1 V c).before_in_eq_fetched 1 rfl (fun _ => rfl) (fun _ _ _ => rfl) (fun _ => rfl) t]
  sl_whnfR [defs₀, Defs.onTc]
  exact sound_kernel1 c (iblk1 V c 0 t) (iblk1 V c 1 t)

end Cert.Kernel.Fr

end
-- ==== Proof.K.Reg2.lean ====
import proofs.«410102_j40518721470743_1_alg».proof.Proof.Gen.Kernel.Launch
import proofs.«410102_j40518721470743_1_alg».proof.Proof.Gen.Kernel.Skeleton
import proofs.«410102_j40518721470743_1_alg».proof.Proof.Gen.Kernel.Points
import Idealize.ShloMosaic.Lib.Pipeline.FrameBody
import Idealize.ShloMosaic.Lib.Tactic

noncomputable section

namespace Cert.Kernel.Fr

open Cert.Kernel.Gen Idealize.ShloMosaic TcCoe Pipeline Idealize.SL RA BI BIBase Sem

variable {F : FTy → Type} [FloatOps F]

variable (V : (c : Dev nD) → (b : Ref sig .tc) → Buf (Elt F) ((c : Thread nD τ).loc b))

/-- The block of window `w` at grid point `t`, read off the window's array as `V` gives it on entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (arrRef spec2 w))

abbrev rA2 := Rect.unit (s := S5000x128) ![0, 0] S5000x128.size inb_S5000x128_S5000x128_0_0
abbrev rB2 := Rect.unit (s := S128x128) ![0, 0] S128x128.size inb_S128x128_S128x128_0_0

/-- The output block after the body: its one store, of the body's value of the two operand blocks. -/
def out2_2 (x0 : Vec F S5000x128 .f32) (x1 : Vec F S128x128 .f32) : Vec F S5000x128 .f32 :=
  View.canon [⟨rA2, k2_pay1 (View.ld x0 rA2) (View.ld x1 rB2)⟩]

/-- The body reads `x0` and `x1` and overwrites the whole output, whatever it held, with `out2_2 x0 x1`; `P` and `Q` pass through. -/
theorem sound_kernel2 (c : Dev nD) {i a1 h1 a2 h2 a3 h3} (x0 x1) {α β γ} {g : γ → _} {P Q : sProp (MT nD τ sig Unit (Elt F) ℕ (UR sig nD τ) ℕ)} :
    iprop(P ∗ Q ∗ (∃ _ : α, owns c a1 fullShare x0) ∗ (∃ _ : β, owns c a2 fullShare x1) ∗ ∃ d, owns c a3 fullShare (g d))
      ⊢ wp frame (wpE defs₀ Variants.none c none) Set.univ (cc2__linear_kernel i a1 h1 a2 h2 a3 h3) fun _ =>
        iprop(P ∗ Q ∗ owns c a1 fullShare x0 ∗ owns c a2 fullShare x1 ∗ owns c a3 fullShare (out2_2 x0 x1)) := by
  simp only [cc2__linear_kernel_eq_skeleton, cc2__linear_kernel_skel, owns]
  iintro ⟨HP, HQ, ⟨%_, %f0, %e0, H0⟩, ⟨%_, %f1, %e1, H1⟩, ⟨%d, %f2, -, H2⟩⟩
  subst e0 e1
  sl_exec!
  sl_step
  iframe HP HQ
  isplitl [H0]; · iexists _; iframe H0; itrivial
  isplitl [H1]; · iexists _; iframe H1; itrivial
  iexists _; iframe H2; ipureintro
  exact View.read_writes_junk_eq_canon _ _

/-- The call's proof data on core `c`: after the body each operand is at its block and the output at `out2_2` of the two. -/
def dat2 (c : Dev nD) : Dat τ (Elt F) Unit ℕ (UR sig nD τ) ℕ cfg2 c where
  A w := V c (arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := ΦA spec2 c
  q _ := fullShare
  owed _ := 0

theorem A_eq2 (c : Dev nD) (w : Fin cfg2.W) : (dat2 V c).A w = V c (arrRef spec2 w) := rfl

theorem after2_2 (c : Dev nD) (t : Fin cfg2.N) : (dat2 V c).after 2 t = out2_2 (iblk2 V c 0 t) (iblk2 V c 1 t) := by dsimp only [dat2]

/-- At every point both operands hold their blocks, so `sound_kernel2` applies. -/
theorem body_obligation2 (c : Dev nD) : BodyObligation (dat2 (F := F) V c) (defs₀ (F := F)) Variants.none () Set.univ := fun t => by
  simp only [bigSep_W2, after2_2, (dat2 V c).before_fetched 0 t (fetch2_0 t), (dat2 V c).before_in_eq_fetched 1 rfl (fun _ => rfl) (fun _ _ _ => rfl) (fun _ => rfl) t]
  sl_whnfR [defs₀, Defs.onTc]
  exact sound_kernel2 c (iblk2 V c 0 t) (iblk2 V c 1 t)

end Cert.Kernel.Fr

end
-- ==== Proof.K.Reg3.lean ====
import proofs.«410102_j40518721470743_1_alg».proof.Proof.Gen.Kernel.Launch
import proofs.«410102_j40518721470743_1_alg».proof.Proof.Gen.Kernel.Skeleton
import proofs.«410102_j40518721470743_1_alg».proof.Proof.Gen.Kernel.Points
import Idealize.ShloMosaic.Lib.Pipeline.FrameBody
import Idealize.ShloMosaic.Lib.Tactic

noncomputable section

namespace Cert.Kernel.Fr

open Cert.Kernel.Gen Idealize.ShloMosaic TcCoe Pipeline Idealize.SL RA BI BIBase Sem

variable {F : FTy → Type} [FloatOps F]

variable (V : (c : Dev nD) → (b : Ref sig .tc) → Buf (Elt F) ((c : Thread nD τ).loc b))

/-- The block of window `w` at grid point `t`, read off the window's array as `V` gives it on entry. -/
def iblk3 (c : Dev nD) (w : Fin cfg3.W) (t : Fin cfg3.N) : ((cfg3.win w).xblock (cfg3.grid.coords t)).Idx → Elt F (cfg3.win w).elt :=
  ((cfg3.win w).blk t).view.read (Elt F) (V c (arrRef spec3 w))

abbrev rA3 := Rect.unit (s := S5000x128) ![0, 0] S5000x128.size inb_S5000x128_S5000x128_0_0
abbrev rB3 := Rect.unit (s := S1x128) ![0, 0] S1x128.size inb_S1x128_S1x128_0_0

/-- The output block after the body: its one store, of the body's value of the two operand blocks. -/
def out3_2 (x0 : Vec F S5000x128 .f32) (x1 : Vec F S1x128 .f32) : Vec F S5000x128 .f32 :=
  View.canon [⟨rA3, k3_pay1 (View.ld x0 rA3) (View.ld x1 rB3)⟩]

/-- The body reads `x0` and `x1` and overwrites the whole output, whatever it held, with `out3_2 x0 x1`; `P` and `Q` pass through. -/
theorem sound_kernel3 (c : Dev nD) {i a1 h1 a2 h2 a3 h3} (x0 x1) {α β γ} {g : γ → _} {P Q : sProp (MT nD τ sig Unit (Elt F) ℕ (UR sig nD τ) ℕ)} :
    iprop(P ∗ Q ∗ (∃ _ : α, owns c a1 fullShare x0) ∗ (∃ _ : β, owns c a2 fullShare x1) ∗ ∃ d, owns c a3 fullShare (g d))
      ⊢ wp frame (wpE defs₀ Variants.none c none) Set.univ (cc3_kernel i a1 h1 a2 h2 a3 h3) fun _ =>
        iprop(P ∗ Q ∗ owns c a1 fullShare x0 ∗ owns c a2 fullShare x1 ∗ owns c a3 fullShare (out3_2 x0 x1)) := by
  simp only [cc3_kernel_eq_skeleton, cc3_kernel_skel, owns]
  iintro ⟨HP, HQ, ⟨%_, %f0, %e0, H0⟩, ⟨%_, %f1, %e1, H1⟩, ⟨%d, %f2, -, H2⟩⟩
  subst e0 e1
  sl_exec!
  sl_step
  iframe HP HQ
  isplitl [H0]; · iexists _; iframe H0; itrivial
  isplitl [H1]; · iexists _; iframe H1; itrivial
  iexists _; iframe H2; ipureintro
  exact View.read_writes_junk_eq_canon _ _

/-- The call's proof data on core `c`: after the body each operand is at its block and the output at `out3_2` of the two. -/
def dat3 (c : Dev nD) : Dat τ (Elt F) Unit ℕ (UR sig nD τ) ℕ cfg3 c where
  A w := V c (arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := ΦA spec3 c
  q _ := fullShare
  owed _ := 0

theorem A_eq3 (c : Dev nD) (w : Fin cfg3.W) : (dat3 V c).A w = V c (arrRef spec3 w) := rfl

theorem after3_2 (c : Dev nD) (t : Fin cfg3.N) : (dat3 V c).after 2 t = out3_2 (iblk3 V c 0 t) (iblk3 V c 1 t) := by dsimp only [dat3]

/-- At every point both operands hold their blocks, so `sound_kernel3` applies. -/
theorem body_obligation3 (c : Dev nD) : BodyObligation (dat3 (F := F) V c) (defs₀ (F := F)) Variants.none () Set.univ := fun t => by
  simp only [bigSep_W3, after3_2, (dat3 V c).before_fetched 0 t (fetch3_0 t), (dat3 V c).before_in_eq_fetched 1 rfl (fun _ => rfl) (fun _ _ _ => rfl) (fun _ => rfl) t]
  sl_whnfR [defs₀, Defs.onTc]
  exact sound_kernel3 c (iblk3 V c 0 t) (iblk3 V c 1 t)

end Cert.Kernel.Fr

end
-- ==== Proof.K.Reg4.lean ====
import proofs.«410102_j40518721470743_1_alg».proof.Proof.Gen.Kernel.Launch
import proofs.«410102_j40518721470743_1_alg».proof.Proof.Gen.Kernel.Skeleton
import proofs.«410102_j40518721470743_1_alg».proof.Proof.Gen.Kernel.Points
import Idealize.ShloMosaic.Lib.Pipeline.FrameBody
import Idealize.ShloMosaic.Lib.Tactic

noncomputable section

namespace Cert.Kernel.Fr

open Cert.Kernel.Gen Idealize.ShloMosaic TcCoe Pipeline Idealize.SL RA BI BIBase Sem

variable {F : FTy → Type} [FloatOps F]

variable (V : (c : Dev nD) → (b : Ref sig .tc) → Buf (Elt F) ((c : Thread nD τ).loc b))

/-- The block of window `w` at grid point `t`, read off the window's array as `V` gives it on entry. -/
def iblk4 (c : Dev nD) (w : Fin cfg4.W) (t : Fin cfg4.N) : ((cfg4.win w).xblock (cfg4.grid.coords t)).Idx → Elt F (cfg4.win w).elt :=
  ((cfg4.win w).blk t).view.read (Elt F) (V c (arrRef spec4 w))

abbrev rA4 := Rect.unit (s := S5000x128) ![0, 0] S5000x128.size inb_S5000x128_S5000x128_0_0
abbrev rB4 := Rect.unit (s := S128x128) ![0, 0] S128x128.size inb_S128x128_S128x128_0_0

/-- The output block after the body: its one store, of the body's value of the two operand blocks. -/
def out4_2 (x0 : Vec F S5000x128 .f32) (x1 : Vec F S128x128 .f32) : Vec F S5000x128 .f32 :=
  View.canon [⟨rA4, k4_pay1 (View.ld x0 rA4) (View.ld x1 rB4)⟩]

/-- The body reads `x0` and `x1` and overwrites the whole output, whatever it held, with `out4_2 x0 x1`; `P` and `Q` pass through. -/
theorem sound_kernel4 (c : Dev nD) {i a1 h1 a2 h2 a3 h3} (x0 x1) {α β γ} {g : γ → _} {P Q : sProp (MT nD τ sig Unit (Elt F) ℕ (UR sig nD τ) ℕ)} :
    iprop(P ∗ Q ∗ (∃ _ : α, owns c a1 fullShare x0) ∗ (∃ _ : β, owns c a2 fullShare x1) ∗ ∃ d, owns c a3 fullShare (g d))
      ⊢ wp frame (wpE defs₀ Variants.none c none) Set.univ (cc4__linear_kernel i a1 h1 a2 h2 a3 h3) fun _ =>
        iprop(P ∗ Q ∗ owns c a1 fullShare x0 ∗ owns c a2 fullShare x1 ∗ owns c a3 fullShare (out4_2 x0 x1)) := by
  simp only [cc4__linear_kernel_eq_skeleton, cc4__linear_kernel_skel, owns]
  iintro ⟨HP, HQ, ⟨%_, %f0, %e0, H0⟩, ⟨%_, %f1, %e1, H1⟩, ⟨%d, %f2, -, H2⟩⟩
  subst e0 e1
  sl_exec!
  sl_step
  iframe HP HQ
  isplitl [H0]; · iexists _; iframe H0; itrivial
  isplitl [H1]; · iexists _; iframe H1; itrivial
  iexists _; iframe H2; ipureintro
  exact View.read_writes_junk_eq_canon _ _

/-- The call's proof data on core `c`: after the body each operand is at its block and the output at `out4_2` of the two. -/
def dat4 (c : Dev nD) : Dat τ (Elt F) Unit ℕ (UR sig nD τ) ℕ cfg4 c where
  A w := V c (arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := ΦA spec4 c
  q _ := fullShare
  owed _ := 0

theorem A_eq4 (c : Dev nD) (w : Fin cfg4.W) : (dat4 V c).A w = V c (arrRef spec4 w) := rfl

theorem after4_2 (c : Dev nD) (t : Fin cfg4.N) : (dat4 V c).after 2 t = out4_2 (iblk4 V c 0 t) (iblk4 V c 1 t) := by dsimp only [dat4]

/-- At every point both operands hold their blocks, so `sound_kernel4` applies. -/
theorem body_obligation4 (c : Dev nD) : BodyObligation (dat4 (F := F) V c) (defs₀ (F := F)) Variants.none () Set.univ := fun t => by
  simp only [bigSep_W4, after4_2, (dat4 V c).before_fetched 0 t (fetch4_0 t), (dat4 V c).before_in_eq_fetched 1 rfl (fun _ => rfl) (fun _ _ _ => rfl) (fun _ => rfl) t]
  sl_whnfR [defs₀, Defs.onTc]
  exact sound_kernel4 c (iblk4 V c 0 t) (iblk4 V c 1 t)

end Cert.Kernel.Fr

end
-- ==== Proof.K.Reg5.lean ====
import proofs.«410102_j40518721470743_1_alg».proof.Proof.Gen.Kernel.Launch
import proofs.«410102_j40518721470743_1_alg».proof.Proof.Gen.Kernel.Skeleton
import proofs.«410102_j40518721470743_1_alg».proof.Proof.Gen.Kernel.Points
import Idealize.ShloMosaic.Lib.Pipeline.FrameBody
import Idealize.ShloMosaic.Lib.Tactic

noncomputable section

namespace Cert.Kernel.Fr

open Cert.Kernel.Gen Idealize.ShloMosaic TcCoe Pipeline Idealize.SL RA BI BIBase Sem

variable {F : FTy → Type} [FloatOps F]

variable (V : (c : Dev nD) → (b : Ref sig .tc) → Buf (Elt F) ((c : Thread nD τ).loc b))

/-- The block of window `w` at grid point `t`, read off the window's array as `V` gives it on entry. -/
def iblk5 (c : Dev nD) (w : Fin cfg5.W) (t : Fin cfg5.N) : ((cfg5.win w).xblock (cfg5.grid.coords t)).Idx → Elt F (cfg5.win w).elt :=
  ((cfg5.win w).blk t).view.read (Elt F) (V c (arrRef spec5 w))

abbrev rA5 := Rect.unit (s := S5000x128) ![0, 0] S5000x128.size inb_S5000x128_S5000x128_0_0
abbrev rB5 := Rect.unit (s := S1x128) ![0, 0] S1x128.size inb_S1x128_S1x128_0_0

/-- The output block after the body: its one store, of the body's value of the two operand blocks. -/
def out5_2 (x0 : Vec F S5000x128 .f32) (x1 : Vec F S1x128 .f32) : Vec F S5000x128 .f32 :=
  View.canon [⟨rA5, k5_pay1 (View.ld x0 rA5) (View.ld x1 rB5)⟩]

/-- The body reads `x0` and `x1` and overwrites the whole output, whatever it held, with `out5_2 x0 x1`; `P` and `Q` pass through. -/
theorem sound_kernel5 (c : Dev nD) {i a1 h1 a2 h2 a3 h3} (x0 x1) {α β γ} {g : γ → _} {P Q : sProp (MT nD τ sig Unit (Elt F) ℕ (UR sig nD τ) ℕ)} :
    iprop(P ∗ Q ∗ (∃ _ : α, owns c a1 fullShare x0) ∗ (∃ _ : β, owns c a2 fullShare x1) ∗ ∃ d, owns c a3 fullShare (g d))
      ⊢ wp frame (wpE defs₀ Variants.none c none) Set.univ (cc5_kernel i a1 h1 a2 h2 a3 h3) fun _ =>
        iprop(P ∗ Q ∗ owns c a1 fullShare x0 ∗ owns c a2 fullShare x1 ∗ owns c a3 fullShare (out5_2 x0 x1)) := by
  simp only [cc5_kernel_eq_skeleton, cc5_kernel_skel, owns]
  iintro ⟨HP, HQ, ⟨%_, %f0, %e0, H0⟩, ⟨%_, %f1, %e1, H1⟩, ⟨%d, %f2, -, H2⟩⟩
  subst e0 e1
  sl_exec!
  sl_step
  iframe HP HQ
  isplitl [H0]; · iexists _; iframe H0; itrivial
  isplitl [H1]; · iexists _; iframe H1; itrivial
  iexists _; iframe H2; ipureintro
  exact View.read_writes_junk_eq_canon _ _

/-- The call's proof data on core `c`: after the body each operand is at its block and the output at `out5_2` of the two. -/
def dat5 (c : Dev nD) : Dat τ (Elt F) Unit ℕ (UR sig nD τ) ℕ cfg5 c where
  A w := V c (arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := ΦA spec5 c
  q _ := fullShare
  owed _ := 0

theorem A_eq5 (c : Dev nD) (w : Fin cfg5.W) : (dat5 V c).A w = V c (arrRef spec5 w) := rfl

theorem after5_2 (c : Dev nD) (t : Fin cfg5.N) : (dat5 V c).after 2 t = out5_2 (iblk5 V c 0 t) (iblk5 V c 1 t) := by dsimp only [dat5]

/-- At every point both operands hold their blocks, so `sound_kernel5` applies. -/
theorem body_obligation5 (c : Dev nD) : BodyObligation (dat5 (F := F) V c) (defs₀ (F := F)) Variants.none () Set.univ := fun t => by
  simp only [bigSep_W5, after5_2, (dat5 V c).before_fetched 0 t (fetch5_0 t), (dat5 V c).before_in_eq_fetched 1 rfl (fun _ => rfl) (fun _ _ _ => rfl) (fun _ => rfl) t]
  sl_whnfR [defs₀, Defs.onTc]
  exact sound_kernel5 c (iblk5 V c 0 t) (iblk5 V c 1 t)

end Cert.Kernel.Fr

end
-- ==== Proof.K.Reg6.lean ====
import proofs.«410102_j40518721470743_1_alg».proof.Proof.Gen.Kernel.Launch
import proofs.«410102_j40518721470743_1_alg».proof.Proof.Gen.Kernel.Skeleton
import proofs.«410102_j40518721470743_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev cond6_0 (i : grid6.Coords) : Prop := (Scalar.cmpi .ne (Scalar.extui (Scalar.cmpi .eq (BitVec.ofNat 32 (i 0).val) 0#32)) 0#32) = 1#1

theorem hcond6_0 : ∀ t : Fin cfg6.N, cond6_0 (grid6.coords t) ↔ t.val = 0 :=
  (by decide +kernel : ∀ t : Fin grid6.N, cond6_0 (grid6.coords t) ↔ t.val = 0)

abbrev cond6_1 (i : grid6.Coords) : Prop := k6_cond2 i = 1#1

theorem hcond6_1 : ∀ t : Fin cfg6.N, cond6_1 (grid6.coords t) ↔ t.val = 9 :=
  (by decide +kernel : ∀ t : Fin grid6.N, cond6_1 (grid6.coords t) ↔ t.val = 9)

theorem idle6_4 : ∀ t : Fin cfg6.N, ¬cond6_1 (grid6.coords t) → cfg6.idle 4 (grid6.coords t) = true ∧ (cfg6.win 4).flush t = false := by decide +kernel

theorem liveAt6_4_C : ∀ t : Fin cfg6.N, ¬cond6_0 (grid6.coords t) → cond6_1 (grid6.coords t) → cfg6.idle 4 (grid6.coords t) = false := by decide +kernel

abbrev VO6_4 : View sig .tc .vmem S256x10 .f32 := (Memref.whole cc6_stg4_0 : Memref sig .tc .vmem S256x10 .f32).view

abbrev ms6_0 (t : Fin cfg6.N) : Memref sig .tc .vmem S5000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x1 .i32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128x10 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x10 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S256x10 .f32 := win6_4.stage (cfg6.slots t 4)
abbrev hs6_4 (t : Fin cfg6.N) : (ms6_4 t).IsWhole := hstage6_4 ((cfg6.slots t 4).cast nbuf6_4)

abbrev scM6_0 : Memref sig .tc .vmem S256x128 .f32 := Memref.whole cc6_scratch0
abbrev scM6_1 : Memref sig .tc .vmem S256x1 .f32 := Memref.whole cc6_scratch1

abbrev VS6_0 : View sig .tc .vmem S256x128 .f32 := scM6_0.view
abbrev VS6_1 : View sig .tc .vmem S256x1 .f32 := scM6_1.view

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

/-- A whole memref owned at `X` is its points-to at the raw contents that read `X` (reading is a bijection there). -/
theorem owns_unread {c : Dev nD} {sp : Space} {sh : Shape} {e : EltTy} {m : Memref sig .tc sp sh e} (h : m.IsWhole) (q : PosShare TreeShare) (X : sh.Idx → Elt F e) :
    (owns (c : Thread nD τ) m q X : sProp 𝕄) = (m.view.loc (c : Thread nD τ) ↦[m.view.set]{q} h.unread X) := by
  have h₁ : (owns (c : Thread nD τ) m q X : sProp 𝕄) ⊢ (m.view.loc (c : Thread nD τ) ↦[m.view.set]{q} h.unread X) := by
    unfold owns; iintro ⟨%f, %hf, H⟩; obtain rfl := h.eq_unread hf; iexact H
  have h₂ := owns_intro (Ix := Unit) (Name := ℕ) (U := UR sig nD τ) (Lvl := ℕ) (c : Thread nD τ) m q (h.unread X)
  rw [h.read_unread] at h₂
  exact BI.equiv_iff.mp ⟨h₁, h₂⟩

section
variable (c : Dev nD) (i : grid6.Coords) (arg1 : Memref sig .tc .vmem S5000x128 .f32) (harg1 : arg1.IsWhole) (arg2 : Memref sig .tc .vmem S5000x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S256x10 .f32) (harg5 : arg5.IsWhole) (arg6 : Memref sig .tc .vmem S256x128 .f32) (harg6 : arg6.IsWhole) (arg7 : Memref sig .tc .vmem S256x1 .f32) (harg7 : arg7.IsWhole)

section
variable (hc0 : cond6_0 i) (hc1 : ¬cond6_1 i) (x0 : Vec F S5000x128 .f32) (x1 : Vec F S5000x1 .i32) (x2 : Vec F S128x10 .f32) (x3 : Vec F S1x10 .f32)

set_option maxHeartbeats 1000000 in
noncomputable def kernelRun6_A :
    Σ' (L4 : List (View.Piece (Elt F) S256x10 .f32)) (LS0 : List (View.Piece (Elt F) S256x128 .f32)), { LS1 : List (View.Piece (Elt F) S256x1 .f32) //
      ∀ (xi4 : Vec F S256x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc6__pool_classify_kernel i arg1 harg1 arg2 harg2 arg3 harg3 arg4 harg4 arg5 harg5 arg6 harg6 arg7 harg7) K } := by
  refine ⟨[], ?_, ?_, fun xi4 E K => ?run⟩
  case run =>
    simp only [cc6__pool_classify_kernel_eq_skeleton]; unfold cc6__pool_classify_kernel_skel
    rw [owns_unread harg1, owns_unread harg2, owns_unread harg3, owns_unread harg4, owns_unread harg5]
    unfold owns
    iintro ⟨H0, H1, H2, H3, H4, ⟨%ds0, %fs0, -, HS0⟩, ⟨%ds1, %fs1, -, HS1⟩, Hk⟩
    sl_exec (disch := first | exact hc0 | exact hc1)
    sl_step
    iapply Hk
    iframe H0 H1 H2 H3 H4
    isplitl [HS0]; · iexists _; iexact HS0
    iexists _; iexact HS1

def out6_A_4 : Vec F S256x10 .f32 :=
  VO6_4.read (Elt F) (VO6_4.writes (Elt F) VO6_4.junk (kernelRun6_A c i arg1 harg1 arg2 harg2 arg3 harg3 arg4 harg4 arg5 harg5 arg6 harg6 arg7 harg7 hc0 hc1 x0 x1 x2 x3).1)

theorem scover6_A_0 (y : S256x128.Idx) :
    ∃ pc ∈ (kernelRun6_A c i arg1 harg1 arg2 harg2 arg3 harg3 arg4 harg4 arg5 harg5 arg6 harg6 arg7 harg7 hc0 hc1 x0 x1 x2 x3).2.1, y ∈ pc.1.set :=
  View.cover_of_tiledL _ S256x128.size (by sl_kernel_rfl) y

def sout6_A_0 : Vec F S256x128 .f32 :=
  VS6_0.read (Elt F) (VS6_0.writes (Elt F) VS6_0.junk (kernelRun6_A c i arg1 harg1 arg2 harg2 arg3 harg3 arg4 harg4 arg5 harg5 arg6 harg6 arg7 harg7 hc0 hc1 x0 x1 x2 x3).2.1)

theorem scover6_A_1 (y : S256x1.Idx) :
    ∃ pc ∈ (kernelRun6_A c i arg1 harg1 arg2 harg2 arg3 harg3 arg4 harg4 arg5 harg5 arg6 harg6 arg7 harg7 hc0 hc1 x0 x1 x2 x3).2.2.1, y ∈ pc.1.set :=
  View.cover_of_tiledL _ S256x1.size (by sl_kernel_rfl) y

def sout6_A_1 : Vec F S256x1 .f32 :=
  VS6_1.read (Elt F) (VS6_1.writes (Elt F) VS6_1.junk (kernelRun6_A c i arg1 harg1 arg2 harg2 arg3 harg3 arg4 harg4 arg5 harg5 arg6 harg6 arg7 harg7 hc0 hc1 x0 x1 x2 x3).2.2.1)

def outs6_A : Vec F S256x10 .f32 × Vec F S256x128 .f32 × Vec F S256x1 .f32 :=
  (out6_A_4 c i arg1 harg1 arg2 harg2 arg3 harg3 arg4 harg4 arg5 harg5 arg6 harg6 arg7 harg7 hc0 hc1 x0 x1 x2 x3, sout6_A_0 c i arg1 harg1 arg2 harg2 arg3 harg3 arg4 harg4 arg5 harg5 arg6 harg6 arg7 harg7 hc0 hc1 x0 x1 x2 x3, sout6_A_1 c i arg1 harg1 arg2 harg2 arg3 harg3 arg4 harg4 arg5 harg5 arg6 harg6 arg7 harg7 hc0 hc1 x0 x1 x2 x3)

end

section
variable (hc0 : ¬cond6_0 i) (hc1 : ¬cond6_1 i) (x0 : Vec F S5000x128 .f32) (x1 : Vec F S5000x1 .i32) (x2 : Vec F S128x10 .f32) (x3 : Vec F S1x10 .f32) (xs0 : Vec F S256x128 .f32) (xs1 : Vec F S256x1 .f32)

set_option maxHeartbeats 1000000 in
noncomputable def kernelRun6_B :
    Σ' (L4 : List (View.Piece (Elt F) S256x10 .f32)) (LS0 : List (View.Piece (Elt F) S256x128 .f32)), { LS1 : List (View.Piece (Elt F) S256x1 .f32) //
      ∀ (xi4 : Vec F S256x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc6__pool_classify_kernel i arg1 harg1 arg2 harg2 arg3 harg3 arg4 harg4 arg5 harg5 arg6 harg6 arg7 harg7) K } := by
  refine ⟨[], ?_, ?_, fun xi4 E K => ?run⟩
  case run =>
    simp only [cc6__pool_classify_kernel_eq_skeleton]; unfold cc6__pool_classify_kernel_skel
    rw [owns_unread harg1, owns_unread harg2, owns_unread harg3, owns_unread harg4, owns_unread harg5, owns_unread harg6, owns_unread harg7]
    iintro ⟨H0, H1, H2, H3, H4, HS0, HS1, Hk⟩
    sl_exec (disch := first | exact hc0 | exact hc1)
    sl_step
    iapply Hk
    iframe H0 H1 H2 H3 H4
    isplitl [HS0]; · iexists _; iexact HS0
    iexists _; iexact HS1

def out6_B_4 : Vec F S256x10 .f32 :=
  VO6_4.read (Elt F) (VO6_4.writes (Elt F) VO6_4.junk (kernelRun6_B c i arg1 harg1 arg2 harg2 arg3 harg3 arg4 harg4 arg5 harg5 arg6 harg6 arg7 harg7 hc0 hc1 x0 x1 x2 x3 xs0 xs1).1)

theorem scover6_B_0 (y : S256x128.Idx) :
    ∃ pc ∈ (kernelRun6_B c i arg1 harg1 arg2 harg2 arg3 harg3 arg4 harg4 arg5 harg5 arg6 harg6 arg7 harg7 hc0 hc1 x0 x1 x2 x3 xs0 xs1).2.1, y ∈ pc.1.set :=
  View.cover_of_tiledL _ S256x128.size (by sl_kernel_rfl) y

def sout6_B_0 : Vec F S256x128 .f32 :=
  VS6_0.read (Elt F) (VS6_0.writes (Elt F) VS6_0.junk (kernelRun6_B c i arg1 harg1 arg2 harg2 arg3 harg3 arg4 harg4 arg5 harg5 arg6 harg6 arg7 harg7 hc0 hc1 x0 x1 x2 x3 xs0 xs1).2.1)

theorem scover6_B_1 (y : S256x1.Idx) :
    ∃ pc ∈ (kernelRun6_B c i arg1 harg1 arg2 harg2 arg3 harg3 arg4 harg4 arg5 harg5 arg6 harg6 arg7 harg7 hc0 hc1 x0 x1 x2 x3 xs0 xs1).2.2.1, y ∈ pc.1.set :=
  View.cover_of_tiledL _ S256x1.size (by sl_kernel_rfl) y

def sout6_B_1 : Vec F S256x1 .f32 :=
  VS6_1.read (Elt F) (VS6_1.writes (Elt F) VS6_1.junk (kernelRun6_B c i arg1 harg1 arg2 harg2 arg3 harg3 arg4 harg4 arg5 harg5 arg6 harg6 arg7 harg7 hc0 hc1 x0 x1 x2 x3 xs0 xs1).2.2.1)

def outs6_B : Vec F S256x10 .f32 × Vec F S256x128 .f32 × Vec F S256x1 .f32 :=
  (out6_B_4 c i arg1 harg1 arg2 harg2 arg3 harg3 arg4 harg4 arg5 harg5 arg6 harg6 arg7 harg7 hc0 hc1 x0 x1 x2 x3 xs0 xs1, sout6_B_0 c i arg1 harg1 arg2 harg2 arg3 harg3 arg4 harg4 arg5 harg5 arg6 harg6 arg7 harg7 hc0 hc1 x0 x1 x2 x3 xs0 xs1, sout6_B_1 c i arg1 harg1 arg2 harg2 arg3 harg3 arg4 harg4 arg5 harg5 arg6 harg6 arg7 harg7 hc0 hc1 x0 x1 x2 x3 xs0 xs1)

end

section
variable (hc0 : ¬cond6_0 i) (hc1 : cond6_1 i) (x0 : Vec F S5000x128 .f32) (x1 : Vec F S5000x1 .i32) (x2 : Vec F S128x10 .f32) (x3 : Vec F S1x10 .f32) (xs0 : Vec F S256x128 .f32) (xs1 : Vec F S256x1 .f32)

set_option maxHeartbeats 1000000 in
noncomputable def kernelRun6_C :
    Σ' (L4 : List (View.Piece (Elt F) S256x10 .f32)) (LS0 : List (View.Piece (Elt F) S256x128 .f32)), { LS1 : List (View.Piece (Elt F) S256x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc6__pool_classify_kernel i arg1 harg1 arg2 harg2 arg3 harg3 arg4 harg4 arg5 harg5 arg6 harg6 arg7 harg7) K } := by
  refine ⟨?_, ?_, ?_, fun E K => ?run⟩
  case run =>
    simp only [cc6__pool_classify_kernel_eq_skeleton]; unfold cc6__pool_classify_kernel_skel
    rw [owns_unread harg1, owns_unread harg2, owns_unread harg3, owns_unread harg4, owns_unread harg6, owns_unread harg7]
    unfold owns
    iintro ⟨H0, H1, H2, H3, ⟨%d4, %f4, -, H4⟩, HS0, HS1, Hk⟩
    sl_exec (disch := first | exact hc0 | exact hc1)
    sl_step
    iapply Hk
    iframe H0 H1 H2 H3
    isplitl [H4]; · iexists _; iexact H4
    isplitl [HS0]; · iexists _; iexact HS0
    iexists _; iexact HS1

theorem cover6_C_4 (y : S256x10.Idx) :
    ∃ pc ∈ (kernelRun6_C c i arg1 harg1 arg2 harg2 arg3 harg3 arg4 harg4 arg5 harg5 arg6 harg6 arg7 harg7 hc0 hc1 x0 x1 x2 x3 xs0 xs1).1, y ∈ pc.1.set :=
  View.cover_of_tiledL _ S256x10.size (by sl_kernel_rfl) y

def out6_C_4 : Vec F S256x10 .f32 :=
  VO6_4.read (Elt F) (VO6_4.writes (Elt F) VO6_4.junk (kernelRun6_C c i arg1 harg1 arg2 harg2 arg3 harg3 arg4 harg4 arg5 harg5 arg6 harg6 arg7 harg7 hc0 hc1 x0 x1 x2 x3 xs0 xs1).1)

theorem scover6_C_0 (y : S256x128.Idx) :
    ∃ pc ∈ (kernelRun6_C c i arg1 harg1 arg2 harg2 arg3 harg3 arg4 harg4 arg5 harg5 arg6 harg6 arg7 harg7 hc0 hc1 x0 x1 x2 x3 xs0 xs1).2.1, y ∈ pc.1.set :=
  View.cover_of_tiledL _ S256x128.size (by sl_kernel_rfl) y

def sout6_C_0 : Vec F S256x128 .f32 :=
  VS6_0.read (Elt F) (VS6_0.writes (Elt F) VS6_0.junk (kernelRun6_C c i arg1 harg1 arg2 harg2 arg3 harg3 arg4 harg4 arg5 harg5 arg6 harg6 arg7 harg7 hc0 hc1 x0 x1 x2 x3 xs0 xs1).2.1)

theorem scover6_C_1 (y : S256x1.Idx) :
    ∃ pc ∈ (kernelRun6_C c i arg1 harg1 arg2 harg2 arg3 harg3 arg4 harg4 arg5 harg5 arg6 harg6 arg7 harg7 hc0 hc1 x0 x1 x2 x3 xs0 xs1).2.2.1, y ∈ pc.1.set :=
  View.cover_of_tiledL _ S256x1.size (by sl_kernel_rfl) y

def sout6_C_1 : Vec F S256x1 .f32 :=
  VS6_1.read (Elt F) (VS6_1.writes (Elt F) VS6_1.junk (kernelRun6_C c i arg1 harg1 arg2 harg2 arg3 harg3 arg4 harg4 arg5 harg5 arg6 harg6 arg7 harg7 hc0 hc1 x0 x1 x2 x3 xs0 xs1).2.2.1)

def outs6_C : Vec F S256x10 .f32 × Vec F S256x128 .f32 × Vec F S256x1 .f32 :=
  (out6_C_4 c i arg1 harg1 arg2 harg2 arg3 harg3 arg4 harg4 arg5 harg5 arg6 harg6 arg7 harg7 hc0 hc1 x0 x1 x2 x3 xs0 xs1, sout6_C_0 c i arg1 harg1 arg2 harg2 arg3 harg3 arg4 harg4 arg5 harg5 arg6 harg6 arg7 harg7 hc0 hc1 x0 x1 x2 x3 xs0 xs1, sout6_C_1 c i arg1 harg1 arg2 harg2 arg3 harg3 arg4 harg4 arg5 harg5 arg6 harg6 arg7 harg7 hc0 hc1 x0 x1 x2 x3 xs0 xs1)

end

end

def outsAt6 (c : Dev nD) : (n : ℕ) → n < cfg6.N → Vec F S256x10 .f32 × Vec F S256x128 .f32 × Vec F S256x1 .f32
  | 0, hn =>
    outs6_A c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) scM6_0 (Memref.isWhole_whole _) scM6_1 (Memref.isWhole_whole _) ((hcond6_0 ⟨0, hn⟩).mpr rfl) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩)
  | n + 1, hn =>
    if h1 : n + 1 = 9 then
      outs6_C c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6_0 (Memref.isWhole_whole _) scM6_1 (Memref.isWhole_whole _) (fun h => Nat.succ_ne_zero n ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.1 (outsAt6 c n (Nat.lt_of_succ_lt hn)).2.2
    else
      outs6_B c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6_0 (Memref.isWhole_whole _) scM6_1 (Memref.isWhole_whole _) (fun h => Nat.succ_ne_zero n ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.1 (outsAt6 c n (Nat.lt_of_succ_lt hn)).2.2

theorem outsAt6_A (c : Dev nD) (t : Fin cfg6.N) (h0 : t.val = 0) (h1 : ¬t.val = 9) :
    outsAt6 V c t.val t.isLt =
    (out6_A_4 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t),
      sout6_A_0 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t),
      sout6_A_1 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t)) := by
  obtain ⟨n, hn⟩ := t
  cases n with
  | zero => exact rfl
  | succ n => exact absurd h0 (Nat.succ_ne_zero n)

theorem outsAt6_B (c : Dev nD) (t : Fin cfg6.N) (h0 : ¬t.val = 0) (h1 : ¬t.val = 9) :
    outsAt6 V c t.val t.isLt =
    (out6_B_4 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (outsAt6 V c (t.val - 1) (Nat.lt_of_le_of_lt (Nat.sub_le _ _) t.isLt)).2.1 (outsAt6 V c (t.val - 1) (Nat.lt_of_le_of_lt (Nat.sub_le _ _) t.isLt)).2.2,
      sout6_B_0 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (outsAt6 V c (t.val - 1) (Nat.lt_of_le_of_lt (Nat.sub_le _ _) t.isLt)).2.1 (outsAt6 V c (t.val - 1) (Nat.lt_of_le_of_lt (Nat.sub_le _ _) t.isLt)).2.2,
      sout6_B_1 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (outsAt6 V c (t.val - 1) (Nat.lt_of_le_of_lt (Nat.sub_le _ _) t.isLt)).2.1 (outsAt6 V c (t.val - 1) (Nat.lt_of_le_of_lt (Nat.sub_le _ _) t.isLt)).2.2) := by
  obtain ⟨n, hn⟩ := t
  cases n with
  | zero => exact absurd rfl h0
  | succ n => exact (dif_neg h1).trans rfl

theorem outsAt6_C (c : Dev nD) (t : Fin cfg6.N) (h0 : ¬t.val = 0) (h1 : t.val = 9) :
    outsAt6 V c t.val t.isLt =
    (out6_C_4 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.1 (outsAt6 V c (t.val - 1) (Nat.lt_of_le_of_lt (Nat.sub_le _ _) t.isLt)).2.2,
      sout6_C_0 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.1 (outsAt6 V c (t.val - 1) (Nat.lt_of_le_of_lt (Nat.sub_le _ _) t.isLt)).2.2,
      sout6_C_1 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.1 (outsAt6 V c (t.val - 1) (Nat.lt_of_le_of_lt (Nat.sub_le _ _) t.isLt)).2.2) := by
  obtain ⟨n, hn⟩ := t
  cases n with
  | zero => exact absurd rfl h0
  | succ n => exact (dif_pos h1).trans rfl

abbrev restBut6 (c : Dev nD) : sProp 𝕄 :=
  Pipeline.scopedRestBut (Ix := Unit) (Name := ℕ) (U := UR sig nD τ) (Lvl := ℕ) (Val := Elt F) spec6 c [cc6_scratch0, cc6_scratch1]

def PhiS6 (c : Dev nD) : (n : ℕ) → n ≤ cfg6.N → sProp 𝕄
  | 0, _ => Pipeline.ΦA spec6 c
  | n + 1, hn => iprop(iprop(iprop(owns (c : Thread nD τ) scM6_0 fullShare ((outsAt6 V c n hn).2.1) ∗ owns (c : Thread nD τ) scM6_1 fullShare ((outsAt6 V c n hn).2.2)) ∗ restBut6 (F := F) c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare ((outsAt6 V c n hn).2.1) ∗ owns (c : Thread nD τ) scM6_1 fullShare ((outsAt6 V c n hn).2.2)) ∗ restBut6 (F := F) c) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare ((outsAt6 V c (n - 1) (by omega)).2.1) ∗ owns (c : Thread nD τ) scM6_1 fullShare ((outsAt6 V c (n - 1) (by omega)).2.2)) ∗ restBut6 (F := F) c) ∗ (∃ r, prngReg c r)) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_4 (c : Dev nD) (t : Fin cfg6.N) : (dat6 V c).after 4 t = (outsAt6 V c t.val t.isLt).1 := by dsimp only [dat6]

theorem before6 (c : Dev nD) (t : Fin cfg6.N) :
    (∀ d, (dat6 V c).before 0 t d = iblk6 V c 0 t) ∧ (∀ d, (dat6 V c).before 1 t d = iblk6 V c 1 t)
      ∧ (∀ d, (dat6 V c).before 2 t d = iblk6 V c 2 t) ∧ (∀ d, (dat6 V c).before 3 t d = iblk6 V c 3 t) := by
  refine ⟨?_, ?_, ?_, ?_⟩ <;> intro d <;>
    exact (Dat.before_in_eq_fetched _ _ rfl (fun _ => rfl) (fun _ _ _ => rfl) (fun _ => rfl) t d).trans rfl

/-- Stores whose pieces cover a memref leave it owned at the pieces read back over anything. -/
theorem owns_of_cover {c : Dev nD} {sp sp' : Space} {κ' : Kind} {sh : Shape} {e : EltTy} {M : Memref sig .tc sp sh e} (v' : View sig κ' sp' sh e)
    {L : List (View.Piece (Elt F) sh e)} (h : ∀ y, ∃ pc ∈ L, y ∈ pc.1.set) :
    iprop(∃ f, M.view.loc (c : Thread nD τ) ↦[M.view.set]{fullShare} M.view.writes (Elt F) f L)
      ⊢ (owns (c : Thread nD τ) M fullShare (v'.read (Elt F) (v'.writes (Elt F) v'.junk L)) : sProp 𝕄) := by
  iintro ⟨%f, H⟩; unfold owns; iexists M.view.writes (Elt F) f L; isplitr
  · ipureintro; exact View.read_writes_of_cover _ _ _ _ _ h
  · iexact H

set_option maxHeartbeats 4800000 in
theorem sound_body6 (c : Dev nD) (t : Fin cfg6.N) :
    iprop(PhiS6 V c t.val (Nat.le_of_lt t.isLt) ∗ (dat6 V c).owesAt () t.castSucc
      ∗ (∃ d, owns (c : Thread nD τ) (ms6_0 t) fullShare ((dat6 V c).before 0 t d)) ∗ (∃ d, owns (c : Thread nD τ) (ms6_1 t) fullShare ((dat6 V c).before 1 t d))
      ∗ (∃ d, owns (c : Thread nD τ) (ms6_2 t) fullShare ((dat6 V c).before 2 t d)) ∗ (∃ d, owns (c : Thread nD τ) (ms6_3 t) fullShare ((dat6 V c).before 3 t d))
      ∗ (∃ d, owns (c : Thread nD τ) (ms6_4 t) fullShare ((dat6 V c).before 4 t d)))
    ⊢ wp frame (wpE (defs₀ (F := F)) Variants.none c none) Set.univ (bodyAt6 t) (fun _ =>
      iprop(PhiS6 V c (t.val + 1) t.isLt ∗ (dat6 V c).owesAt () t.castSucc
        ∗ owns (c : Thread nD τ) (ms6_0 t) fullShare (iblk6 V c 0 t) ∗ owns (c : Thread nD τ) (ms6_1 t) fullShare (iblk6 V c 1 t) ∗ owns (c : Thread nD τ) (ms6_2 t) fullShare (iblk6 V c 2 t) ∗ owns (c : Thread nD τ) (ms6_3 t) fullShare (iblk6 V c 3 t)
        ∗ (dat6 V c).leavesExact 4 t)) := by
  unfold bodyAt6
  obtain ⟨b0, b1, b2, b3⟩ := before6 V c t
  simp only [b0, b1, b2, b3]
  rw [PhiS6_succ]
  by_cases h0 : t.val = 0
  · have h1 : ¬t.val = 9 := by omega
    have hc0 : cond6_0 (grid6.coords t) := (hcond6_0 t).mpr h0
    have hc1 : ¬cond6_1 (grid6.coords t) := fun h => h1 ((hcond6_1 t).mp h)
    rw [Dat.leavesExact_idle (dat6 V c) 4 t (idle6_4 t hc1).1 (idle6_4 t hc1).2, outsAt6_A V c t h0 h1]
    unfold sout6_A_0 sout6_A_1; (try dsimp only)
    rw [PhiS6_zero V c _ _ h0, PhiA6_eq]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply ((kernelRun6_A c (grid6.coords t) _ _ _ _ _ _ _ _ _ _ _ _ _ _ hc0 hc1 (iblk6 V c 0 t) (iblk6 V c 1 t) (iblk6 V c 2 t) (iblk6 V c 3 t)).2.2.2 _ Set.univ _)
    iframe H0 H1 H2 H3 H4 HS0 HS1
    iintro ⟨H0, H1, H2, H3, H4, HS0, HS1⟩
    iframe Hr Hg Ho H0 H1 H2 H3
    isplitl [HS0 HS1]
    · isplitl [HS0]
      · iapply owns_of_cover _ (scover6_A_0 c _ _ _ _ _ _ _ _ _ _ _ _ _ _ _ _ _ _ _ _ _); iexact HS0
      · iapply owns_of_cover _ (scover6_A_1 c _ _ _ _ _ _ _ _ _ _ _ _ _ _ _ _ _ _ _ _ _); iexact HS1
    iexists _; iexact H4
  · have hc0 : ¬cond6_0 (grid6.coords t) := fun h => h0 ((hcond6_0 t).mp h)
    rw [PhiS6_pos V c _ _ h0]
    by_cases h1 : t.val = 9
    · have hc1 : cond6_1 (grid6.coords t) := (hcond6_1 t).mpr h1
      rw [show (dat6 V c).leavesExact 4 t = owns (c : Thread nD τ) (ms6_4 t) fullShare ((dat6 V c).after 4 t) from by
        unfold Dat.leavesExact; rw [liveAt6_4_C t hc0 hc1], after6_4, outsAt6_C V c t h0 h1]
      unfold out6_C_4 sout6_C_0 sout6_C_1; (try dsimp only)
      iintro ⟨⟨⟨⟨HS0, HS1⟩, Hr⟩, Hg⟩, Ho, ⟨%d0, H0⟩, ⟨%d1, H1⟩, ⟨%d2, H2⟩, ⟨%d3, H3⟩, ⟨%d4, H4⟩⟩
      iapply ((kernelRun6_C c (grid6.coords t) _ _ _ _ _ _ _ _ _ _ _ _ _ _ hc0 hc1 (iblk6 V c 0 t) (iblk6 V c 1 t) (iblk6 V c 2 t) (iblk6 V c 3 t) _ _).2.2.2 Set.univ _)
      iframe H0 H1 H2 H3 HS0 HS1
      isplitl [H4]; · iexists _; iexact H4
      iintro ⟨H0, H1, H2, H3, H4, HS0, HS1⟩
      iframe Hr Hg Ho H0 H1 H2 H3
      isplitl [HS0 HS1]
      · isplitl [HS0]
        · iapply owns_of_cover _ (scover6_C_0 c _ _ _ _ _ _ _ _ _ _ _ _ _ _ _ _ _ _ _ _ _ _ _); iexact HS0
        · iapply owns_of_cover _ (scover6_C_1 c _ _ _ _ _ _ _ _ _ _ _ _ _ _ _ _ _ _ _ _ _ _ _); iexact HS1
      iapply owns_of_cover _ (cover6_C_4 c _ _ _ _ _ _ _ _ _ _ _ _ _ _ _ _ _ _ _ _ _ _ _); iexact H4
    · have hc1 : ¬cond6_1 (grid6.coords t) := fun h => h1 ((hcond6_1 t).mp h)
      rw [Dat.leavesExact_idle (dat6 V c) 4 t (idle6_4 t hc1).1 (idle6_4 t hc1).2, outsAt6_B V c t h0 h1]
      unfold sout6_B_0 sout6_B_1; (try dsimp only)
      iintro ⟨⟨⟨⟨HS0, HS1⟩, Hr⟩, Hg⟩, Ho, ⟨%d0, H0⟩, ⟨%d1, H1⟩, ⟨%d2, H2⟩, ⟨%d3, H3⟩, ⟨%d4, H4⟩⟩
      iapply ((kernelRun6_B c (grid6.coords t) _ _ _ _ _ _ _ _ _ _ _ _ _ _ hc0 hc1 (iblk6 V c 0 t) (iblk6 V c 1 t) (iblk6 V c 2 t) (iblk6 V c 3 t) _ _).2.2.2 _ Set.univ _)
      iframe H0 H1 H2 H3 H4 HS0 HS1
      iintro ⟨H0, H1, H2, H3, H4, HS0, HS1⟩
      iframe Hr Hg Ho H0 H1 H2 H3
      isplitl [HS0 HS1]
      · isplitl [HS0]
        · iapply owns_of_cover _ (scover6_B_0 c _ _ _ _ _ _ _ _ _ _ _ _ _ _ _ _ _ _ _ _ _ _ _); iexact HS0
        · iapply owns_of_cover _ (scover6_B_1 c _ _ _ _ _ _ _ _ _ _ _ _ _ _ _ _ _ _ _ _ _ _ _); iexact HS1
      iexists _; iexact H4

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := Entails.refl _

theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, Hr⟩, Hg⟩
  iframe Hr Hg
  isplitl [HS0]; · iexists _; iexact HS0
  iexists _; iexact HS1

theorem hout6 (c : Dev nD) : (dat6 V c).Φ (Fin.last cfg6.N) ⊢ Pipeline.ΦA spec6 c :=
  Phi_out6 V c _ (by rw [Fin.val_last]; have : cfg6.N = 10 := N_6; omega)

end Cert.Kernel.Fr

end
-- ==== Proof.K.Run.lean ====
import proofs.«410102_j40518721470743_1_alg».proof.Proof.K.Reg0
import proofs.«410102_j40518721470743_1_alg».proof.Proof.K.Reg1
import proofs.«410102_j40518721470743_1_alg».proof.Proof.K.Reg2
import proofs.«410102_j40518721470743_1_alg».proof.Proof.K.Reg3
import proofs.«410102_j40518721470743_1_alg».proof.Proof.K.Reg4
import proofs.«410102_j40518721470743_1_alg».proof.Proof.K.Reg5
import proofs.«410102_j40518721470743_1_alg».proof.Proof.K.Reg6
import proofs.«410102_j40518721470743_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev W2 : Dev nD → Valuation τ sig (Elt F) := fun c => StableHlo.after hostOps0_1 (W1 m ρ c)

abbrev W3 : Dev nD → Valuation τ sig (Elt F) := fun c => StableHlo.after hostOps0_2 (W2 m ρ c)

abbrev Vin0 : (c : Dev nD) → (b : Ref sig .tc) → Buf (Elt F) ((c : Thread nD τ).loc b) := fun c b => W3 m ρ c b

def W4 (c : Dev nD) : Valuation τ sig (Elt F) :=
  Pipeline.withArrays spec0 c (W3 m ρ c) fun w => (dat0 (Vin0 m ρ) c).arrAt w cfg0.N
theorem W4_arr (c : Dev nD) (w : Fin cfg0.W) :
    W4 m ρ c (Proc.devRef .tc (Pipeline.arrRef spec0 w)) = (dat0 (Vin0 m ρ) c).arrAt w cfg0.N := by
  unfold W4; exact Pipeline.withArrays_arr spec0 launch0.win.arr_inj c _ _ w

abbrev W5 : Dev nD → Valuation τ sig (Elt F) := fun c => StableHlo.after hostOps1 (W4 m ρ c)

abbrev Vin1 : (c : Dev nD) → (b : Ref sig .tc) → Buf (Elt F) ((c : Thread nD τ).loc b) := fun c b => W5 m ρ c b

def W6 (c : Dev nD) : Valuation τ sig (Elt F) :=
  Pipeline.withArrays spec1 c (W5 m ρ c) fun w => (dat1 (Vin1 m ρ) c).arrAt w cfg1.N
theorem W6_arr (c : Dev nD) (w : Fin cfg1.W) :
    W6 m ρ c (Proc.devRef .tc (Pipeline.arrRef spec1 w)) = (dat1 (Vin1 m ρ) c).arrAt w cfg1.N := by
  unfold W6; exact Pipeline.withArrays_arr spec1 launch1.win.arr_inj c _ _ w

abbrev Vin2 : (c : Dev nD) → (b : Ref sig .tc) → Buf (Elt F) ((c : Thread nD τ).loc b) := fun c b => W6 m ρ c b

def W7 (c : Dev nD) : Valuation τ sig (Elt F) :=
  Pipeline.withArrays spec2 c (W6 m ρ c) fun w => (dat2 (Vin2 m ρ) c).arrAt w cfg2.N
theorem W7_arr (c : Dev nD) (w : Fin cfg2.W) :
    W7 m ρ c (Proc.devRef .tc (Pipeline.arrRef spec2 w)) = (dat2 (Vin2 m ρ) c).arrAt w cfg2.N := by
  unfold W7; exact Pipeline.withArrays_arr spec2 launch2.win.arr_inj c _ _ w

abbrev W8 : Dev nD → Valuation τ sig (Elt F) := fun c => StableHlo.after hostOps3 (W7 m ρ c)

abbrev Vin3 : (c : Dev nD) → (b : Ref sig .tc) → Buf (Elt F) ((c : Thread nD τ).loc b) := fun c b => W8 m ρ c b

def W9 (c : Dev nD) : Valuation τ sig (Elt F) :=
  Pipeline.withArrays spec3 c (W8 m ρ c) fun w => (dat3 (Vin3 m ρ) c).arrAt w cfg3.N
theorem W9_arr (c : Dev nD) (w : Fin cfg3.W) :
    W9 m ρ c (Proc.devRef .tc (Pipeline.arrRef spec3 w)) = (dat3 (Vin3 m ρ) c).arrAt w cfg3.N := by
  unfold W9; exact Pipeline.withArrays_arr spec3 launch3.win.arr_inj c _ _ w

abbrev Vin4 : (c : Dev nD) → (b : Ref sig .tc) → Buf (Elt F) ((c : Thread nD τ).loc b) := fun c b => W9 m ρ c b

def W10 (c : Dev nD) : Valuation τ sig (Elt F) :=
  Pipeline.withArrays spec4 c (W9 m ρ c) fun w => (dat4 (Vin4 m ρ) c).arrAt w cfg4.N
theorem W10_arr (c : Dev nD) (w : Fin cfg4.W) :
    W10 m ρ c (Proc.devRef .tc (Pipeline.arrRef spec4 w)) = (dat4 (Vin4 m ρ) c).arrAt w cfg4.N := by
  unfold W10; exact Pipeline.withArrays_arr spec4 launch4.win.arr_inj c _ _ w

abbrev W11 : Dev nD → Valuation τ sig (Elt F) := fun c => StableHlo.after hostOps5 (W10 m ρ c)

abbrev Vin5 : (c : Dev nD) → (b : Ref sig .tc) → Buf (Elt F) ((c : Thread nD τ).loc b) := fun c b => W11 m ρ c b

def W12 (c : Dev nD) : Valuation τ sig (Elt F) :=
  Pipeline.withArrays spec5 c (W11 m ρ c) fun w => (dat5 (Vin5 m ρ) c).arrAt w cfg5.N
theorem W12_arr (c : Dev nD) (w : Fin cfg5.W) :
    W12 m ρ c (Proc.devRef .tc (Pipeline.arrRef spec5 w)) = (dat5 (Vin5 m ρ) c).arrAt w cfg5.N := by
  unfold W12; exact Pipeline.withArrays_arr spec5 launch5.win.arr_inj c _ _ w

abbrev W13 : Dev nD → Valuation τ sig (Elt F) := fun c => StableHlo.after hostOps6 (W12 m ρ c)

abbrev Vin6 : (c : Dev nD) → (b : Ref sig .tc) → Buf (Elt F) ((c : Thread nD τ).loc b) := fun c b => W13 m ρ c b

def W14 (c : Dev nD) : Valuation τ sig (Elt F) :=
  Pipeline.withArrays spec6 c (W13 m ρ c) fun w => (dat6 (Vin6 m ρ) c).arrAt w cfg6.N
theorem W14_arr (c : Dev nD) (w : Fin cfg6.W) :
    W14 m ρ c (Proc.devRef .tc (Pipeline.arrRef spec6 w)) = (dat6 (Vin6 m ρ) c).arrAt w cfg6.N := by
  unfold W14; exact Pipeline.withArrays_arr spec6 launch6.win.arr_inj c _ _ w

def pdats : (p : Fin 7) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
  | ⟨2, _⟩ => fun c => dat2 (Vin2 m ρ) c
  | ⟨3, _⟩ => fun c => dat3 (Vin3 m ρ) c
  | ⟨4, _⟩ => fun c => dat4 (Vin4 m ρ) c
  | ⟨5, _⟩ => fun c => dat5 (Vin5 m ρ) c
  | ⟨6, _⟩ => fun c => dat6 (Vin6 m ρ) c

/-- By cases on whether `b` is a window's array: an operand window's array is read back as entered, any other buffer is not touched. -/
theorem keep (p : Fin 7) (hl : Pipeline.LaunchFacts (nD := nD) (τ := τ) cfgs p) (c : Dev nD) (V : Valuation τ sig (Elt F))
    (hA : ∀ w, (pdats m ρ p c).A w = V (Proc.devRef .tc (Pipeline.arrRef (cfgs p).spec w))) (b : Ref sig .tc)
    (hb : ∀ w, Pipeline.arrRef (cfgs p).spec w = b → ((cfgs p).win w).isOut = false) :
    Pipeline.withArrays (cfgs p).spec c V (fun w => (pdats m ρ p c).arrAt w (cfgs p).N) (Proc.devRef .tc b) = V (Proc.devRef .tc b) := by
  by_cases h : ∃ w, Pipeline.arrRef (cfgs p).spec w = b
  · obtain ⟨w, rfl⟩ := h
    rw [Pipeline.withArrays_arr _ hl.win.arr_inj, (pdats m ρ p c).arrAt_in w (hb w rfl), hA]
  · exact Pipeline.withArrays_of_ne _ _ _ _ _ fun w e => h ⟨w, e⟩

/-- The valuations between @main's items, by position. -/
def Ws : ℕ → Dev nD → Valuation τ sig (Elt F)
  | 0 => W0 m ρ | 1 => W1 m ρ | 2 => W2 m ρ | 3 => W3 m ρ | 4 => W4 m ρ | 5 => W5 m ρ | 6 => W6 m ρ | 7 => W7 m ρ
  | 8 => W8 m ρ | 9 => W9 m ρ | 10 => W10 m ρ | 11 => W11 m ρ | 12 => W12 m ρ | 13 => W13 m ρ | _ => W14 m ρ

abbrev In (p : Fin 7) (b : Ref sig .tc) : Prop := ∀ w, Pipeline.arrRef (cfgs p).spec w = b → ((cfgs p).win w).isOut = false

/-- What item `i` must satisfy to leave `b` alone: a host stretch does not write it, a call has it as no output window's array. -/
noncomputable def keeps (b : Ref sig .tc) : ℕ → Bool
  | 0 => b ∉ hostOps0_W | 1 => b ∉ hostOps0_1_W | 2 => b ∉ hostOps0_2_W | 3 => In 0 b | 4 => b ∉ hostOps1_W | 5 => In 1 b
  | 6 => In 2 b | 7 => b ∉ hostOps3_W | 8 => In 3 b | 9 => In 4 b | 10 => b ∉ hostOps5_W | 11 => In 5 b
  | 12 => b ∉ hostOps6_W | 13 => In 6 b | _ => true

theorem step (c : Dev nD) (b : Ref sig .tc) :
    ∀ i, keeps b i = true → Ws m ρ (i + 1) c (Proc.devRef .tc b) = Ws m ρ i c (Proc.devRef .tc b)
  | 0, h => StableHlo.after_of_writes_sub hostOps0 _ hostOps0_writes (of_decide_eq_true h)
  | 1, h => StableHlo.after_of_writes_sub hostOps0_1 _ hostOps0_1_writes (of_decide_eq_true h)
  | 2, h => StableHlo.after_of_writes_sub hostOps0_2 _ hostOps0_2_writes (of_decide_eq_true h)
  | 3, h => keep m ρ 0 launch0 c _ (A_eq0 _ c) b (of_decide_eq_true h)
  | 4, h => StableHlo.after_of_writes_sub hostOps1 _ hostOps1_writes (of_decide_eq_true h)
  | 5, h => keep m ρ 1 launch1 c _ (A_eq1 _ c) b (of_decide_eq_true h)
  | 6, h => keep m ρ 2 launch2 c _ (A_eq2 _ c) b (of_decide_eq_true h)
  | 7, h => StableHlo.after_of_writes_sub hostOps3 _ hostOps3_writes (of_decide_eq_true h)
  | 8, h => keep m ρ 3 launch3 c _ (A_eq3 _ c) b (of_decide_eq_true h)
  | 9, h => keep m ρ 4 launch4 c _ (A_eq4 _ c) b (of_decide_eq_true h)
  | 10, h => StableHlo.after_of_writes_sub hostOps5 _ hostOps5_writes (of_decide_eq_true h)
  | 11, h => keep m ρ 5 launch5 c _ (A_eq5 _ c) b (of_decide_eq_true h)
  | 12, h => StableHlo.after_of_writes_sub hostOps6 _ hostOps6_writes (of_decide_eq_true h)
  | 13, h => keep m ρ 6 launch6 c _ (A_eq6 _ c) b (of_decide_eq_true h)
  | _ + 14, _ => rfl

/-- Induction on the number of items passed, one `step` each. -/
theorem between (c : Dev nD) (b : Ref sig .tc) (i : ℕ) : ∀ n, (∀ k, i ≤ k → k < i + n → keeps b k = true) →
    Ws m ρ (i + n) c (Proc.devRef .tc b) = Ws m ρ i c (Proc.devRef .tc b)
  | 0, _ => rfl
  | n + 1, h => (step m ρ c b (i + n) (h _ (Nat.le_add_right i n) (Nat.lt_succ_self _))).trans
      (between c b i n fun k h1 h2 => h k h1 (Nat.lt_succ_of_lt h2))

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- A call as a segment between two valuations: its window arrays are split off at entry and rejoined at their final contents at exit. -/
def reg (p : Fin 7) (hl : Pipeline.LaunchFacts (nD := nD) (τ := τ) cfgs p) (V : Dev nD → Valuation τ sig (Elt F))
    (hb : ∀ c, BodyObligation (pdats m ρ p c) defs₀ 𝒱₀ () Set.univ)
    (hq : ∀ c w, (pdats m ρ p c).q w = fullShare)
    (hA : ∀ c w, (pdats m ρ p c).A w = V c (Proc.devRef .tc (Pipeline.arrRef (cfgs p).spec w)))
    (h0 : ∀ c t, (pdats m ρ p c).owed t = 0) (hr : ∀ c x, x ∈ (pdats m ρ p c).recorded 0)
    (hi : ∀ c, (Pipeline.ΦA (cfgs p).spec c : sProp 𝕄) ⊢ (pdats m ρ p c).Φ 0)
    (hΦ : ∀ c, (pdats m ρ p c).Φ (Fin.last _) ⊢ (Pipeline.ΦA (cfgs p).spec c : sProp 𝕄)) :
    Pipeline.RegionSeg (pcfgs (F := F)) adm (pdats m ρ) () defs₀ 𝒱₀ L lv p where
  win := hl.win.to₀
  block_pos := hl.block_pos
  stage_whole := hl.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (V c) ∗ R c)
  post c := iprop(StableHlo.held (c : Thread nD τ) (Pipeline.ucRefs τ sig)
    (Pipeline.withArrays (cfgs p).spec c (V c) fun w => (pdats m ρ p c).arrAt w (cfgs p).N) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) adm (pdats m ρ) hl.win hl.arr_whole c
      ((pdats m ρ p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [h0]
      icases HO with ⟨%W, HO⟩; iexists W; isplitr; · ipureintro; exact fun _ _ => Or.inl (hr c _)
      iexact HO
    isplitl [Hp]; · iexact Hp
    iexact Hrest
  hin c := by
    refine .trans ?_ (hi c); unfold Pipeline.ΦA
    iintro ⟨Hp, -, Hr⟩
    isplitl [Hr]; · iexact Hr
    iexact Hp
  hout c := by
    rw [Pipeline.ownSems0_none]; refine (hΦ c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c (pdats m ρ) ((pdats m ρ p c).share_full (hq c)) (fun b => V c b)
      (fun b => Pipeline.withArrays (cfgs p).spec c (V c) (fun w => (pdats m ρ p c).arrAt w (cfgs p).N) b) ((pdats m ρ p c).arrAt · (cfgs p).N)
      (fun w => .symm <| Pipeline.withArrays_arr _ hl.win.arr_inj c (V c) _ w)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [h0]
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg m ρ 0 launch0 (W3 m ρ) (body_obligation0 _) (fun _ _ => rfl) (A_eq0 _) (fun _ _ => rfl) (fun _ _ => trivial) (fun _ => .rfl) fun _ => .rfl),
    .host (hseg hostOps1 hostOps1_sub hostOps1_fresh (W4 m ρ)),
    .region (reg m ρ 1 launch1 (W5 m ρ) (body_obligation1 _) (fun _ _ => rfl) (A_eq1 _) (fun _ _ => rfl) (fun _ _ => trivial) (fun _ => .rfl) fun _ => .rfl),
    .region (reg m ρ 2 launch2 (W6 m ρ) (body_obligation2 _) (fun _ _ => rfl) (A_eq2 _) (fun _ _ => rfl) (fun _ _ => trivial) (fun _ => .rfl) fun _ => .rfl),
    .host (hseg hostOps3 hostOps3_sub hostOps3_fresh (W7 m ρ)),
    .region (reg m ρ 3 launch3 (W8 m ρ) (body_obligation3 _) (fun _ _ => rfl) (A_eq3 _) (fun _ _ => rfl) (fun _ _ => trivial) (fun _ => .rfl) fun _ => .rfl),
    .region (reg m ρ 4 launch4 (W9 m ρ) (body_obligation4 _) (fun _ _ => rfl) (A_eq4 _) (fun _ _ => rfl) (fun _ _ => trivial) (fun _ => .rfl) fun _ => .rfl),
    .host (hseg hostOps5 hostOps5_sub hostOps5_fresh (W10 m ρ)),
    .region (reg m ρ 5 launch5 (W11 m ρ) (body_obligation5 _) (fun _ _ => rfl) (A_eq5 _) (fun _ _ => rfl) (fun _ _ => trivial) (fun _ => .rfl) fun _ => .rfl),
    .host (hseg hostOps6 hostOps6_sub hostOps6_fresh (W12 m ρ)),
    .region (reg m ρ 6 launch6 (W13 m ρ) (body_obligation6 _) (fun _ _ => rfl) (A_eq6 _) (fun _ _ => rfl) (fun _ _ => trivial) (hin6 _) (hout6 _)) ]

theorem main_run (c : Dev nD) : main (F := F) c = Pipeline.Seg.run (segs m ρ) := (main_chain c).trans (by chain_rfl)

abbrev EndsAt (c : Dev nD) (s : MemSt nD τ sig (Elt F)) : Prop :=
  ∀ b ∈ Pipeline.ucRefs τ sig, s.mem (((c : Thread nD τ)).1, b) = W14 m ρ c b

set_option backward.isDefEq.respectTransparency.types false in
theorem run_all : θ_run defs (onTc (τ := τ) (main (F := F))) ⟨m, fun _ => 0, ρ⟩ (fun r => ∀ c : Dev nD, EndsAt m ρ c r.2) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := fun c => StableHlo.held (c : Thread nD τ) (Pipeline.ucRefs τ sig) (W14 m ρ c))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_mono .rfl sep_elim_right⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => EndsAt m ρ c s)
    (hfin := fun c s' => by
      iintro ⟨Hh, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

/-- No item of @main writes an argument. -/
theorem args_kept (c : Dev nD) (s : MemSt nD τ sig (Elt F)) (h : EndsAt m ρ c s) :
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10) :=
  have K (b : Ref sig .tc) (hk : ¬ (Proc.devRef .tc b : DevRef τ sig).isScoped ∧ ∀ k, 0 ≤ k → k < 0 + 14 → keeps b k = true) :
      s.mem ((c.tc : Thread nD τ).loc b) = m ((c.tc : Thread nD τ).loc b) :=
    (h _ (mem_uc b hk.1)).trans (between m ρ c b 0 14 hk.2)
  ⟨K _ (by decide), K _ (by decide), K _ (by decide), K _ (by decide), K _ (by decide), K _ (by decide),
   K _ (by decide), K _ (by decide), K _ (by decide), K _ (by decide), K _ (by decide)⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept m ρ c r.2 (h c)) (run_all m ρ)

end Cert.Kernel.Fr

end
-- ==== Proof.KI.Reg0.lean ====
import proofs.«410102_j40518721470743_1_alg».proof.Proof.Gen.KernelIdeal.Launch
import proofs.«410102_j40518721470743_1_alg».proof.Proof.Gen.KernelIdeal.Skeleton
import proofs.«410102_j40518721470743_1_alg».proof.Proof.Gen.KernelIdeal.Points
import Idealize.ShloMosaic.Lib.Pipeline.FrameBody
import Idealize.ShloMosaic.Lib.Tactic

noncomputable section

namespace Cert.KernelIdeal.Fr

open Cert.KernelIdeal.Gen Idealize.ShloMosaic TcCoe Pipeline Idealize.SL RA BI BIBase Sem

variable {F : FTy → Type} [FloatOps F]

variable (V : (c : Dev nD) → (b : Ref sig .tc) → Buf (Elt F) ((c : Thread nD τ).loc b))

/-- The block of window `w` at grid point `t`, read off the window's array as `V` gives it on entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (arrRef spec0 w))

abbrev rA0 := Rect.unit (s := S5000x128) ![0, 0] S5000x128.size inb_S5000x128_S5000x128_0_0
abbrev rB0 := Rect.unit (s := S128x128) ![0, 0] S128x128.size inb_S128x128_S128x128_0_0

/-- The output block after the body: its one store, of the body's value of the two operand blocks. -/
def out0_2 (x0 : Vec F S5000x128 .f32) (x1 : Vec F S128x128 .f32) : Vec F S5000x128 .f32 :=
  View.canon [⟨rA0, k0_pay1 (View.ld x0 rA0) (View.ld x1 rB0)⟩]

/-- The body reads `x0` and `x1` and overwrites the whole output, whatever it held, with `out0_2 x0 x1`; `P` and `Q` pass through. -/
theorem sound_kernel0 (c : Dev nD) {i a1 h1 a2 h2 a3 h3} (x0 x1) {α β γ} {g : γ → _} {P Q : sProp (MT nD τ sig Unit (Elt F) ℕ (UR sig nD τ) ℕ)} :
    iprop(P ∗ Q ∗ (∃ _ : α, owns c a1 fullShare x0) ∗ (∃ _ : β, owns c a2 fullShare x1) ∗ ∃ d, owns c a3 fullShare (g d))
      ⊢ wp frame (wpE defs₀ Variants.none c none) Set.univ (cc0__linear_kernel i a1 h1 a2 h2 a3 h3) fun _ =>
        iprop(P ∗ Q ∗ owns c a1 fullShare x0 ∗ owns c a2 fullShare x1 ∗ owns c a3 fullShare (out0_2 x0 x1)) := by
  simp only [cc0__linear_kernel_eq_skeleton, cc0__linear_kernel_skel, owns]
  iintro ⟨HP, HQ, ⟨%_, %f0, %e0, H0⟩, ⟨%_, %f1, %e1, H1⟩, ⟨%d, %f2, -, H2⟩⟩
  subst e0 e1
  sl_exec!
  sl_step
  iframe HP HQ
  isplitl [H0]; · iexists _; iframe H0; itrivial
  isplitl [H1]; · iexists _; iframe H1; itrivial
  iexists _; iframe H2; ipureintro
  exact View.read_writes_junk_eq_canon _ _

/-- The call's proof data on core `c`: after the body each operand is at its block and the output at `out0_2` of the two. -/
def dat0 (c : Dev nD) : Dat τ (Elt F) Unit ℕ (UR sig nD τ) ℕ cfg0 c where
  A w := V c (arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := ΦA spec0 c
  q _ := fullShare
  owed _ := 0

theorem A_eq0 (c : Dev nD) (w : Fin cfg0.W) : (dat0 V c).A w = V c (arrRef spec0 w) := rfl

theorem after0_2 (c : Dev nD) (t : Fin cfg0.N) : (dat0 V c).after 2 t = out0_2 (iblk0 V c 0 t) (iblk0 V c 1 t) := by dsimp only [dat0]

/-- At every point both operands hold their blocks, so `sound_kernel0` applies. -/
theorem body_obligation0 (c : Dev nD) : BodyObligation (dat0 (F := F) V c) (defs₀ (F := F)) Variants.none () Set.univ := fun t => by
  simp only [bigSep_W0, after0_2, (dat0 V c).before_fetched 0 t (fetch0_0 t), (dat0 V c).before_in_eq_fetched 1 rfl (fun _ => rfl) (fun _ _ _ => rfl) (fun _ => rfl) t]
  sl_whnfR [defs₀, Defs.onTc]
  exact sound_kernel0 c (iblk0 V c 0 t) (iblk0 V c 1 t)

end Cert.KernelIdeal.Fr

end
-- ==== Proof.KI.Reg1.lean ====
import proofs.«410102_j40518721470743_1_alg».proof.Proof.Gen.KernelIdeal.Launch
import proofs.«410102_j40518721470743_1_alg».proof.Proof.Gen.KernelIdeal.Skeleton
import proofs.«410102_j40518721470743_1_alg».proof.Proof.Gen.KernelIdeal.Points
import Idealize.ShloMosaic.Lib.Pipeline.FrameBody
import Idealize.ShloMosaic.Lib.Tactic

noncomputable section

namespace Cert.KernelIdeal.Fr

open Cert.KernelIdeal.Gen Idealize.ShloMosaic TcCoe Pipeline Idealize.SL RA BI BIBase Sem

variable {F : FTy → Type} [FloatOps F]

variable (V : (c : Dev nD) → (b : Ref sig .tc) → Buf (Elt F) ((c : Thread nD τ).loc b))

/-- The block of window `w` at grid point `t`, read off the window's array as `V` gives it on entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (arrRef spec1 w))

abbrev rA1 := Rect.unit (s := S5000x128) ![0, 0] S5000x128.size inb_S5000x128_S5000x128_0_0
abbrev rB1 := Rect.unit (s := S1x128) ![0, 0] S1x128.size inb_S1x128_S1x128_0_0

/-- The output block after the body: its one store, of the body's value of the two operand blocks. -/
def out1_2 (x0 : Vec F S5000x128 .f32) (x1 : Vec F S1x128 .f32) : Vec F S5000x128 .f32 :=
  View.canon [⟨rA1, k1_pay1 (View.ld x0 rA1) (View.ld x1 rB1)⟩]

/-- The body reads `x0` and `x1` and overwrites the whole output, whatever it held, with `out1_2 x0 x1`; `P` and `Q` pass through. -/
theorem sound_kernel1 (c : Dev nD) {i a1 h1 a2 h2 a3 h3} (x0 x1) {α β γ} {g : γ → _} {P Q : sProp (MT nD τ sig Unit (Elt F) ℕ (UR sig nD τ) ℕ)} :
    iprop(P ∗ Q ∗ (∃ _ : α, owns c a1 fullShare x0) ∗ (∃ _ : β, owns c a2 fullShare x1) ∗ ∃ d, owns c a3 fullShare (g d))
      ⊢ wp frame (wpE defs₀ Variants.none c none) Set.univ (cc1_kernel i a1 h1 a2 h2 a3 h3) fun _ =>
        iprop(P ∗ Q ∗ owns c a1 fullShare x0 ∗ owns c a2 fullShare x1 ∗ owns c a3 fullShare (out1_2 x0 x1)) := by
  simp only [cc1_kernel_eq_skeleton, cc1_kernel_skel, owns]
  iintro ⟨HP, HQ, ⟨%_, %f0, %e0, H0⟩, ⟨%_, %f1, %e1, H1⟩, ⟨%d, %f2, -, H2⟩⟩
  subst e0 e1
  sl_exec!
  sl_step
  iframe HP HQ
  isplitl [H0]; · iexists _; iframe H0; itrivial
  isplitl [H1]; · iexists _; iframe H1; itrivial
  iexists _; iframe H2; ipureintro
  exact View.read_writes_junk_eq_canon _ _

/-- The call's proof data on core `c`: after the body each operand is at its block and the output at `out1_2` of the two. -/
def dat1 (c : Dev nD) : Dat τ (Elt F) Unit ℕ (UR sig nD τ) ℕ cfg1 c where
  A w := V c (arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := ΦA spec1 c
  q _ := fullShare
  owed _ := 0

theorem A_eq1 (c : Dev nD) (w : Fin cfg1.W) : (dat1 V c).A w = V c (arrRef spec1 w) := rfl

theorem after1_2 (c : Dev nD) (t : Fin cfg1.N) : (dat1 V c).after 2 t = out1_2 (iblk1 V c 0 t) (iblk1 V c 1 t) := by dsimp only [dat1]

/-- At every point both operands hold their blocks, so `sound_kernel1` applies. -/
theorem body_obligation1 (c : Dev nD) : BodyObligation (dat1 (F := F) V c) (defs₀ (F := F)) Variants.none () Set.univ := fun t => by
  simp only [bigSep_W1, after1_2, (dat1 V c).before_fetched 0 t (fetch1_0 t), (dat1 V c).before_in_eq_fetched 1 rfl (fun _ => rfl) (fun _ _ _ => rfl) (fun _ => rfl) t]
  sl_whnfR [defs₀, Defs.onTc]
  exact sound_kernel1 c (iblk1 V c 0 t) (iblk1 V c 1 t)

end Cert.KernelIdeal.Fr

end
-- ==== Proof.KI.Reg2.lean ====
import proofs.«410102_j40518721470743_1_alg».proof.Proof.Gen.KernelIdeal.Launch
import proofs.«410102_j40518721470743_1_alg».proof.Proof.Gen.KernelIdeal.Skeleton
import proofs.«410102_j40518721470743_1_alg».proof.Proof.Gen.KernelIdeal.Points
import Idealize.ShloMosaic.Lib.Pipeline.FrameBody
import Idealize.ShloMosaic.Lib.Tactic

noncomputable section

namespace Cert.KernelIdeal.Fr

open Cert.KernelIdeal.Gen Idealize.ShloMosaic TcCoe Pipeline Idealize.SL RA BI BIBase Sem

variable {F : FTy → Type} [FloatOps F]

variable (V : (c : Dev nD) → (b : Ref sig .tc) → Buf (Elt F) ((c : Thread nD τ).loc b))

/-- The block of window `w` at grid point `t`, read off the window's array as `V` gives it on entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (arrRef spec2 w))

abbrev rA2 := Rect.unit (s := S5000x128) ![0, 0] S5000x128.size inb_S5000x128_S5000x128_0_0
abbrev rB2 := Rect.unit (s := S128x128) ![0, 0] S128x128.size inb_S128x128_S128x128_0_0

/-- The output block after the body: its one store, of the body's value of the two operand blocks. -/
def out2_2 (x0 : Vec F S5000x128 .f32) (x1 : Vec F S128x128 .f32) : Vec F S5000x128 .f32 :=
  View.canon [⟨rA2, k2_pay1 (View.ld x0 rA2) (View.ld x1 rB2)⟩]

/-- The body reads `x0` and `x1` and overwrites the whole output, whatever it held, with `out2_2 x0 x1`; `P` and `Q` pass through. -/
theorem sound_kernel2 (c : Dev nD) {i a1 h1 a2 h2 a3 h3} (x0 x1) {α β γ} {g : γ → _} {P Q : sProp (MT nD τ sig Unit (Elt F) ℕ (UR sig nD τ) ℕ)} :
    iprop(P ∗ Q ∗ (∃ _ : α, owns c a1 fullShare x0) ∗ (∃ _ : β, owns c a2 fullShare x1) ∗ ∃ d, owns c a3 fullShare (g d))
      ⊢ wp frame (wpE defs₀ Variants.none c none) Set.univ (cc2__linear_kernel i a1 h1 a2 h2 a3 h3) fun _ =>
        iprop(P ∗ Q ∗ owns c a1 fullShare x0 ∗ owns c a2 fullShare x1 ∗ owns c a3 fullShare (out2_2 x0 x1)) := by
  simp only [cc2__linear_kernel_eq_skeleton, cc2__linear_kernel_skel, owns]
  iintro ⟨HP, HQ, ⟨%_, %f0, %e0, H0⟩, ⟨%_, %f1, %e1, H1⟩, ⟨%d, %f2, -, H2⟩⟩
  subst e0 e1
  sl_exec!
  sl_step
  iframe HP HQ
  isplitl [H0]; · iexists _; iframe H0; itrivial
  isplitl [H1]; · iexists _; iframe H1; itrivial
  iexists _; iframe H2; ipureintro
  exact View.read_writes_junk_eq_canon _ _

/-- The call's proof data on core `c`: after the body each operand is at its block and the output at `out2_2` of the two. -/
def dat2 (c : Dev nD) : Dat τ (Elt F) Unit ℕ (UR sig nD τ) ℕ cfg2 c where
  A w := V c (arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := ΦA spec2 c
  q _ := fullShare
  owed _ := 0

theorem A_eq2 (c : Dev nD) (w : Fin cfg2.W) : (dat2 V c).A w = V c (arrRef spec2 w) := rfl

theorem after2_2 (c : Dev nD) (t : Fin cfg2.N) : (dat2 V c).after 2 t = out2_2 (iblk2 V c 0 t) (iblk2 V c 1 t) := by dsimp only [dat2]

/-- At every point both operands hold their blocks, so `sound_kernel2` applies. -/
theorem body_obligation2 (c : Dev nD) : BodyObligation (dat2 (F := F) V c) (defs₀ (F := F)) Variants.none () Set.univ := fun t => by
  simp only [bigSep_W2, after2_2, (dat2 V c).before_fetched 0 t (fetch2_0 t), (dat2 V c).before_in_eq_fetched 1 rfl (fun _ => rfl) (fun _ _ _ => rfl) (fun _ => rfl) t]
  sl_whnfR [defs₀, Defs.onTc]
  exact sound_kernel2 c (iblk2 V c 0 t) (iblk2 V c 1 t)

end Cert.KernelIdeal.Fr

end
-- ==== Proof.KI.Reg3.lean ====
import proofs.«410102_j40518721470743_1_alg».proof.Proof.Gen.KernelIdeal.Launch
import proofs.«410102_j40518721470743_1_alg».proof.Proof.Gen.KernelIdeal.Skeleton
import proofs.«410102_j40518721470743_1_alg».proof.Proof.Gen.KernelIdeal.Points
import Idealize.ShloMosaic.Lib.Pipeline.FrameBody
import Idealize.ShloMosaic.Lib.Tactic

noncomputable section

namespace Cert.KernelIdeal.Fr

open Cert.KernelIdeal.Gen Idealize.ShloMosaic TcCoe Pipeline Idealize.SL RA BI BIBase Sem

variable {F : FTy → Type} [FloatOps F]

variable (V : (c : Dev nD) → (b : Ref sig .tc) → Buf (Elt F) ((c : Thread nD τ).loc b))

/-- The block of window `w` at grid point `t`, read off the window's array as `V` gives it on entry. -/
def iblk3 (c : Dev nD) (w : Fin cfg3.W) (t : Fin cfg3.N) : ((cfg3.win w).xblock (cfg3.grid.coords t)).Idx → Elt F (cfg3.win w).elt :=
  ((cfg3.win w).blk t).view.read (Elt F) (V c (arrRef spec3 w))

abbrev rA3 := Rect.unit (s := S5000x128) ![0, 0] S5000x128.size inb_S5000x128_S5000x128_0_0
abbrev rB3 := Rect.unit (s := S1x128) ![0, 0] S1x128.size inb_S1x128_S1x128_0_0

/-- The output block after the body: its one store, of the body's value of the two operand blocks. -/
def out3_2 (x0 : Vec F S5000x128 .f32) (x1 : Vec F S1x128 .f32) : Vec F S5000x128 .f32 :=
  View.canon [⟨rA3, k3_pay1 (View.ld x0 rA3) (View.ld x1 rB3)⟩]

/-- The body reads `x0` and `x1` and overwrites the whole output, whatever it held, with `out3_2 x0 x1`; `P` and `Q` pass through. -/
theorem sound_kernel3 (c : Dev nD) {i a1 h1 a2 h2 a3 h3} (x0 x1) {α β γ} {g : γ → _} {P Q : sProp (MT nD τ sig Unit (Elt F) ℕ (UR sig nD τ) ℕ)} :
    iprop(P ∗ Q ∗ (∃ _ : α, owns c a1 fullShare x0) ∗ (∃ _ : β, owns c a2 fullShare x1) ∗ ∃ d, owns c a3 fullShare (g d))
      ⊢ wp frame (wpE defs₀ Variants.none c none) Set.univ (cc3_kernel i a1 h1 a2 h2 a3 h3) fun _ =>
        iprop(P ∗ Q ∗ owns c a1 fullShare x0 ∗ owns c a2 fullShare x1 ∗ owns c a3 fullShare (out3_2 x0 x1)) := by
  simp only [cc3_kernel_eq_skeleton, cc3_kernel_skel, owns]
  iintro ⟨HP, HQ, ⟨%_, %f0, %e0, H0⟩, ⟨%_, %f1, %e1, H1⟩, ⟨%d, %f2, -, H2⟩⟩
  subst e0 e1
  sl_exec!
  sl_step
  iframe HP HQ
  isplitl [H0]; · iexists _; iframe H0; itrivial
  isplitl [H1]; · iexists _; iframe H1; itrivial
  iexists _; iframe H2; ipureintro
  exact View.read_writes_junk_eq_canon _ _

/-- The call's proof data on core `c`: after the body each operand is at its block and the output at `out3_2` of the two. -/
def dat3 (c : Dev nD) : Dat τ (Elt F) Unit ℕ (UR sig nD τ) ℕ cfg3 c where
  A w := V c (arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := ΦA spec3 c
  q _ := fullShare
  owed _ := 0

theorem A_eq3 (c : Dev nD) (w : Fin cfg3.W) : (dat3 V c).A w = V c (arrRef spec3 w) := rfl

theorem after3_2 (c : Dev nD) (t : Fin cfg3.N) : (dat3 V c).after 2 t = out3_2 (iblk3 V c 0 t) (iblk3 V c 1 t) := by dsimp only [dat3]

/-- At every point both operands hold their blocks, so `sound_kernel3` applies. -/
theorem body_obligation3 (c : Dev nD) : BodyObligation (dat3 (F := F) V c) (defs₀ (F := F)) Variants.none () Set.univ := fun t => by
  simp only [bigSep_W3, after3_2, (dat3 V c).before_fetched 0 t (fetch3_0 t), (dat3 V c).before_in_eq_fetched 1 rfl (fun _ => rfl) (fun _ _ _ => rfl) (fun _ => rfl) t]
  sl_whnfR [defs₀, Defs.onTc]
  exact sound_kernel3 c (iblk3 V c 0 t) (iblk3 V c 1 t)

end Cert.KernelIdeal.Fr

end
-- ==== Proof.KI.Reg4.lean ====
import proofs.«410102_j40518721470743_1_alg».proof.Proof.Gen.KernelIdeal.Launch
import proofs.«410102_j40518721470743_1_alg».proof.Proof.Gen.KernelIdeal.Skeleton
import proofs.«410102_j40518721470743_1_alg».proof.Proof.Gen.KernelIdeal.Points
import Idealize.ShloMosaic.Lib.Pipeline.FrameBody
import Idealize.ShloMosaic.Lib.Tactic

noncomputable section

namespace Cert.KernelIdeal.Fr

open Cert.KernelIdeal.Gen Idealize.ShloMosaic TcCoe Pipeline Idealize.SL RA BI BIBase Sem

variable {F : FTy → Type} [FloatOps F]

variable (V : (c : Dev nD) → (b : Ref sig .tc) → Buf (Elt F) ((c : Thread nD τ).loc b))

/-- The block of window `w` at grid point `t`, read off the window's array as `V` gives it on entry. -/
def iblk4 (c : Dev nD) (w : Fin cfg4.W) (t : Fin cfg4.N) : ((cfg4.win w).xblock (cfg4.grid.coords t)).Idx → Elt F (cfg4.win w).elt :=
  ((cfg4.win w).blk t).view.read (Elt F) (V c (arrRef spec4 w))

abbrev rA4 := Rect.unit (s := S5000x128) ![0, 0] S5000x128.size inb_S5000x128_S5000x128_0_0
abbrev rB4 := Rect.unit (s := S128x128) ![0, 0] S128x128.size inb_S128x128_S128x128_0_0

/-- The output block after the body: its one store, of the body's value of the two operand blocks. -/
def out4_2 (x0 : Vec F S5000x128 .f32) (x1 : Vec F S128x128 .f32) : Vec F S5000x128 .f32 :=
  View.canon [⟨rA4, k4_pay1 (View.ld x0 rA4) (View.ld x1 rB4)⟩]

/-- The body reads `x0` and `x1` and overwrites the whole output, whatever it held, with `out4_2 x0 x1`; `P` and `Q` pass through. -/
theorem sound_kernel4 (c : Dev nD) {i a1 h1 a2 h2 a3 h3} (x0 x1) {α β γ} {g : γ → _} {P Q : sProp (MT nD τ sig Unit (Elt F) ℕ (UR sig nD τ) ℕ)} :
    iprop(P ∗ Q ∗ (∃ _ : α, owns c a1 fullShare x0) ∗ (∃ _ : β, owns c a2 fullShare x1) ∗ ∃ d, owns c a3 fullShare (g d))
      ⊢ wp frame (wpE defs₀ Variants.none c none) Set.univ (cc4__linear_kernel i a1 h1 a2 h2 a3 h3) fun _ =>
        iprop(P ∗ Q ∗ owns c a1 fullShare x0 ∗ owns c a2 fullShare x1 ∗ owns c a3 fullShare (out4_2 x0 x1)) := by
  simp only [cc4__linear_kernel_eq_skeleton, cc4__linear_kernel_skel, owns]
  iintro ⟨HP, HQ, ⟨%_, %f0, %e0, H0⟩, ⟨%_, %f1, %e1, H1⟩, ⟨%d, %f2, -, H2⟩⟩
  subst e0 e1
  sl_exec!
  sl_step
  iframe HP HQ
  isplitl [H0]; · iexists _; iframe H0; itrivial
  isplitl [H1]; · iexists _; iframe H1; itrivial
  iexists _; iframe H2; ipureintro
  exact View.read_writes_junk_eq_canon _ _

/-- The call's proof data on core `c`: after the body each operand is at its block and the output at `out4_2` of the two. -/
def dat4 (c : Dev nD) : Dat τ (Elt F) Unit ℕ (UR sig nD τ) ℕ cfg4 c where
  A w := V c (arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := ΦA spec4 c
  q _ := fullShare
  owed _ := 0

theorem A_eq4 (c : Dev nD) (w : Fin cfg4.W) : (dat4 V c).A w = V c (arrRef spec4 w) := rfl

theorem after4_2 (c : Dev nD) (t : Fin cfg4.N) : (dat4 V c).after 2 t = out4_2 (iblk4 V c 0 t) (iblk4 V c 1 t) := by dsimp only [dat4]

/-- At every point both operands hold their blocks, so `sound_kernel4` applies. -/
theorem body_obligation4 (c : Dev nD) : BodyObligation (dat4 (F := F) V c) (defs₀ (F := F)) Variants.none () Set.univ := fun t => by
  simp only [bigSep_W4, after4_2, (dat4 V c).before_fetched 0 t (fetch4_0 t), (dat4 V c).before_in_eq_fetched 1 rfl (fun _ => rfl) (fun _ _ _ => rfl) (fun _ => rfl) t]
  sl_whnfR [defs₀, Defs.onTc]
  exact sound_kernel4 c (iblk4 V c 0 t) (iblk4 V c 1 t)

end Cert.KernelIdeal.Fr

end
-- ==== Proof.KI.Reg5.lean ====
import proofs.«410102_j40518721470743_1_alg».proof.Proof.Gen.KernelIdeal.Launch
import proofs.«410102_j40518721470743_1_alg».proof.Proof.Gen.KernelIdeal.Skeleton
import proofs.«410102_j40518721470743_1_alg».proof.Proof.Gen.KernelIdeal.Points
import Idealize.ShloMosaic.Lib.Pipeline.FrameBody
import Idealize.ShloMosaic.Lib.Tactic

noncomputable section

namespace Cert.KernelIdeal.Fr

open Cert.KernelIdeal.Gen Idealize.ShloMosaic TcCoe Pipeline Idealize.SL RA BI BIBase Sem

variable {F : FTy → Type} [FloatOps F]

variable (V : (c : Dev nD) → (b : Ref sig .tc) → Buf (Elt F) ((c : Thread nD τ).loc b))

/-- The block of window `w` at grid point `t`, read off the window's array as `V` gives it on entry. -/
def iblk5 (c : Dev nD) (w : Fin cfg5.W) (t : Fin cfg5.N) : ((cfg5.win w).xblock (cfg5.grid.coords t)).Idx → Elt F (cfg5.win w).elt :=
  ((cfg5.win w).blk t).view.read (Elt F) (V c (arrRef spec5 w))

abbrev rA5 := Rect.unit (s := S5000x128) ![0, 0] S5000x128.size inb_S5000x128_S5000x128_0_0
abbrev rB5 := Rect.unit (s := S1x128) ![0, 0] S1x128.size inb_S1x128_S1x128_0_0

/-- The output block after the body: its one store, of the body's value of the two operand blocks. -/
def out5_2 (x0 : Vec F S5000x128 .f32) (x1 : Vec F S1x128 .f32) : Vec F S5000x128 .f32 :=
  View.canon [⟨rA5, k5_pay1 (View.ld x0 rA5) (View.ld x1 rB5)⟩]

/-- The body reads `x0` and `x1` and overwrites the whole output, whatever it held, with `out5_2 x0 x1`; `P` and `Q` pass through. -/
theorem sound_kernel5 (c : Dev nD) {i a1 h1 a2 h2 a3 h3} (x0 x1) {α β γ} {g : γ → _} {P Q : sProp (MT nD τ sig Unit (Elt F) ℕ (UR sig nD τ) ℕ)} :
    iprop(P ∗ Q ∗ (∃ _ : α, owns c a1 fullShare x0) ∗ (∃ _ : β, owns c a2 fullShare x1) ∗ ∃ d, owns c a3 fullShare (g d))
      ⊢ wp frame (wpE defs₀ Variants.none c none) Set.univ (cc5_kernel i a1 h1 a2 h2 a3 h3) fun _ =>
        iprop(P ∗ Q ∗ owns c a1 fullShare x0 ∗ owns c a2 fullShare x1 ∗ owns c a3 fullShare (out5_2 x0 x1)) := by
  simp only [cc5_kernel_eq_skeleton, cc5_kernel_skel, owns]
  iintro ⟨HP, HQ, ⟨%_, %f0, %e0, H0⟩, ⟨%_, %f1, %e1, H1⟩, ⟨%d, %f2, -, H2⟩⟩
  subst e0 e1
  sl_exec!
  sl_step
  iframe HP HQ
  isplitl [H0]; · iexists _; iframe H0; itrivial
  isplitl [H1]; · iexists _; iframe H1; itrivial
  iexists _; iframe H2; ipureintro
  exact View.read_writes_junk_eq_canon _ _

/-- The call's proof data on core `c`: after the body each operand is at its block and the output at `out5_2` of the two. -/
def dat5 (c : Dev nD) : Dat τ (Elt F) Unit ℕ (UR sig nD τ) ℕ cfg5 c where
  A w := V c (arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := ΦA spec5 c
  q _ := fullShare
  owed _ := 0

theorem A_eq5 (c : Dev nD) (w : Fin cfg5.W) : (dat5 V c).A w = V c (arrRef spec5 w) := rfl

theorem after5_2 (c : Dev nD) (t : Fin cfg5.N) : (dat5 V c).after 2 t = out5_2 (iblk5 V c 0 t) (iblk5 V c 1 t) := by dsimp only [dat5]

/-- At every point both operands hold their blocks, so `sound_kernel5` applies. -/
theorem body_obligation5 (c : Dev nD) : BodyObligation (dat5 (F := F) V c) (defs₀ (F := F)) Variants.none () Set.univ := fun t => by
  simp only [bigSep_W5, after5_2, (dat5 V c).before_fetched 0 t (fetch5_0 t), (dat5 V c).before_in_eq_fetched 1 rfl (fun _ => rfl) (fun _ _ _ => rfl) (fun _ => rfl) t]
  sl_whnfR [defs₀, Defs.onTc]
  exact sound_kernel5 c (iblk5 V c 0 t) (iblk5 V c 1 t)

end Cert.KernelIdeal.Fr

end
-- ==== Proof.KI.Reg6.lean ====
import proofs.«410102_j40518721470743_1_alg».proof.Proof.Gen.KernelIdeal.Launch
import proofs.«410102_j40518721470743_1_alg».proof.Proof.Gen.KernelIdeal.Skeleton
import proofs.«410102_j40518721470743_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev cond6_0 (i : grid6.Coords) : Prop := (Scalar.cmpi .ne (Scalar.extui (Scalar.cmpi .eq (BitVec.ofNat 32 (i 0).val) 0#32)) 0#32) = 1#1

theorem hcond6_0 : ∀ t : Fin cfg6.N, cond6_0 (grid6.coords t) ↔ t.val = 0 :=
  (by decide +kernel : ∀ t : Fin grid6.N, cond6_0 (grid6.coords t) ↔ t.val = 0)

abbrev cond6_1 (i : grid6.Coords) : Prop := k6_cond2 i = 1#1

theorem hcond6_1 : ∀ t : Fin cfg6.N, cond6_1 (grid6.coords t) ↔ t.val = 9 :=
  (by decide +kernel : ∀ t : Fin grid6.N, cond6_1 (grid6.coords t) ↔ t.val = 9)

theorem idle6_4 : ∀ t : Fin cfg6.N, ¬cond6_1 (grid6.coords t) → cfg6.idle 4 (grid6.coords t) = true ∧ (cfg6.win 4).flush t = false := by decide +kernel

theorem liveAt6_4_C : ∀ t : Fin cfg6.N, ¬cond6_0 (grid6.coords t) → cond6_1 (grid6.coords t) → cfg6.idle 4 (grid6.coords t) = false := by decide +kernel

abbrev VO6_4 : View sig .tc .vmem S256x10 .f32 := (Memref.whole cc6_stg4_0 : Memref sig .tc .vmem S256x10 .f32).view

abbrev ms6_0 (t : Fin cfg6.N) : Memref sig .tc .vmem S5000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x1 .i32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128x10 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x10 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S256x10 .f32 := win6_4.stage (cfg6.slots t 4)
abbrev hs6_4 (t : Fin cfg6.N) : (ms6_4 t).IsWhole := hstage6_4 ((cfg6.slots t 4).cast nbuf6_4)

abbrev scM6_0 : Memref sig .tc .vmem S256x128 .f32 := Memref.whole cc6_scratch0
abbrev scM6_1 : Memref sig .tc .vmem S256x1 .f32 := Memref.whole cc6_scratch1

abbrev VS6_0 : View sig .tc .vmem S256x128 .f32 := scM6_0.view
abbrev VS6_1 : View sig .tc .vmem S256x1 .f32 := scM6_1.view

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

/-- A whole memref owned at `X` is its points-to at the raw contents that read `X` (reading is a bijection there). -/
theorem owns_unread {c : Dev nD} {sp : Space} {sh : Shape} {e : EltTy} {m : Memref sig .tc sp sh e} (h : m.IsWhole) (q : PosShare TreeShare) (X : sh.Idx → Elt F e) :
    (owns (c : Thread nD τ) m q X : sProp 𝕄) = (m.view.loc (c : Thread nD τ) ↦[m.view.set]{q} h.unread X) := by
  have h₁ : (owns (c : Thread nD τ) m q X : sProp 𝕄) ⊢ (m.view.loc (c : Thread nD τ) ↦[m.view.set]{q} h.unread X) := by
    unfold owns; iintro ⟨%f, %hf, H⟩; obtain rfl := h.eq_unread hf; iexact H
  have h₂ := owns_intro (Ix := Unit) (Name := ℕ) (U := UR sig nD τ) (Lvl := ℕ) (c : Thread nD τ) m q (h.unread X)
  rw [h.read_unread] at h₂
  exact BI.equiv_iff.mp ⟨h₁, h₂⟩

section
variable (c : Dev nD) (i : grid6.Coords) (arg1 : Memref sig .tc .vmem S5000x128 .f32) (harg1 : arg1.IsWhole) (arg2 : Memref sig .tc .vmem S5000x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S256x10 .f32) (harg5 : arg5.IsWhole) (arg6 : Memref sig .tc .vmem S256x128 .f32) (harg6 : arg6.IsWhole) (arg7 : Memref sig .tc .vmem S256x1 .f32) (harg7 : arg7.IsWhole)

section
variable (hc0 : cond6_0 i) (hc1 : ¬cond6_1 i) (x0 : Vec F S5000x128 .f32) (x1 : Vec F S5000x1 .i32) (x2 : Vec F S128x10 .f32) (x3 : Vec F S1x10 .f32)

set_option maxHeartbeats 1000000 in
noncomputable def kernelRun6_A :
    Σ' (L4 : List (View.Piece (Elt F) S256x10 .f32)) (LS0 : List (View.Piece (Elt F) S256x128 .f32)), { LS1 : List (View.Piece (Elt F) S256x1 .f32) //
      ∀ (xi4 : Vec F S256x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc6__pool_classify_kernel i arg1 harg1 arg2 harg2 arg3 harg3 arg4 harg4 arg5 harg5 arg6 harg6 arg7 harg7) K } := by
  refine ⟨[], ?_, ?_, fun xi4 E K => ?run⟩
  case run =>
    simp only [cc6__pool_classify_kernel_eq_skeleton]; unfold cc6__pool_classify_kernel_skel
    rw [owns_unread harg1, owns_unread harg2, owns_unread harg3, owns_unread harg4, owns_unread harg5]
    unfold owns
    iintro ⟨H0, H1, H2, H3, H4, ⟨%ds0, %fs0, -, HS0⟩, ⟨%ds1, %fs1, -, HS1⟩, Hk⟩
    sl_exec (disch := first | exact hc0 | exact hc1)
    sl_step
    iapply Hk
    iframe H0 H1 H2 H3 H4
    isplitl [HS0]; · iexists _; iexact HS0
    iexists _; iexact HS1

def out6_A_4 : Vec F S256x10 .f32 :=
  VO6_4.read (Elt F) (VO6_4.writes (Elt F) VO6_4.junk (kernelRun6_A c i arg1 harg1 arg2 harg2 arg3 harg3 arg4 harg4 arg5 harg5 arg6 harg6 arg7 harg7 hc0 hc1 x0 x1 x2 x3).1)

theorem scover6_A_0 (y : S256x128.Idx) :
    ∃ pc ∈ (kernelRun6_A c i arg1 harg1 arg2 harg2 arg3 harg3 arg4 harg4 arg5 harg5 arg6 harg6 arg7 harg7 hc0 hc1 x0 x1 x2 x3).2.1, y ∈ pc.1.set :=
  View.cover_of_tiledL _ S256x128.size (by sl_kernel_rfl) y

def sout6_A_0 : Vec F S256x128 .f32 :=
  VS6_0.read (Elt F) (VS6_0.writes (Elt F) VS6_0.junk (kernelRun6_A c i arg1 harg1 arg2 harg2 arg3 harg3 arg4 harg4 arg5 harg5 arg6 harg6 arg7 harg7 hc0 hc1 x0 x1 x2 x3).2.1)

theorem scover6_A_1 (y : S256x1.Idx) :
    ∃ pc ∈ (kernelRun6_A c i arg1 harg1 arg2 harg2 arg3 harg3 arg4 harg4 arg5 harg5 arg6 harg6 arg7 harg7 hc0 hc1 x0 x1 x2 x3).2.2.1, y ∈ pc.1.set :=
  View.cover_of_tiledL _ S256x1.size (by sl_kernel_rfl) y

def sout6_A_1 : Vec F S256x1 .f32 :=
  VS6_1.read (Elt F) (VS6_1.writes (Elt F) VS6_1.junk (kernelRun6_A c i arg1 harg1 arg2 harg2 arg3 harg3 arg4 harg4 arg5 harg5 arg6 harg6 arg7 harg7 hc0 hc1 x0 x1 x2 x3).2.2.1)

def outs6_A : Vec F S256x10 .f32 × Vec F S256x128 .f32 × Vec F S256x1 .f32 :=
  (out6_A_4 c i arg1 harg1 arg2 harg2 arg3 harg3 arg4 harg4 arg5 harg5 arg6 harg6 arg7 harg7 hc0 hc1 x0 x1 x2 x3, sout6_A_0 c i arg1 harg1 arg2 harg2 arg3 harg3 arg4 harg4 arg5 harg5 arg6 harg6 arg7 harg7 hc0 hc1 x0 x1 x2 x3, sout6_A_1 c i arg1 harg1 arg2 harg2 arg3 harg3 arg4 harg4 arg5 harg5 arg6 harg6 arg7 harg7 hc0 hc1 x0 x1 x2 x3)

end

section
variable (hc0 : ¬cond6_0 i) (hc1 : ¬cond6_1 i) (x0 : Vec F S5000x128 .f32) (x1 : Vec F S5000x1 .i32) (x2 : Vec F S128x10 .f32) (x3 : Vec F S1x10 .f32) (xs0 : Vec F S256x128 .f32) (xs1 : Vec F S256x1 .f32)

set_option maxHeartbeats 1000000 in
noncomputable def kernelRun6_B :
    Σ' (L4 : List (View.Piece (Elt F) S256x10 .f32)) (LS0 : List (View.Piece (Elt F) S256x128 .f32)), { LS1 : List (View.Piece (Elt F) S256x1 .f32) //
      ∀ (xi4 : Vec F S256x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc6__pool_classify_kernel i arg1 harg1 arg2 harg2 arg3 harg3 arg4 harg4 arg5 harg5 arg6 harg6 arg7 harg7) K } := by
  refine ⟨[], ?_, ?_, fun xi4 E K => ?run⟩
  case run =>
    simp only [cc6__pool_classify_kernel_eq_skeleton]; unfold cc6__pool_classify_kernel_skel
    rw [owns_unread harg1, owns_unread harg2, owns_unread harg3, owns_unread harg4, owns_unread harg5, owns_unread harg6, owns_unread harg7]
    iintro ⟨H0, H1, H2, H3, H4, HS0, HS1, Hk⟩
    sl_exec (disch := first | exact hc0 | exact hc1)
    sl_step
    iapply Hk
    iframe H0 H1 H2 H3 H4
    isplitl [HS0]; · iexists _; iexact HS0
    iexists _; iexact HS1

def out6_B_4 : Vec F S256x10 .f32 :=
  VO6_4.read (Elt F) (VO6_4.writes (Elt F) VO6_4.junk (kernelRun6_B c i arg1 harg1 arg2 harg2 arg3 harg3 arg4 harg4 arg5 harg5 arg6 harg6 arg7 harg7 hc0 hc1 x0 x1 x2 x3 xs0 xs1).1)

theorem scover6_B_0 (y : S256x128.Idx) :
    ∃ pc ∈ (kernelRun6_B c i arg1 harg1 arg2 harg2 arg3 harg3 arg4 harg4 arg5 harg5 arg6 harg6 arg7 harg7 hc0 hc1 x0 x1 x2 x3 xs0 xs1).2.1, y ∈ pc.1.set :=
  View.cover_of_tiledL _ S256x128.size (by sl_kernel_rfl) y

def sout6_B_0 : Vec F S256x128 .f32 :=
  VS6_0.read (Elt F) (VS6_0.writes (Elt F) VS6_0.junk (kernelRun6_B c i arg1 harg1 arg2 harg2 arg3 harg3 arg4 harg4 arg5 harg5 arg6 harg6 arg7 harg7 hc0 hc1 x0 x1 x2 x3 xs0 xs1).2.1)

theorem scover6_B_1 (y : S256x1.Idx) :
    ∃ pc ∈ (kernelRun6_B c i arg1 harg1 arg2 harg2 arg3 harg3 arg4 harg4 arg5 harg5 arg6 harg6 arg7 harg7 hc0 hc1 x0 x1 x2 x3 xs0 xs1).2.2.1, y ∈ pc.1.set :=
  View.cover_of_tiledL _ S256x1.size (by sl_kernel_rfl) y

def sout6_B_1 : Vec F S256x1 .f32 :=
  VS6_1.read (Elt F) (VS6_1.writes (Elt F) VS6_1.junk (kernelRun6_B c i arg1 harg1 arg2 harg2 arg3 harg3 arg4 harg4 arg5 harg5 arg6 harg6 arg7 harg7 hc0 hc1 x0 x1 x2 x3 xs0 xs1).2.2.1)

def outs6_B : Vec F S256x10 .f32 × Vec F S256x128 .f32 × Vec F S256x1 .f32 :=
  (out6_B_4 c i arg1 harg1 arg2 harg2 arg3 harg3 arg4 harg4 arg5 harg5 arg6 harg6 arg7 harg7 hc0 hc1 x0 x1 x2 x3 xs0 xs1, sout6_B_0 c i arg1 harg1 arg2 harg2 arg3 harg3 arg4 harg4 arg5 harg5 arg6 harg6 arg7 harg7 hc0 hc1 x0 x1 x2 x3 xs0 xs1, sout6_B_1 c i arg1 harg1 arg2 harg2 arg3 harg3 arg4 harg4 arg5 harg5 arg6 harg6 arg7 harg7 hc0 hc1 x0 x1 x2 x3 xs0 xs1)

end

section
variable (hc0 : ¬cond6_0 i) (hc1 : cond6_1 i) (x0 : Vec F S5000x128 .f32) (x1 : Vec F S5000x1 .i32) (x2 : Vec F S128x10 .f32) (x3 : Vec F S1x10 .f32) (xs0 : Vec F S256x128 .f32) (xs1 : Vec F S256x1 .f32)

set_option maxHeartbeats 1000000 in
noncomputable def kernelRun6_C :
    Σ' (L4 : List (View.Piece (Elt F) S256x10 .f32)) (LS0 : List (View.Piece (Elt F) S256x128 .f32)), { LS1 : List (View.Piece (Elt F) S256x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc6__pool_classify_kernel i arg1 harg1 arg2 harg2 arg3 harg3 arg4 harg4 arg5 harg5 arg6 harg6 arg7 harg7) K } := by
  refine ⟨?_, ?_, ?_, fun E K => ?run⟩
  case run =>
    simp only [cc6__pool_classify_kernel_eq_skeleton]; unfold cc6__pool_classify_kernel_skel
    rw [owns_unread harg1, owns_unread harg2, owns_unread harg3, owns_unread harg4, owns_unread harg6, owns_unread harg7]
    unfold owns
    iintro ⟨H0, H1, H2, H3, ⟨%d4, %f4, -, H4⟩, HS0, HS1, Hk⟩
    sl_exec (disch := first | exact hc0 | exact hc1)
    sl_step
    iapply Hk
    iframe H0 H1 H2 H3
    isplitl [H4]; · iexists _; iexact H4
    isplitl [HS0]; · iexists _; iexact HS0
    iexists _; iexact HS1

theorem cover6_C_4 (y : S256x10.Idx) :
    ∃ pc ∈ (kernelRun6_C c i arg1 harg1 arg2 harg2 arg3 harg3 arg4 harg4 arg5 harg5 arg6 harg6 arg7 harg7 hc0 hc1 x0 x1 x2 x3 xs0 xs1).1, y ∈ pc.1.set :=
  View.cover_of_tiledL _ S256x10.size (by sl_kernel_rfl) y

def out6_C_4 : Vec F S256x10 .f32 :=
  VO6_4.read (Elt F) (VO6_4.writes (Elt F) VO6_4.junk (kernelRun6_C c i arg1 harg1 arg2 harg2 arg3 harg3 arg4 harg4 arg5 harg5 arg6 harg6 arg7 harg7 hc0 hc1 x0 x1 x2 x3 xs0 xs1).1)

theorem scover6_C_0 (y : S256x128.Idx) :
    ∃ pc ∈ (kernelRun6_C c i arg1 harg1 arg2 harg2 arg3 harg3 arg4 harg4 arg5 harg5 arg6 harg6 arg7 harg7 hc0 hc1 x0 x1 x2 x3 xs0 xs1).2.1, y ∈ pc.1.set :=
  View.cover_of_tiledL _ S256x128.size (by sl_kernel_rfl) y

def sout6_C_0 : Vec F S256x128 .f32 :=
  VS6_0.read (Elt F) (VS6_0.writes (Elt F) VS6_0.junk (kernelRun6_C c i arg1 harg1 arg2 harg2 arg3 harg3 arg4 harg4 arg5 harg5 arg6 harg6 arg7 harg7 hc0 hc1 x0 x1 x2 x3 xs0 xs1).2.1)

theorem scover6_C_1 (y : S256x1.Idx) :
    ∃ pc ∈ (kernelRun6_C c i arg1 harg1 arg2 harg2 arg3 harg3 arg4 harg4 arg5 harg5 arg6 harg6 arg7 harg7 hc0 hc1 x0 x1 x2 x3 xs0 xs1).2.2.1, y ∈ pc.1.set :=
  View.cover_of_tiledL _ S256x1.size (by sl_kernel_rfl) y

def sout6_C_1 : Vec F S256x1 .f32 :=
  VS6_1.read (Elt F) (VS6_1.writes (Elt F) VS6_1.junk (kernelRun6_C c i arg1 harg1 arg2 harg2 arg3 harg3 arg4 harg4 arg5 harg5 arg6 harg6 arg7 harg7 hc0 hc1 x0 x1 x2 x3 xs0 xs1).2.2.1)

def outs6_C : Vec F S256x10 .f32 × Vec F S256x128 .f32 × Vec F S256x1 .f32 :=
  (out6_C_4 c i arg1 harg1 arg2 harg2 arg3 harg3 arg4 harg4 arg5 harg5 arg6 harg6 arg7 harg7 hc0 hc1 x0 x1 x2 x3 xs0 xs1, sout6_C_0 c i arg1 harg1 arg2 harg2 arg3 harg3 arg4 harg4 arg5 harg5 arg6 harg6 arg7 harg7 hc0 hc1 x0 x1 x2 x3 xs0 xs1, sout6_C_1 c i arg1 harg1 arg2 harg2 arg3 harg3 arg4 harg4 arg5 harg5 arg6 harg6 arg7 harg7 hc0 hc1 x0 x1 x2 x3 xs0 xs1)

end

end

def outsAt6 (c : Dev nD) : (n : ℕ) → n < cfg6.N → Vec F S256x10 .f32 × Vec F S256x128 .f32 × Vec F S256x1 .f32
  | 0, hn =>
    outs6_A c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) scM6_0 (Memref.isWhole_whole _) scM6_1 (Memref.isWhole_whole _) ((hcond6_0 ⟨0, hn⟩).mpr rfl) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩)
  | n + 1, hn =>
    if h1 : n + 1 = 9 then
      outs6_C c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6_0 (Memref.isWhole_whole _) scM6_1 (Memref.isWhole_whole _) (fun h => Nat.succ_ne_zero n ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.1 (outsAt6 c n (Nat.lt_of_succ_lt hn)).2.2
    else
      outs6_B c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) scM6_0 (Memref.isWhole_whole _) scM6_1 (Memref.isWhole_whole _) (fun h => Nat.succ_ne_zero n ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.1 (outsAt6 c n (Nat.lt_of_succ_lt hn)).2.2

theorem outsAt6_A (c : Dev nD) (t : Fin cfg6.N) (h0 : t.val = 0) (h1 : ¬t.val = 9) :
    outsAt6 V c t.val t.isLt =
    (out6_A_4 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t),
      sout6_A_0 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t),
      sout6_A_1 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t)) := by
  obtain ⟨n, hn⟩ := t
  cases n with
  | zero => exact rfl
  | succ n => exact absurd h0 (Nat.succ_ne_zero n)

theorem outsAt6_B (c : Dev nD) (t : Fin cfg6.N) (h0 : ¬t.val = 0) (h1 : ¬t.val = 9) :
    outsAt6 V c t.val t.isLt =
    (out6_B_4 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (outsAt6 V c (t.val - 1) (Nat.lt_of_le_of_lt (Nat.sub_le _ _) t.isLt)).2.1 (outsAt6 V c (t.val - 1) (Nat.lt_of_le_of_lt (Nat.sub_le _ _) t.isLt)).2.2,
      sout6_B_0 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (outsAt6 V c (t.val - 1) (Nat.lt_of_le_of_lt (Nat.sub_le _ _) t.isLt)).2.1 (outsAt6 V c (t.val - 1) (Nat.lt_of_le_of_lt (Nat.sub_le _ _) t.isLt)).2.2,
      sout6_B_1 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (outsAt6 V c (t.val - 1) (Nat.lt_of_le_of_lt (Nat.sub_le _ _) t.isLt)).2.1 (outsAt6 V c (t.val - 1) (Nat.lt_of_le_of_lt (Nat.sub_le _ _) t.isLt)).2.2) := by
  obtain ⟨n, hn⟩ := t
  cases n with
  | zero => exact absurd rfl h0
  | succ n => exact (dif_neg h1).trans rfl

theorem outsAt6_C (c : Dev nD) (t : Fin cfg6.N) (h0 : ¬t.val = 0) (h1 : t.val = 9) :
    outsAt6 V c t.val t.isLt =
    (out6_C_4 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.1 (outsAt6 V c (t.val - 1) (Nat.lt_of_le_of_lt (Nat.sub_le _ _) t.isLt)).2.2,
      sout6_C_0 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.1 (outsAt6 V c (t.val - 1) (Nat.lt_of_le_of_lt (Nat.sub_le _ _) t.isLt)).2.2,
      sout6_C_1 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.1 (outsAt6 V c (t.val - 1) (Nat.lt_of_le_of_lt (Nat.sub_le _ _) t.isLt)).2.2) := by
  obtain ⟨n, hn⟩ := t
  cases n with
  | zero => exact absurd rfl h0
  | succ n => exact (dif_pos h1).trans rfl

abbrev restBut6 (c : Dev nD) : sProp 𝕄 :=
  Pipeline.scopedRestBut (Ix := Unit) (Name := ℕ) (U := UR sig nD τ) (Lvl := ℕ) (Val := Elt F) spec6 c [cc6_scratch0, cc6_scratch1]

def PhiS6 (c : Dev nD) : (n : ℕ) → n ≤ cfg6.N → sProp 𝕄
  | 0, _ => Pipeline.ΦA spec6 c
  | n + 1, hn => iprop(iprop(iprop(owns (c : Thread nD τ) scM6_0 fullShare ((outsAt6 V c n hn).2.1) ∗ owns (c : Thread nD τ) scM6_1 fullShare ((outsAt6 V c n hn).2.2)) ∗ restBut6 (F := F) c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare ((outsAt6 V c n hn).2.1) ∗ owns (c : Thread nD τ) scM6_1 fullShare ((outsAt6 V c n hn).2.2)) ∗ restBut6 (F := F) c) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare ((outsAt6 V c (n - 1) (by omega)).2.1) ∗ owns (c : Thread nD τ) scM6_1 fullShare ((outsAt6 V c (n - 1) (by omega)).2.2)) ∗ restBut6 (F := F) c) ∗ (∃ r, prngReg c r)) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_4 (c : Dev nD) (t : Fin cfg6.N) : (dat6 V c).after 4 t = (outsAt6 V c t.val t.isLt).1 := by dsimp only [dat6]

theorem before6 (c : Dev nD) (t : Fin cfg6.N) :
    (∀ d, (dat6 V c).before 0 t d = iblk6 V c 0 t) ∧ (∀ d, (dat6 V c).before 1 t d = iblk6 V c 1 t)
      ∧ (∀ d, (dat6 V c).before 2 t d = iblk6 V c 2 t) ∧ (∀ d, (dat6 V c).before 3 t d = iblk6 V c 3 t) := by
  refine ⟨?_, ?_, ?_, ?_⟩ <;> intro d <;>
    exact (Dat.before_in_eq_fetched _ _ rfl (fun _ => rfl) (fun _ _ _ => rfl) (fun _ => rfl) t d).trans rfl

/-- Stores whose pieces cover a memref leave it owned at the pieces read back over anything. -/
theorem owns_of_cover {c : Dev nD} {sp sp' : Space} {κ' : Kind} {sh : Shape} {e : EltTy} {M : Memref sig .tc sp sh e} (v' : View sig κ' sp' sh e)
    {L : List (View.Piece (Elt F) sh e)} (h : ∀ y, ∃ pc ∈ L, y ∈ pc.1.set) :
    iprop(∃ f, M.view.loc (c : Thread nD τ) ↦[M.view.set]{fullShare} M.view.writes (Elt F) f L)
      ⊢ (owns (c : Thread nD τ) M fullShare (v'.read (Elt F) (v'.writes (Elt F) v'.junk L)) : sProp 𝕄) := by
  iintro ⟨%f, H⟩; unfold owns; iexists M.view.writes (Elt F) f L; isplitr
  · ipureintro; exact View.read_writes_of_cover _ _ _ _ _ h
  · iexact H

set_option maxHeartbeats 4800000 in
theorem sound_body6 (c : Dev nD) (t : Fin cfg6.N) :
    iprop(PhiS6 V c t.val (Nat.le_of_lt t.isLt) ∗ (dat6 V c).owesAt () t.castSucc
      ∗ (∃ d, owns (c : Thread nD τ) (ms6_0 t) fullShare ((dat6 V c).before 0 t d)) ∗ (∃ d, owns (c : Thread nD τ) (ms6_1 t) fullShare ((dat6 V c).before 1 t d))
      ∗ (∃ d, owns (c : Thread nD τ) (ms6_2 t) fullShare ((dat6 V c).before 2 t d)) ∗ (∃ d, owns (c : Thread nD τ) (ms6_3 t) fullShare ((dat6 V c).before 3 t d))
      ∗ (∃ d, owns (c : Thread nD τ) (ms6_4 t) fullShare ((dat6 V c).before 4 t d)))
    ⊢ wp frame (wpE (defs₀ (F := F)) Variants.none c none) Set.univ (bodyAt6 t) (fun _ =>
      iprop(PhiS6 V c (t.val + 1) t.isLt ∗ (dat6 V c).owesAt () t.castSucc
        ∗ owns (c : Thread nD τ) (ms6_0 t) fullShare (iblk6 V c 0 t) ∗ owns (c : Thread nD τ) (ms6_1 t) fullShare (iblk6 V c 1 t) ∗ owns (c : Thread nD τ) (ms6_2 t) fullShare (iblk6 V c 2 t) ∗ owns (c : Thread nD τ) (ms6_3 t) fullShare (iblk6 V c 3 t)
        ∗ (dat6 V c).leavesExact 4 t)) := by
  unfold bodyAt6
  obtain ⟨b0, b1, b2, b3⟩ := before6 V c t
  simp only [b0, b1, b2, b3]
  rw [PhiS6_succ]
  by_cases h0 : t.val = 0
  · have h1 : ¬t.val = 9 := by omega
    have hc0 : cond6_0 (grid6.coords t) := (hcond6_0 t).mpr h0
    have hc1 : ¬cond6_1 (grid6.coords t) := fun h => h1 ((hcond6_1 t).mp h)
    rw [Dat.leavesExact_idle (dat6 V c) 4 t (idle6_4 t hc1).1 (idle6_4 t hc1).2, outsAt6_A V c t h0 h1]
    unfold sout6_A_0 sout6_A_1; (try dsimp only)
    rw [PhiS6_zero V c _ _ h0, PhiA6_eq]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply ((kernelRun6_A c (grid6.coords t) _ _ _ _ _ _ _ _ _ _ _ _ _ _ hc0 hc1 (iblk6 V c 0 t) (iblk6 V c 1 t) (iblk6 V c 2 t) (iblk6 V c 3 t)).2.2.2 _ Set.univ _)
    iframe H0 H1 H2 H3 H4 HS0 HS1
    iintro ⟨H0, H1, H2, H3, H4, HS0, HS1⟩
    iframe Hr Hg Ho H0 H1 H2 H3
    isplitl [HS0 HS1]
    · isplitl [HS0]
      · iapply owns_of_cover _ (scover6_A_0 c _ _ _ _ _ _ _ _ _ _ _ _ _ _ _ _ _ _ _ _ _); iexact HS0
      · iapply owns_of_cover _ (scover6_A_1 c _ _ _ _ _ _ _ _ _ _ _ _ _ _ _ _ _ _ _ _ _); iexact HS1
    iexists _; iexact H4
  · have hc0 : ¬cond6_0 (grid6.coords t) := fun h => h0 ((hcond6_0 t).mp h)
    rw [PhiS6_pos V c _ _ h0]
    by_cases h1 : t.val = 9
    · have hc1 : cond6_1 (grid6.coords t) := (hcond6_1 t).mpr h1
      rw [show (dat6 V c).leavesExact 4 t = owns (c : Thread nD τ) (ms6_4 t) fullShare ((dat6 V c).after 4 t) from by
        unfold Dat.leavesExact; rw [liveAt6_4_C t hc0 hc1], after6_4, outsAt6_C V c t h0 h1]
      unfold out6_C_4 sout6_C_0 sout6_C_1; (try dsimp only)
      iintro ⟨⟨⟨⟨HS0, HS1⟩, Hr⟩, Hg⟩, Ho, ⟨%d0, H0⟩, ⟨%d1, H1⟩, ⟨%d2, H2⟩, ⟨%d3, H3⟩, ⟨%d4, H4⟩⟩
      iapply ((kernelRun6_C c (grid6.coords t) _ _ _ _ _ _ _ _ _ _ _ _ _ _ hc0 hc1 (iblk6 V c 0 t) (iblk6 V c 1 t) (iblk6 V c 2 t) (iblk6 V c 3 t) _ _).2.2.2 Set.univ _)
      iframe H0 H1 H2 H3 HS0 HS1
      isplitl [H4]; · iexists _; iexact H4
      iintro ⟨H0, H1, H2, H3, H4, HS0, HS1⟩
      iframe Hr Hg Ho H0 H1 H2 H3
      isplitl [HS0 HS1]
      · isplitl [HS0]
        · iapply owns_of_cover _ (scover6_C_0 c _ _ _ _ _ _ _ _ _ _ _ _ _ _ _ _ _ _ _ _ _ _ _); iexact HS0
        · iapply owns_of_cover _ (scover6_C_1 c _ _ _ _ _ _ _ _ _ _ _ _ _ _ _ _ _ _ _ _ _ _ _); iexact HS1
      iapply owns_of_cover _ (cover6_C_4 c _ _ _ _ _ _ _ _ _ _ _ _ _ _ _ _ _ _ _ _ _ _ _); iexact H4
    · have hc1 : ¬cond6_1 (grid6.coords t) := fun h => h1 ((hcond6_1 t).mp h)
      rw [Dat.leavesExact_idle (dat6 V c) 4 t (idle6_4 t hc1).1 (idle6_4 t hc1).2, outsAt6_B V c t h0 h1]
      unfold sout6_B_0 sout6_B_1; (try dsimp only)
      iintro ⟨⟨⟨⟨HS0, HS1⟩, Hr⟩, Hg⟩, Ho, ⟨%d0, H0⟩, ⟨%d1, H1⟩, ⟨%d2, H2⟩, ⟨%d3, H3⟩, ⟨%d4, H4⟩⟩
      iapply ((kernelRun6_B c (grid6.coords t) _ _ _ _ _ _ _ _ _ _ _ _ _ _ hc0 hc1 (iblk6 V c 0 t) (iblk6 V c 1 t) (iblk6 V c 2 t) (iblk6 V c 3 t) _ _).2.2.2 _ Set.univ _)
      iframe H0 H1 H2 H3 H4 HS0 HS1
      iintro ⟨H0, H1, H2, H3, H4, HS0, HS1⟩
      iframe Hr Hg Ho H0 H1 H2 H3
      isplitl [HS0 HS1]
      · isplitl [HS0]
        · iapply owns_of_cover _ (scover6_B_0 c _ _ _ _ _ _ _ _ _ _ _ _ _ _ _ _ _ _ _ _ _ _ _); iexact HS0
        · iapply owns_of_cover _ (scover6_B_1 c _ _ _ _ _ _ _ _ _ _ _ _ _ _ _ _ _ _ _ _ _ _ _); iexact HS1
      iexists _; iexact H4

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := Entails.refl _

theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, Hr⟩, Hg⟩
  iframe Hr Hg
  isplitl [HS0]; · iexists _; iexact HS0
  iexists _; iexact HS1

theorem hout6 (c : Dev nD) : (dat6 V c).Φ (Fin.last cfg6.N) ⊢ Pipeline.ΦA spec6 c :=
  Phi_out6 V c _ (by rw [Fin.val_last]; have : cfg6.N = 10 := N_6; omega)

end Cert.KernelIdeal.Fr

end
-- ==== Proof.KI.Run.lean ====
import proofs.«410102_j40518721470743_1_alg».proof.Proof.KI.Reg0
import proofs.«410102_j40518721470743_1_alg».proof.Proof.KI.Reg1
import proofs.«410102_j40518721470743_1_alg».proof.Proof.KI.Reg2
import proofs.«410102_j40518721470743_1_alg».proof.Proof.KI.Reg3
import proofs.«410102_j40518721470743_1_alg».proof.Proof.KI.Reg4
import proofs.«410102_j40518721470743_1_alg».proof.Proof.KI.Reg5
import proofs.«410102_j40518721470743_1_alg».proof.Proof.KI.Reg6
import proofs.«410102_j40518721470743_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev W2 : Dev nD → Valuation τ sig (Elt F) := fun c => StableHlo.after hostOps0_1 (W1 m ρ c)

abbrev W3 : Dev nD → Valuation τ sig (Elt F) := fun c => StableHlo.after hostOps0_2 (W2 m ρ c)

abbrev Vin0 : (c : Dev nD) → (b : Ref sig .tc) → Buf (Elt F) ((c : Thread nD τ).loc b) := fun c b => W3 m ρ c b

def W4 (c : Dev nD) : Valuation τ sig (Elt F) :=
  Pipeline.withArrays spec0 c (W3 m ρ c) fun w => (dat0 (Vin0 m ρ) c).arrAt w cfg0.N
theorem W4_arr (c : Dev nD) (w : Fin cfg0.W) :
    W4 m ρ c (Proc.devRef .tc (Pipeline.arrRef spec0 w)) = (dat0 (Vin0 m ρ) c).arrAt w cfg0.N := by
  unfold W4; exact Pipeline.withArrays_arr spec0 launch0.win.arr_inj c _ _ w

abbrev W5 : Dev nD → Valuation τ sig (Elt F) := fun c => StableHlo.after hostOps1 (W4 m ρ c)

abbrev Vin1 : (c : Dev nD) → (b : Ref sig .tc) → Buf (Elt F) ((c : Thread nD τ).loc b) := fun c b => W5 m ρ c b

def W6 (c : Dev nD) : Valuation τ sig (Elt F) :=
  Pipeline.withArrays spec1 c (W5 m ρ c) fun w => (dat1 (Vin1 m ρ) c).arrAt w cfg1.N
theorem W6_arr (c : Dev nD) (w : Fin cfg1.W) :
    W6 m ρ c (Proc.devRef .tc (Pipeline.arrRef spec1 w)) = (dat1 (Vin1 m ρ) c).arrAt w cfg1.N := by
  unfold W6; exact Pipeline.withArrays_arr spec1 launch1.win.arr_inj c _ _ w

abbrev Vin2 : (c : Dev nD) → (b : Ref sig .tc) → Buf (Elt F) ((c : Thread nD τ).loc b) := fun c b => W6 m ρ c b

def W7 (c : Dev nD) : Valuation τ sig (Elt F) :=
  Pipeline.withArrays spec2 c (W6 m ρ c) fun w => (dat2 (Vin2 m ρ) c).arrAt w cfg2.N
theorem W7_arr (c : Dev nD) (w : Fin cfg2.W) :
    W7 m ρ c (Proc.devRef .tc (Pipeline.arrRef spec2 w)) = (dat2 (Vin2 m ρ) c).arrAt w cfg2.N := by
  unfold W7; exact Pipeline.withArrays_arr spec2 launch2.win.arr_inj c _ _ w

abbrev W8 : Dev nD → Valuation τ sig (Elt F) := fun c => StableHlo.after hostOps3 (W7 m ρ c)

abbrev Vin3 : (c : Dev nD) → (b : Ref sig .tc) → Buf (Elt F) ((c : Thread nD τ).loc b) := fun c b => W8 m ρ c b

def W9 (c : Dev nD) : Valuation τ sig (Elt F) :=
  Pipeline.withArrays spec3 c (W8 m ρ c) fun w => (dat3 (Vin3 m ρ) c).arrAt w cfg3.N
theorem W9_arr (c : Dev nD) (w : Fin cfg3.W) :
    W9 m ρ c (Proc.devRef .tc (Pipeline.arrRef spec3 w)) = (dat3 (Vin3 m ρ) c).arrAt w cfg3.N := by
  unfold W9; exact Pipeline.withArrays_arr spec3 launch3.win.arr_inj c _ _ w

abbrev Vin4 : (c : Dev nD) → (b : Ref sig .tc) → Buf (Elt F) ((c : Thread nD τ).loc b) := fun c b => W9 m ρ c b

def W10 (c : Dev nD) : Valuation τ sig (Elt F) :=
  Pipeline.withArrays spec4 c (W9 m ρ c) fun w => (dat4 (Vin4 m ρ) c).arrAt w cfg4.N
theorem W10_arr (c : Dev nD) (w : Fin cfg4.W) :
    W10 m ρ c (Proc.devRef .tc (Pipeline.arrRef spec4 w)) = (dat4 (Vin4 m ρ) c).arrAt w cfg4.N := by
  unfold W10; exact Pipeline.withArrays_arr spec4 launch4.win.arr_inj c _ _ w

abbrev W11 : Dev nD → Valuation τ sig (Elt F) := fun c => StableHlo.after hostOps5 (W10 m ρ c)

abbrev Vin5 : (c : Dev nD) → (b : Ref sig .tc) → Buf (Elt F) ((c : Thread nD τ).loc b) := fun c b => W11 m ρ c b

def W12 (c : Dev nD) : Valuation τ sig (Elt F) :=
  Pipeline.withArrays spec5 c (W11 m ρ c) fun w => (dat5 (Vin5 m ρ) c).arrAt w cfg5.N
theorem W12_arr (c : Dev nD) (w : Fin cfg5.W) :
    W12 m ρ c (Proc.devRef .tc (Pipeline.arrRef spec5 w)) = (dat5 (Vin5 m ρ) c).arrAt w cfg5.N := by
  unfold W12; exact Pipeline.withArrays_arr spec5 launch5.win.arr_inj c _ _ w

abbrev W13 : Dev nD → Valuation τ sig (Elt F) := fun c => StableHlo.after hostOps6 (W12 m ρ c)

abbrev Vin6 : (c : Dev nD) → (b : Ref sig .tc) → Buf (Elt F) ((c : Thread nD τ).loc b) := fun c b => W13 m ρ c b

def W14 (c : Dev nD) : Valuation τ sig (Elt F) :=
  Pipeline.withArrays spec6 c (W13 m ρ c) fun w => (dat6 (Vin6 m ρ) c).arrAt w cfg6.N
theorem W14_arr (c : Dev nD) (w : Fin cfg6.W) :
    W14 m ρ c (Proc.devRef .tc (Pipeline.arrRef spec6 w)) = (dat6 (Vin6 m ρ) c).arrAt w cfg6.N := by
  unfold W14; exact Pipeline.withArrays_arr spec6 launch6.win.arr_inj c _ _ w

def pdats : (p : Fin 7) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
  | ⟨2, _⟩ => fun c => dat2 (Vin2 m ρ) c
  | ⟨3, _⟩ => fun c => dat3 (Vin3 m ρ) c
  | ⟨4, _⟩ => fun c => dat4 (Vin4 m ρ) c
  | ⟨5, _⟩ => fun c => dat5 (Vin5 m ρ) c
  | ⟨6, _⟩ => fun c => dat6 (Vin6 m ρ) c

/-- By cases on whether `b` is a window's array: an operand window's array is read back as entered, any other buffer is not touched. -/
theorem keep (p : Fin 7) (hl : Pipeline.LaunchFacts (nD := nD) (τ := τ) cfgs p) (c : Dev nD) (V : Valuation τ sig (Elt F))
    (hA : ∀ w, (pdats m ρ p c).A w = V (Proc.devRef .tc (Pipeline.arrRef (cfgs p).spec w))) (b : Ref sig .tc)
    (hb : ∀ w, Pipeline.arrRef (cfgs p).spec w = b → ((cfgs p).win w).isOut = false) :
    Pipeline.withArrays (cfgs p).spec c V (fun w => (pdats m ρ p c).arrAt w (cfgs p).N) (Proc.devRef .tc b) = V (Proc.devRef .tc b) := by
  by_cases h : ∃ w, Pipeline.arrRef (cfgs p).spec w = b
  · obtain ⟨w, rfl⟩ := h
    rw [Pipeline.withArrays_arr _ hl.win.arr_inj, (pdats m ρ p c).arrAt_in w (hb w rfl), hA]
  · exact Pipeline.withArrays_of_ne _ _ _ _ _ fun w e => h ⟨w, e⟩

/-- The valuations between @main's items, by position. -/
def Ws : ℕ → Dev nD → Valuation τ sig (Elt F)
  | 0 => W0 m ρ | 1 => W1 m ρ | 2 => W2 m ρ | 3 => W3 m ρ | 4 => W4 m ρ | 5 => W5 m ρ | 6 => W6 m ρ | 7 => W7 m ρ
  | 8 => W8 m ρ | 9 => W9 m ρ | 10 => W10 m ρ | 11 => W11 m ρ | 12 => W12 m ρ | 13 => W13 m ρ | _ => W14 m ρ

abbrev In (p : Fin 7) (b : Ref sig .tc) : Prop := ∀ w, Pipeline.arrRef (cfgs p).spec w = b → ((cfgs p).win w).isOut = false

/-- What item `i` must satisfy to leave `b` alone: a host stretch does not write it, a call has it as no output window's array. -/
noncomputable def keeps (b : Ref sig .tc) : ℕ → Bool
  | 0 => b ∉ hostOps0_W | 1 => b ∉ hostOps0_1_W | 2 => b ∉ hostOps0_2_W | 3 => In 0 b | 4 => b ∉ hostOps1_W | 5 => In 1 b
  | 6 => In 2 b | 7 => b ∉ hostOps3_W | 8 => In 3 b | 9 => In 4 b | 10 => b ∉ hostOps5_W | 11 => In 5 b
  | 12 => b ∉ hostOps6_W | 13 => In 6 b | _ => true

theorem step (c : Dev nD) (b : Ref sig .tc) :
    ∀ i, keeps b i = true → Ws m ρ (i + 1) c (Proc.devRef .tc b) = Ws m ρ i c (Proc.devRef .tc b)
  | 0, h => StableHlo.after_of_writes_sub hostOps0 _ hostOps0_writes (of_decide_eq_true h)
  | 1, h => StableHlo.after_of_writes_sub hostOps0_1 _ hostOps0_1_writes (of_decide_eq_true h)
  | 2, h => StableHlo.after_of_writes_sub hostOps0_2 _ hostOps0_2_writes (of_decide_eq_true h)
  | 3, h => keep m ρ 0 launch0 c _ (A_eq0 _ c) b (of_decide_eq_true h)
  | 4, h => StableHlo.after_of_writes_sub hostOps1 _ hostOps1_writes (of_decide_eq_true h)
  | 5, h => keep m ρ 1 launch1 c _ (A_eq1 _ c) b (of_decide_eq_true h)
  | 6, h => keep m ρ 2 launch2 c _ (A_eq2 _ c) b (of_decide_eq_true h)
  | 7, h => StableHlo.after_of_writes_sub hostOps3 _ hostOps3_writes (of_decide_eq_true h)
  | 8, h => keep m ρ 3 launch3 c _ (A_eq3 _ c) b (of_decide_eq_true h)
  | 9, h => keep m ρ 4 launch4 c _ (A_eq4 _ c) b (of_decide_eq_true h)
  | 10, h => StableHlo.after_of_writes_sub hostOps5 _ hostOps5_writes (of_decide_eq_true h)
  | 11, h => keep m ρ 5 launch5 c _ (A_eq5 _ c) b (of_decide_eq_true h)
  | 12, h => StableHlo.after_of_writes_sub hostOps6 _ hostOps6_writes (of_decide_eq_true h)
  | 13, h => keep m ρ 6 launch6 c _ (A_eq6 _ c) b (of_decide_eq_true h)
  | _ + 14, _ => rfl

/-- Induction on the number of items passed, one `step` each. -/
theorem between (c : Dev nD) (b : Ref sig .tc) (i : ℕ) : ∀ n, (∀ k, i ≤ k → k < i + n → keeps b k = true) →
    Ws m ρ (i + n) c (Proc.devRef .tc b) = Ws m ρ i c (Proc.devRef .tc b)
  | 0, _ => rfl
  | n + 1, h => (step m ρ c b (i + n) (h _ (Nat.le_add_right i n) (Nat.lt_succ_self _))).trans
      (between c b i n fun k h1 h2 => h k h1 (Nat.lt_succ_of_lt h2))

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- A call as a segment between two valuations: its window arrays are split off at entry and rejoined at their final contents at exit. -/
def reg (p : Fin 7) (hl : Pipeline.LaunchFacts (nD := nD) (τ := τ) cfgs p) (V : Dev nD → Valuation τ sig (Elt F))
    (hb : ∀ c, BodyObligation (pdats m ρ p c) defs₀ 𝒱₀ () Set.univ)
    (hq : ∀ c w, (pdats m ρ p c).q w = fullShare)
    (hA : ∀ c w, (pdats m ρ p c).A w = V c (Proc.devRef .tc (Pipeline.arrRef (cfgs p).spec w)))
    (h0 : ∀ c t, (pdats m ρ p c).owed t = 0) (hr : ∀ c x, x ∈ (pdats m ρ p c).recorded 0)
    (hi : ∀ c, (Pipeline.ΦA (cfgs p).spec c : sProp 𝕄) ⊢ (pdats m ρ p c).Φ 0)
    (hΦ : ∀ c, (pdats m ρ p c).Φ (Fin.last _) ⊢ (Pipeline.ΦA (cfgs p).spec c : sProp 𝕄)) :
    Pipeline.RegionSeg (pcfgs (F := F)) adm (pdats m ρ) () defs₀ 𝒱₀ L lv p where
  win := hl.win.to₀
  block_pos := hl.block_pos
  stage_whole := hl.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (V c) ∗ R c)
  post c := iprop(StableHlo.held (c : Thread nD τ) (Pipeline.ucRefs τ sig)
    (Pipeline.withArrays (cfgs p).spec c (V c) fun w => (pdats m ρ p c).arrAt w (cfgs p).N) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) adm (pdats m ρ) hl.win hl.arr_whole c
      ((pdats m ρ p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [h0]
      icases HO with ⟨%W, HO⟩; iexists W; isplitr; · ipureintro; exact fun _ _ => Or.inl (hr c _)
      iexact HO
    isplitl [Hp]; · iexact Hp
    iexact Hrest
  hin c := by
    refine .trans ?_ (hi c); unfold Pipeline.ΦA
    iintro ⟨Hp, -, Hr⟩
    isplitl [Hr]; · iexact Hr
    iexact Hp
  hout c := by
    rw [Pipeline.ownSems0_none]; refine (hΦ c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c (pdats m ρ) ((pdats m ρ p c).share_full (hq c)) (fun b => V c b)
      (fun b => Pipeline.withArrays (cfgs p).spec c (V c) (fun w => (pdats m ρ p c).arrAt w (cfgs p).N) b) ((pdats m ρ p c).arrAt · (cfgs p).N)
      (fun w => .symm <| Pipeline.withArrays_arr _ hl.win.arr_inj c (V c) _ w)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [h0]
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg m ρ 0 launch0 (W3 m ρ) (body_obligation0 _) (fun _ _ => rfl) (A_eq0 _) (fun _ _ => rfl) (fun _ _ => trivial) (fun _ => .rfl) fun _ => .rfl),
    .host (hseg hostOps1 hostOps1_sub hostOps1_fresh (W4 m ρ)),
    .region (reg m ρ 1 launch1 (W5 m ρ) (body_obligation1 _) (fun _ _ => rfl) (A_eq1 _) (fun _ _ => rfl) (fun _ _ => trivial) (fun _ => .rfl) fun _ => .rfl),
    .region (reg m ρ 2 launch2 (W6 m ρ) (body_obligation2 _) (fun _ _ => rfl) (A_eq2 _) (fun _ _ => rfl) (fun _ _ => trivial) (fun _ => .rfl) fun _ => .rfl),
    .host (hseg hostOps3 hostOps3_sub hostOps3_fresh (W7 m ρ)),
    .region (reg m ρ 3 launch3 (W8 m ρ) (body_obligation3 _) (fun _ _ => rfl) (A_eq3 _) (fun _ _ => rfl) (fun _ _ => trivial) (fun _ => .rfl) fun _ => .rfl),
    .region (reg m ρ 4 launch4 (W9 m ρ) (body_obligation4 _) (fun _ _ => rfl) (A_eq4 _) (fun _ _ => rfl) (fun _ _ => trivial) (fun _ => .rfl) fun _ => .rfl),
    .host (hseg hostOps5 hostOps5_sub hostOps5_fresh (W10 m ρ)),
    .region (reg m ρ 5 launch5 (W11 m ρ) (body_obligation5 _) (fun _ _ => rfl) (A_eq5 _) (fun _ _ => rfl) (fun _ _ => trivial) (fun _ => .rfl) fun _ => .rfl),
    .host (hseg hostOps6 hostOps6_sub hostOps6_fresh (W12 m ρ)),
    .region (reg m ρ 6 launch6 (W13 m ρ) (body_obligation6 _) (fun _ _ => rfl) (A_eq6 _) (fun _ _ => rfl) (fun _ _ => trivial) (hin6 _) (hout6 _)) ]

theorem main_run (c : Dev nD) : main (F := F) c = Pipeline.Seg.run (segs m ρ) := (main_chain c).trans (by chain_rfl)

abbrev EndsAt (c : Dev nD) (s : MemSt nD τ sig (Elt F)) : Prop :=
  ∀ b ∈ Pipeline.ucRefs τ sig, s.mem (((c : Thread nD τ)).1, b) = W14 m ρ c b

set_option backward.isDefEq.respectTransparency.types false in
theorem run_all : θ_run defs (onTc (τ := τ) (main (F := F))) ⟨m, fun _ => 0, ρ⟩ (fun r => ∀ c : Dev nD, EndsAt m ρ c r.2) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := fun c => StableHlo.held (c : Thread nD τ) (Pipeline.ucRefs τ sig) (W14 m ρ c))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_mono .rfl sep_elim_right⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => EndsAt m ρ c s)
    (hfin := fun c s' => by
      iintro ⟨Hh, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

/-- No item of @main writes an argument. -/
theorem args_kept (c : Dev nD) (s : MemSt nD τ sig (Elt F)) (h : EndsAt m ρ c s) :
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10) :=
  have K (b : Ref sig .tc) (hk : ¬ (Proc.devRef .tc b : DevRef τ sig).isScoped ∧ ∀ k, 0 ≤ k → k < 0 + 14 → keeps b k = true) :
      s.mem ((c.tc : Thread nD τ).loc b) = m ((c.tc : Thread nD τ).loc b) :=
    (h _ (mem_uc b hk.1)).trans (between m ρ c b 0 14 hk.2)
  ⟨K _ (by decide), K _ (by decide), K _ (by decide), K _ (by decide), K _ (by decide), K _ (by decide),
   K _ (by decide), K _ (by decide), K _ (by decide), K _ (by decide), K _ (by decide)⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept m ρ c r.2 (h c)) (run_all m ρ)

end Cert.KernelIdeal.Fr

end
-- ==== Proof.RefReadCopy.lean ====
import proofs.«410102_j40518721470743_1_alg».proof.Proof.RefRunCopy
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

def val_main_v0 (x1 : (⟨S2x800000, .i32⟩ : BufTy).Contents (Elt F)) : (⟨S1x800000, .i32⟩ : BufTy).Contents (Elt F) :=
  extractStridedSlice S1x800000 ![0, 0] (x1) slices_S2x800000_S1x800000_0_0

def val_main_v1 (x1 : (⟨S2x800000, .i32⟩ : BufTy).Contents (Elt F)) : (⟨S800000, .i32⟩ : BufTy).Contents (Elt F) :=
  shapeCast _ (val_main_v0 (F := F) x1) shapeCasts_S1x800000_S800000

def val_main_v2 (x1 : (⟨S2x800000, .i32⟩ : BufTy).Contents (Elt F)) : (⟨S1x800000, .i32⟩ : BufTy).Contents (Elt F) :=
  extractStridedSlice S1x800000 ![1, 0] (x1) slices_S2x800000_S1x800000_1_0

def val_main_v3 (x1 : (⟨S2x800000, .i32⟩ : BufTy).Contents (Elt F)) : (⟨S800000, .i32⟩ : BufTy).Contents (Elt F) :=
  shapeCast _ (val_main_v2 (F := F) x1) shapeCasts_S1x800000_S800000

def val_main_v4 : (⟨S50000, .i32⟩ : BufTy).Contents (Elt F) :=
  iotaInDim S50000 32 0

def val_main_v5 (x1 : (⟨S2x800000, .i32⟩ : BufTy).Contents (Elt F)) : (⟨S850000, .i32⟩ : BufTy).Contents (Elt F) :=
  concatenate S850000 0 [⟨S800000, (val_main_v1 (F := F) x1)⟩, ⟨S50000, (val_main_v4 (F := F))⟩] concatenates_S800000_S50000_S850000_d0

def val_main_v6 (x1 : (⟨S2x800000, .i32⟩ : BufTy).Contents (Elt F)) : (⟨S850000, .i32⟩ : BufTy).Contents (Elt F) :=
  concatenate S850000 0 [⟨S800000, (val_main_v3 (F := F) x1)⟩, ⟨S50000, (val_main_v4 (F := F))⟩] concatenates_S800000_S50000_S850000_d0

def val_main_cst : (⟨S_, .f32⟩ : BufTy).Contents (Elt F) :=
  constant S_ .f32 0x3F800000#32

def val_main_v7 : (⟨S850000, .f32⟩ : BufTy).Contents (Elt F) :=
  broadcastInDim S850000 ![] bcast_S_S850000 (val_main_cst (F := F))

def val_main_cst_0 : (⟨S_, .f32⟩ : BufTy).Contents (Elt F) :=
  constant S_ .f32 0x00000000#32

def val_main_v8 : (⟨S50000, .f32⟩ : BufTy).Contents (Elt F) :=
  broadcastInDim S50000 ![] bcast_S_S50000 (val_main_cst_0 (F := F))

def val_main_v9 (x1 : (⟨S2x800000, .i32⟩ : BufTy).Contents (Elt F)) : (⟨S850000x1, .i32⟩ : BufTy).Contents (Elt F) :=
  broadcastInDim S850000x1 ![0] bcast_S850000_S850000x1_0 (val_main_v6 (F := F) x1)

def val_main_v10 (x1 : (⟨S2x800000, .i32⟩ : BufTy).Contents (Elt F)) : (⟨S50000, .f32⟩ : BufTy).Contents (Elt F) :=
  Host.scatterAdd scatter_S50000_S850000x1_S850000_n_0_0_1 (val_main_v8 (F := F)) (val_main_v9 (F := F) x1) (val_main_v7 (F := F))

def val_main_cst_1 : (⟨S_, .f32⟩ : BufTy).Contents (Elt F) :=
  constant S_ .f32 0x00000000#32

def val_main_v11 : (⟨S50000, .f32⟩ : BufTy).Contents (Elt F) :=
  broadcastInDim S50000 ![] bcast_S_S50000 (val_main_cst_1 (F := F))

def val_main_v12 (x1 : (⟨S2x800000, .i32⟩ : BufTy).Contents (Elt F)) : (⟨S50000, .i1⟩ : BufTy).Contents (Elt F) :=
  cmpf (F := F) .ogt (val_main_v10 (F := F) x1) (val_main_v11 (F := F))

def val_main_v13 (x1 : (⟨S2x800000, .i32⟩ : BufTy).Contents (Elt F)) : (⟨S50000, .f32⟩ : BufTy).Contents (Elt F) :=
  Host.rsqrt (val_main_v10 (F := F) x1)

def val_main_cst_2 : (⟨S_, .f32⟩ : BufTy).Contents (Elt F) :=
  constant S_ .f32 0x00000000#32

def val_main_call0_v0 : (⟨S_, .f32⟩ : BufTy).Contents (Elt F) :=
  id (val_main_cst_2 (F := F))

def val_main_call0_v1 : (⟨S50000, .f32⟩ : BufTy).Contents (Elt F) :=
  broadcastInDim S50000 ![] bcast_S_S50000 (val_main_call0_v0 (F := F))

def val_main_v14 (x1 : (⟨S2x800000, .i32⟩ : BufTy).Contents (Elt F)) : (⟨S50000, .f32⟩ : BufTy).Contents (Elt F) :=
  select (val_main_v12 (F := F) x1) (val_main_v13 (F := F) x1) (val_main_call0_v1 (F := F))

def val_main_c : (⟨S_, .i32⟩ : BufTy).Contents (Elt F) :=
  constantI S_ 32 0#32

def val_main_v15 : (⟨S850000, .i32⟩ : BufTy).Contents (Elt F) :=
  broadcastInDim S850000 ![] bcast_S_S850000 (val_main_c (F := F))

def val_main_v16 (x1 : (⟨S2x800000, .i32⟩ : BufTy).Contents (Elt F)) : (⟨S850000, .i1⟩ : BufTy).Contents (Elt F) :=
  cmpi .slt (val_main_v5 (F := F) x1) (val_main_v15 (F := F))

def val_main_c_3 : (⟨S_, .i32⟩ : BufTy).Contents (Elt F) :=
  constantI S_ 32 50000#32

def val_main_v17 : (⟨S850000, .i32⟩ : BufTy).Contents (Elt F) :=
  broadcastInDim S850000 ![] bcast_S_S850000 (val_main_c_3 (F := F))

def val_main_v18 (x1 : (⟨S2x800000, .i32⟩ : BufTy).Contents (Elt F)) : (⟨S850000, .i32⟩ : BufTy).Contents (Elt F) :=
  addi (val_main_v5 (F := F) x1) (val_main_v17 (F := F))

def val_main_v19 (x1 : (⟨S2x800000, .i32⟩ : BufTy).Contents (Elt F)) : (⟨S850000, .i32⟩ : BufTy).Contents (Elt F) :=
  select (val_main_v16 (F := F) x1) (val_main_v18 (F := F) x1) (val_main_v5 (F := F) x1)

def val_main_v20 (x1 : (⟨S2x800000, .i32⟩ : BufTy).Contents (Elt F)) : (⟨S850000x1, .i32⟩ : BufTy).Contents (Elt F) :=
  broadcastInDim S850000x1 ![0] bcast_S850000_S850000x1_0 (val_main_v19 (F := F) x1)

def val_main_v21 (x1 : (⟨S2x800000, .i32⟩ : BufTy).Contents (Elt F)) : (⟨S850000, .f32⟩ : BufTy).Contents (Elt F) :=
  Host.gather gather_S50000_S850000x1_S850000_n_0_n_n_0_1_1 (val_main_v14 (F := F) x1) (val_main_v20 (F := F) x1)

def val_main_c_4 : (⟨S_, .i32⟩ : BufTy).Contents (Elt F) :=
  constantI S_ 32 0#32

def val_main_v22 : (⟨S850000, .i32⟩ : BufTy).Contents (Elt F) :=
  broadcastInDim S850000 ![] bcast_S_S850000 (val_main_c_4 (F := F))

def val_main_v23 (x1 : (⟨S2x800000, .i32⟩ : BufTy).Contents (Elt F)) : (⟨S850000, .i1⟩ : BufTy).Contents (Elt F) :=
  cmpi .slt (val_main_v6 (F := F) x1) (val_main_v22 (F := F))

def val_main_c_5 : (⟨S_, .i32⟩ : BufTy).Contents (Elt F) :=
  constantI S_ 32 50000#32

def val_main_v24 : (⟨S850000, .i32⟩ : BufTy).Contents (Elt F) :=
  broadcastInDim S850000 ![] bcast_S_S850000 (val_main_c_5 (F := F))

def val_main_v25 (x1 : (⟨S2x800000, .i32⟩ : BufTy).Contents (Elt F)) : (⟨S850000, .i32⟩ : BufTy).Contents (Elt F) :=
  addi (val_main_v6 (F := F) x1) (val_main_v24 (F := F))

def val_main_v26 (x1 : (⟨S2x800000, .i32⟩ : BufTy).Contents (Elt F)) : (⟨S850000, .i32⟩ : BufTy).Contents (Elt F) :=
  select (val_main_v23 (F := F) x1) (val_main_v25 (F := F) x1) (val_main_v6 (F := F) x1)

def val_main_v27 (x1 : (⟨S2x800000, .i32⟩ : BufTy).Contents (Elt F)) : (⟨S850000x1, .i32⟩ : BufTy).Contents (Elt F) :=
  broadcastInDim S850000x1 ![0] bcast_S850000_S850000x1_0 (val_main_v26 (F := F) x1)

def val_main_v28 (x1 : (⟨S2x800000, .i32⟩ : BufTy).Contents (Elt F)) : (⟨S850000, .f32⟩ : BufTy).Contents (Elt F) :=
  Host.gather gather_S50000_S850000x1_S850000_n_0_n_n_0_1_1 (val_main_v14 (F := F) x1) (val_main_v27 (F := F) x1)

def val_main_v29 (x1 : (⟨S2x800000, .i32⟩ : BufTy).Contents (Elt F)) : (⟨S850000, .f32⟩ : BufTy).Contents (Elt F) :=
  mulf (val_main_v21 (F := F) x1) (val_main_v28 (F := F) x1)

def val_main_v30 (x0 : (⟨S50000x128, .f32⟩ : BufTy).Contents (Elt F)) (x3 : (⟨S128x128, .f32⟩ : BufTy).Contents (Elt F)) : (⟨S50000x128, .f32⟩ : BufTy).Contents (Elt F) :=
  Host.dotGeneral dot_S50000x128_S128x128_S50000x128_1_0_0_1_n_n none (x0) (x3)

theorem lhs_main_v30_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl

theorem lhs_main_v30_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q

theorem rhs_main_v30_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q

theorem rhs_main_v30_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

abbrev lidx_main_v30 (i : S50000x128.Idx) (k : Fin 128) : S50000x128.Idx := fun a => match a with
  | ⟨0, _⟩ => ⟨(i 0).val, (i 0).isLt⟩
  | ⟨1, _⟩ => ⟨k.val, k.isLt⟩

abbrev ridx_main_v30 (i : S50000x128.Idx) (k : Fin 128) : S128x128.Idx := fun a => match a with
  | ⟨0, _⟩ => ⟨k.val, k.isLt⟩
  | ⟨1, _⟩ => ⟨(i 1).val, (i 1).isLt⟩

theorem val_main_v30_apply (x0 : (⟨S50000x128, .f32⟩ : BufTy).Contents (Elt Ideal)) (x3 : (⟨S128x128, .f32⟩ : BufTy).Contents (Elt Ideal)) (i : S50000x128.Idx) :
    val_main_v30 (F := Ideal) x0 x3 i = ∑ k : Fin 128, x0 (lidx_main_v30 i k) * x3 (ridx_main_v30 i k) := by
  unfold val_main_v30
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = lidx_main_v30 i k := funext fun a => Fin.ext (by
    match a with
    | ⟨0, _⟩ => exact lhs_main_v30_0 _ _
    | ⟨1, _⟩ => exact (lhs_main_v30_1 _ _).trans hk)
  have er : dot_S50000x128_S128x128_S50000x128_1_0_0_1_n_n.rhsIdx i ((ValueIdx.contrEquiv1 dot_S50000x128_S128x128_S50000x128_1_0_0_1_n_n 128 rfl rfl).symm k) = ridx_main_v30 i k := funext fun a => Fin.ext (by
    match a with
    | ⟨0, _⟩ => exact (rhs_main_v30_0 _ _).trans hk
    | ⟨1, _⟩ => exact rhs_main_v30_1 _ _)
  rw [el, er]

def val_main_c_6 : (⟨S_, .i32⟩ : BufTy).Contents (Elt F) :=
  constantI S_ 32 0#32

def val_main_v31 : (⟨S850000, .i32⟩ : BufTy).Contents (Elt F) :=
  broadcastInDim S850000 ![] bcast_S_S850000 (val_main_c_6 (F := F))

def val_main_v32 (x1 : (⟨S2x800000, .i32⟩ : BufTy).Contents (Elt F)) : (⟨S850000, .i1⟩ : BufTy).Contents (Elt F) :=
  cmpi .slt (val_main_v5 (F := F) x1) (val_main_v31 (F := F))

def val_main_c_7 : (⟨S_, .i32⟩ : BufTy).Contents (Elt F) :=
  constantI S_ 32 50000#32

def val_main_v33 : (⟨S850000, .i32⟩ : BufTy).Contents (Elt F) :=
  broadcastInDim S850000 ![] bcast_S_S850000 (val_main_c_7 (F := F))

def val_main_v34 (x1 : (⟨S2x800000, .i32⟩ : BufTy).Contents (Elt F)) : (⟨S850000, .i32⟩ : BufTy).Contents (Elt F) :=
  addi (val_main_v5 (F := F) x1) (val_main_v33 (F := F))

def val_main_v35 (x1 : (⟨S2x800000, .i32⟩ : BufTy).Contents (Elt F)) : (⟨S850000, .i32⟩ : BufTy).Contents (Elt F) :=
  select (val_main_v32 (F := F) x1) (val_main_v34 (F := F) x1) (val_main_v5 (F := F) x1)

def val_main_v36 (x1 : (⟨S2x800000, .i32⟩ : BufTy).Contents (Elt F)) : (⟨S850000x1, .i32⟩ : BufTy).Contents (Elt F) :=
  broadcastInDim S850000x1 ![0] bcast_S850000_S850000x1_0 (val_main_v35 (F := F) x1)

def val_main_v37 (x0 : (⟨S50000x128, .f32⟩ : BufTy).Contents (Elt F)) (x1 : (⟨S2x800000, .i32⟩ : BufTy).Contents (Elt F)) (x3 : (⟨S128x128, .f32⟩ : BufTy).Contents (Elt F)) : (⟨S850000x128, .f32⟩ : BufTy).Contents (Elt F) :=
  Host.gather gather_S50000x128_S850000x1_S850000x128_1_0_n_n_0_1_1128 (val_main_v30 (F := F) x0 x3) (val_main_v36 (F := F) x1)

def val_main_v38 (x1 : (⟨S2x800000, .i32⟩ : BufTy).Contents (Elt F)) : (⟨S850000x1, .f32⟩ : BufTy).Contents (Elt F) :=
  broadcastInDim S850000x1 ![0] bcast_S850000_S850000x1_0 (val_main_v29 (F := F) x1)

def val_main_v39 (x1 : (⟨S2x800000, .i32⟩ : BufTy).Contents (Elt F)) : (⟨S850000x128, .f32⟩ : BufTy).Contents (Elt F) :=
  broadcastInDim S850000x128 ![0, 1] bcast_S850000x1_S850000x128_0_1 (val_main_v38 (F := F) x1)

def val_main_v40 (x0 : (⟨S50000x128, .f32⟩ : BufTy).Contents (Elt F)) (x1 : (⟨S2x800000, .i32⟩ : BufTy).Contents (Elt F)) (x3 : (⟨S128x128, .f32⟩ : BufTy).Contents (Elt F)) : (⟨S850000x128, .f32⟩ : BufTy).Contents (Elt F) :=
  mulf (val_main_v37 (F := F) x0 x1 x3) (val_main_v39 (F := F) x1)

def val_main_cst_8 : (⟨S_, .f32⟩ : BufTy).Contents (Elt F) :=
  constant S_ .f32 0x00000000#32

def val_main_v41 : (⟨S50000x128, .f32⟩ : BufTy).Contents (Elt F) :=
  broadcastInDim S50000x128 ![] bcast_S_S50000x128 (val_main_cst_8 (F := F))

def val_main_v42 (x1 : (⟨S2x800000, .i32⟩ : BufTy).Contents (Elt F)) : (⟨S850000x1, .i32⟩ : BufTy).Contents (Elt F) :=
  broadcastInDim S850000x1 ![0] bcast_S850000_S850000x1_0 (val_main_v6 (F := F) x1)

def val_main_v43 (x0 : (⟨S50000x128, .f32⟩ : BufTy).Contents (Elt F)) (x1 : (⟨S2x800000, .i32⟩ : BufTy).Contents (Elt F)) (x3 : (⟨S128x128, .f32⟩ : BufTy).Contents (Elt F)) : (⟨S50000x128, .f32⟩ : BufTy).Contents (Elt F) :=
  Host.scatterAdd scatter_S50000x128_S850000x1_S850000x128_1_0_0_1 (val_main_v41 (F := F)) (val_main_v42 (F := F) x1) (val_main_v40 (F := F) x0 x1 x3)

def val_main_v44 (x4 : (⟨S128, .f32⟩ : BufTy).Contents (Elt F)) : (⟨S1x128, .f32⟩ : BufTy).Contents (Elt F) :=
  broadcastInDim S1x128 ![1] bcast_S128_S1x128_1 (x4)

abbrev idx_main_v44 (i : S1x128.Idx) : S128.Idx := fun a => match a with
  | ⟨0, _⟩ => ⟨(i 1).val, (i 1).isLt⟩

theorem val_main_v44_apply (x4 : (⟨S128, .f32⟩ : BufTy).Contents (Elt F)) (i : S1x128.Idx) :
    val_main_v44 (F := F) x4 i = x4 (idx_main_v44 i) := by
  unfold val_main_v44
  exact broadcastInDim_apply _ bcast_S128_S1x128_1 x4 i (idx_main_v44 i) (fun a => match a with
    | ⟨0, _⟩ => by show (i 1).val = if (128 : Nat) = 1 then 0 else (i 1).val; rw [if_neg (by decide)])

def val_main_v45 (x4 : (⟨S128, .f32⟩ : BufTy).Contents (Elt F)) : (⟨S50000x128, .f32⟩ : BufTy).Contents (Elt F) :=
  broadcastInDim S50000x128 ![0, 1] bcast_S1x128_S50000x128_0_1 (val_main_v44 (F := F) x4)

abbrev idx_main_v45 (i : S50000x128.Idx) : S1x128.Idx := fun a => match a with
  | ⟨0, _⟩ => ⟨0, Nat.one_pos⟩
  | ⟨1, _⟩ => ⟨(i 1).val, (i 1).isLt⟩

theorem val_main_v45_apply (x4 : (⟨S128, .f32⟩ : BufTy).Contents (Elt F)) (i : S50000x128.Idx) :
    val_main_v45 (F := F) x4 i = val_main_v44 (F := F) x4 (idx_main_v45 i) := by
  unfold val_main_v45
  generalize val_main_v44 (F := F) x4 = y
  exact broadcastInDim_apply _ bcast_S1x128_S50000x128_0_1 y i (idx_main_v45 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v46 (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) : (⟨S50000x128, .f32⟩ : BufTy).Contents (Elt F) :=
  addf (val_main_v43 (F := F) x0 x1 x3) (val_main_v45 (F := F) x4)

def val_main_call1_cst : (⟨S_, .f32⟩ : BufTy).Contents (Elt F) :=
  constant S_ .f32 0x00000000#32

theorem val_main_call1_cst_apply (i : S_.Idx) :
    val_main_call1_cst (F := F) i = FloatOps.ofBits .f32 0x00000000#32 := rfl

def val_main_call1_v0 : (⟨S50000x128, .f32⟩ : BufTy).Contents (Elt F) :=
  broadcastInDim S50000x128 ![] bcast_S_S50000x128 (val_main_call1_cst (F := F))

abbrev idx_main_call1_v0 (i : S50000x128.Idx) : S_.Idx := fun a => a.elim0

theorem val_main_call1_v0_apply (i : S50000x128.Idx) :
    val_main_call1_v0 (F := F) i = val_main_call1_cst (F := F) (idx_main_call1_v0 i) := by
  unfold val_main_call1_v0
  generalize val_main_call1_cst (F := F) = y
  exact broadcastInDim_apply _ bcast_S_S50000x128 y i (idx_main_call1_v0 i) (fun a => a.elim0)

def val_main_v47 (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) : (⟨S50000x128, .f32⟩ : BufTy).Contents (Elt F) :=
  maximumf (val_main_v46 (F := F) x0 x1 x3 x4) (val_main_call1_v0 (F := F))

def val_main_v48 : (⟨S50000, .i32⟩ : BufTy).Contents (Elt F) :=
  iotaInDim S50000 32 0

def val_main_v49 (x1 : (⟨S2x800000, .i32⟩ : BufTy).Contents (Elt F)) : (⟨S850000, .i32⟩ : BufTy).Contents (Elt F) :=
  concatenate S850000 0 [⟨S800000, (val_main_v1 (F := F) x1)⟩, ⟨S50000, (val_main_v48 (F := F))⟩] concatenates_S800000_S50000_S850000_d0

def val_main_v50 (x1 : (⟨S2x800000, .i32⟩ : BufTy).Contents (Elt F)) : (⟨S850000, .i32⟩ : BufTy).Contents (Elt F) :=
  concatenate S850000 0 [⟨S800000, (val_main_v3 (F := F) x1)⟩, ⟨S50000, (val_main_v48 (F := F))⟩] concatenates_S800000_S50000_S850000_d0

def val_main_cst_9 : (⟨S_, .f32⟩ : BufTy).Contents (Elt F) :=
  constant S_ .f32 0x3F800000#32

def val_main_v51 : (⟨S850000, .f32⟩ : BufTy).Contents (Elt F) :=
  broadcastInDim S850000 ![] bcast_S_S850000 (val_main_cst_9 (F := F))

def val_main_cst_10 : (⟨S_, .f32⟩ : BufTy).Contents (Elt F) :=
  constant S_ .f32 0x00000000#32

def val_main_v52 : (⟨S50000, .f32⟩ : BufTy).Contents (Elt F) :=
  broadcastInDim S50000 ![] bcast_S_S50000 (val_main_cst_10 (F := F))

def val_main_v53 (x1 : (⟨S2x800000, .i32⟩ : BufTy).Contents (Elt F)) : (⟨S850000x1, .i32⟩ : BufTy).Contents (Elt F) :=
  broadcastInDim S850000x1 ![0] bcast_S850000_S850000x1_0 (val_main_v50 (F := F) x1)

def val_main_v54 (x1 : (⟨S2x800000, .i32⟩ : BufTy).Contents (Elt F)) : (⟨S50000, .f32⟩ : BufTy).Contents (Elt F) :=
  Host.scatterAdd scatter_S50000_S850000x1_S850000_n_0_0_1 (val_main_v52 (F := F)) (val_main_v53 (F := F) x1) (val_main_v51 (F := F))

def val_main_cst_11 : (⟨S_, .f32⟩ : BufTy).Contents (Elt F) :=
  constant S_ .f32 0x00000000#32

def val_main_v55 : (⟨S50000, .f32⟩ : BufTy).Contents (Elt F) :=
  broadcastInDim S50000 ![] bcast_S_S50000 (val_main_cst_11 (F := F))

def val_main_v56 (x1 : (⟨S2x800000, .i32⟩ : BufTy).Contents (Elt F)) : (⟨S50000, .i1⟩ : BufTy).Contents (Elt F) :=
  cmpf (F := F) .ogt (val_main_v54 (F := F) x1) (val_main_v55 (F := F))

def val_main_v57 (x1 : (⟨S2x800000, .i32⟩ : BufTy).Contents (Elt F)) : (⟨S50000, .f32⟩ : BufTy).Contents (Elt F) :=
  Host.rsqrt (val_main_v54 (F := F) x1)

def val_main_cst_12 : (⟨S_, .f32⟩ : BufTy).Contents (Elt F) :=
  constant S_ .f32 0x00000000#32

def val_main_call2_v0 : (⟨S_, .f32⟩ : BufTy).Contents (Elt F) :=
  id (val_main_cst_12 (F := F))

def val_main_call2_v1 : (⟨S50000, .f32⟩ : BufTy).Contents (Elt F) :=
  broadcastInDim S50000 ![] bcast_S_S50000 (val_main_call2_v0 (F := F))

def val_main_v58 (x1 : (⟨S2x800000, .i32⟩ : BufTy).Contents (Elt F)) : (⟨S50000, .f32⟩ : BufTy).Contents (Elt F) :=
  select (val_main_v56 (F := F) x1) (val_main_v57 (F := F) x1) (val_main_call2_v1 (F := F))

def val_main_c_13 : (⟨S_, .i32⟩ : BufTy).Contents (Elt F) :=
  constantI S_ 32 0#32

def val_main_v59 : (⟨S850000, .i32⟩ : BufTy).Contents (Elt F) :=
  broadcastInDim S850000 ![] bcast_S_S850000 (val_main_c_13 (F := F))

def val_main_v60 (x1 : (⟨S2x800000, .i32⟩ : BufTy).Contents (Elt F)) : (⟨S850000, .i1⟩ : BufTy).Contents (Elt F) :=
  cmpi .slt (val_main_v49 (F := F) x1) (val_main_v59 (F := F))

def val_main_c_14 : (⟨S_, .i32⟩ : BufTy).Contents (Elt F) :=
  constantI S_ 32 50000#32

def val_main_v61 : (⟨S850000, .i32⟩ : BufTy).Contents (Elt F) :=
  broadcastInDim S850000 ![] bcast_S_S850000 (val_main_c_14 (F := F))

def val_main_v62 (x1 : (⟨S2x800000, .i32⟩ : BufTy).Contents (Elt F)) : (⟨S850000, .i32⟩ : BufTy).Contents (Elt F) :=
  addi (val_main_v49 (F := F) x1) (val_main_v61 (F := F))

def val_main_v63 (x1 : (⟨S2x800000, .i32⟩ : BufTy).Contents (Elt F)) : (⟨S850000, .i32⟩ : BufTy).Contents (Elt F) :=
  select (val_main_v60 (F := F) x1) (val_main_v62 (F := F) x1) (val_main_v49 (F := F) x1)

def val_main_v64 (x1 : (⟨S2x800000, .i32⟩ : BufTy).Contents (Elt F)) : (⟨S850000x1, .i32⟩ : BufTy).Contents (Elt F) :=
  broadcastInDim S850000x1 ![0] bcast_S850000_S850000x1_0 (val_main_v63 (F := F) x1)

def val_main_v65 (x1 : (⟨S2x800000, .i32⟩ : BufTy).Contents (Elt F)) : (⟨S850000, .f32⟩ : BufTy).Contents (Elt F) :=
  Host.gather gather_S50000_S850000x1_S850000_n_0_n_n_0_1_1 (val_main_v58 (F := F) x1) (val_main_v64 (F := F) x1)

def val_main_c_15 : (⟨S_, .i32⟩ : BufTy).Contents (Elt F) :=
  constantI S_ 32 0#32

def val_main_v66 : (⟨S850000, .i32⟩ : BufTy).Contents (Elt F) :=
  broadcastInDim S850000 ![] bcast_S_S850000 (val_main_c_15 (F := F))

def val_main_v67 (x1 : (⟨S2x800000, .i32⟩ : BufTy).Contents (Elt F)) : (⟨S850000, .i1⟩ : BufTy).Contents (Elt F) :=
  cmpi .slt (val_main_v50 (F := F) x1) (val_main_v66 (F := F))

def val_main_c_16 : (⟨S_, .i32⟩ : BufTy).Contents (Elt F) :=
  constantI S_ 32 50000#32

def val_main_v68 : (⟨S850000, .i32⟩ : BufTy).Contents (Elt F) :=
  broadcastInDim S850000 ![] bcast_S_S850000 (val_main_c_16 (F := F))

def val_main_v69 (x1 : (⟨S2x800000, .i32⟩ : BufTy).Contents (Elt F)) : (⟨S850000, .i32⟩ : BufTy).Contents (Elt F) :=
  addi (val_main_v50 (F := F) x1) (val_main_v68 (F := F))

def val_main_v70 (x1 : (⟨S2x800000, .i32⟩ : BufTy).Contents (Elt F)) : (⟨S850000, .i32⟩ : BufTy).Contents (Elt F) :=
  select (val_main_v67 (F := F) x1) (val_main_v69 (F := F) x1) (val_main_v50 (F := F) x1)

def val_main_v71 (x1 : (⟨S2x800000, .i32⟩ : BufTy).Contents (Elt F)) : (⟨S850000x1, .i32⟩ : BufTy).Contents (Elt F) :=
  broadcastInDim S850000x1 ![0] bcast_S850000_S850000x1_0 (val_main_v70 (F := F) x1)

def val_main_v72 (x1 : (⟨S2x800000, .i32⟩ : BufTy).Contents (Elt F)) : (⟨S850000, .f32⟩ : BufTy).Contents (Elt F) :=
  Host.gather gather_S50000_S850000x1_S850000_n_0_n_n_0_1_1 (val_main_v58 (F := F) x1) (val_main_v71 (F := F) x1)

def val_main_v73 (x1 : (⟨S2x800000, .i32⟩ : BufTy).Contents (Elt F)) : (⟨S850000, .f32⟩ : BufTy).Contents (Elt F) :=
  mulf (val_main_v65 (F := F) x1) (val_main_v72 (F := F) x1)

def val_main_v74 (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) : (⟨S50000x128, .f32⟩ : BufTy).Contents (Elt F) :=
  Host.dotGeneral dot_S50000x128_S128x128_S50000x128_1_0_0_1_n_n none (val_main_v47 (F := F) x0 x1 x3 x4) (x5)

def val_main_c_17 : (⟨S_, .i32⟩ : BufTy).Contents (Elt F) :=
  constantI S_ 32 0#32

def val_main_v75 : (⟨S850000, .i32⟩ : BufTy).Contents (Elt F) :=
  broadcastInDim S850000 ![] bcast_S_S850000 (val_main_c_17 (F := F))

def val_main_v76 (x1 : (⟨S2x800000, .i32⟩ : BufTy).Contents (Elt F)) : (⟨S850000, .i1⟩ : BufTy).Contents (Elt F) :=
  cmpi .slt (val_main_v49 (F := F) x1) (val_main_v75 (F := F))

def val_main_c_18 : (⟨S_, .i32⟩ : BufTy).Contents (Elt F) :=
  constantI S_ 32 50000#32

def val_main_v77 : (⟨S850000, .i32⟩ : BufTy).Contents (Elt F) :=
  broadcastInDim S850000 ![] bcast_S_S850000 (val_main_c_18 (F := F))

def val_main_v78 (x1 : (⟨S2x800000, .i32⟩ : BufTy).Contents (Elt F)) : (⟨S850000, .i32⟩ : BufTy).Contents (Elt F) :=
  addi (val_main_v49 (F := F) x1) (val_main_v77 (F := F))

def val_main_v79 (x1 : (⟨S2x800000, .i32⟩ : BufTy).Contents (Elt F)) : (⟨S850000, .i32⟩ : BufTy).Contents (Elt F) :=
  select (val_main_v76 (F := F) x1) (val_main_v78 (F := F) x1) (val_main_v49 (F := F) x1)

def val_main_v80 (x1 : (⟨S2x800000, .i32⟩ : BufTy).Contents (Elt F)) : (⟨S850000x1, .i32⟩ : BufTy).Contents (Elt F) :=
  broadcastInDim S850000x1 ![0] bcast_S850000_S850000x1_0 (val_main_v79 (F := F) x1)

def val_main_v81 (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) : (⟨S850000x128, .f32⟩ : BufTy).Contents (Elt F) :=
  Host.gather gather_S50000x128_S850000x1_S850000x128_1_0_n_n_0_1_1128 (val_main_v74 (F := F) x0 x1 x3 x4 x5) (val_main_v80 (F := F) x1)

def val_main_v82 (x1 : (⟨S2x800000, .i32⟩ : BufTy).Contents (Elt F)) : (⟨S850000x1, .f32⟩ : BufTy).Contents (Elt F) :=
  broadcastInDim S850000x1 ![0] bcast_S850000_S850000x1_0 (val_main_v73 (F := F) x1)

def val_main_v83 (x1 : (⟨S2x800000, .i32⟩ : BufTy).Contents (Elt F)) : (⟨S850000x128, .f32⟩ : BufTy).Contents (Elt F) :=
  broadcastInDim S850000x128 ![0, 1] bcast_S850000x1_S850000x128_0_1 (val_main_v82 (F := F) x1)

def val_main_v84 (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) : (⟨S850000x128, .f32⟩ : BufTy).Contents (Elt F) :=
  mulf (val_main_v81 (F := F) x0 x1 x3 x4 x5) (val_main_v83 (F := F) x1)

def val_main_cst_19 : (⟨S_, .f32⟩ : BufTy).Contents (Elt F) :=
  constant S_ .f32 0x00000000#32

def val_main_v85 : (⟨S50000x128, .f32⟩ : BufTy).Contents (Elt F) :=
  broadcastInDim S50000x128 ![] bcast_S_S50000x128 (val_main_cst_19 (F := F))

def val_main_v86 (x1 : (⟨S2x800000, .i32⟩ : BufTy).Contents (Elt F)) : (⟨S850000x1, .i32⟩ : BufTy).Contents (Elt F) :=
  broadcastInDim S850000x1 ![0] bcast_S850000_S850000x1_0 (val_main_v50 (F := F) x1)

def val_main_v87 (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) : (⟨S50000x128, .f32⟩ : BufTy).Contents (Elt F) :=
  Host.scatterAdd scatter_S50000x128_S850000x1_S850000x128_1_0_0_1 (val_main_v85 (F := F)) (val_main_v86 (F := F) x1) (val_main_v84 (F := F) x0 x1 x3 x4 x5)

def val_main_v88 (x6 : (⟨S128, .f32⟩ : BufTy).Contents (Elt F)) : (⟨S1x128, .f32⟩ : BufTy).Contents (Elt F) :=
  broadcastInDim S1x128 ![1] bcast_S128_S1x128_1 (x6)

def val_main_v89 (x6 : (⟨S128, .f32⟩ : BufTy).Contents (Elt F)) : (⟨S50000x128, .f32⟩ : BufTy).Contents (Elt F) :=
  broadcastInDim S50000x128 ![0, 1] bcast_S1x128_S50000x128_0_1 (val_main_v88 (F := F) x6)

def val_main_v90 (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) : (⟨S50000x128, .f32⟩ : BufTy).Contents (Elt F) :=
  addf (val_main_v87 (F := F) x0 x1 x3 x4 x5) (val_main_v89 (F := F) x6)

def val_main_call3_cst : (⟨S_, .f32⟩ : BufTy).Contents (Elt F) :=
  constant S_ .f32 0x00000000#32

def val_main_call3_v0 : (⟨S50000x128, .f32⟩ : BufTy).Contents (Elt F) :=
  broadcastInDim S50000x128 ![] bcast_S_S50000x128 (val_main_call3_cst (F := F))

def val_main_v91 (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) : (⟨S50000x128, .f32⟩ : BufTy).Contents (Elt F) :=
  maximumf (val_main_v90 (F := F) x0 x1 x3 x4 x5 x6) (val_main_call3_v0 (F := F))

def val_main_v92 : (⟨S50000, .i32⟩ : BufTy).Contents (Elt F) :=
  iotaInDim S50000 32 0

def val_main_v93 (x1 : (⟨S2x800000, .i32⟩ : BufTy).Contents (Elt F)) : (⟨S850000, .i32⟩ : BufTy).Contents (Elt F) :=
  concatenate S850000 0 [⟨S800000, (val_main_v1 (F := F) x1)⟩, ⟨S50000, (val_main_v92 (F := F))⟩] concatenates_S800000_S50000_S850000_d0

def val_main_v94 (x1 : (⟨S2x800000, .i32⟩ : BufTy).Contents (Elt F)) : (⟨S850000, .i32⟩ : BufTy).Contents (Elt F) :=
  concatenate S850000 0 [⟨S800000, (val_main_v3 (F := F) x1)⟩, ⟨S50000, (val_main_v92 (F := F))⟩] concatenates_S800000_S50000_S850000_d0

def val_main_cst_20 : (⟨S_, .f32⟩ : BufTy).Contents (Elt F) :=
  constant S_ .f32 0x3F800000#32

def val_main_v95 : (⟨S850000, .f32⟩ : BufTy).Contents (Elt F) :=
  broadcastInDim S850000 ![] bcast_S_S850000 (val_main_cst_20 (F := F))

def val_main_cst_21 : (⟨S_, .f32⟩ : BufTy).Contents (Elt F) :=
  constant S_ .f32 0x00000000#32

def val_main_v96 : (⟨S50000, .f32⟩ : BufTy).Contents (Elt F) :=
  broadcastInDim S50000 ![] bcast_S_S50000 (val_main_cst_21 (F := F))

def val_main_v97 (x1 : (⟨S2x800000, .i32⟩ : BufTy).Contents (Elt F)) : (⟨S850000x1, .i32⟩ : BufTy).Contents (Elt F) :=
  broadcastInDim S850000x1 ![0] bcast_S850000_S850000x1_0 (val_main_v94 (F := F) x1)

def val_main_v98 (x1 : (⟨S2x800000, .i32⟩ : BufTy).Contents (Elt F)) : (⟨S50000, .f32⟩ : BufTy).Contents (Elt F) :=
  Host.scatterAdd scatter_S50000_S850000x1_S850000_n_0_0_1 (val_main_v96 (F := F)) (val_main_v97 (F := F) x1) (val_main_v95 (F := F))

def val_main_cst_22 : (⟨S_, .f32⟩ : BufTy).Contents (Elt F) :=
  constant S_ .f32 0x00000000#32

def val_main_v99 : (⟨S50000, .f32⟩ : BufTy).Contents (Elt F) :=
  broadcastInDim S50000 ![] bcast_S_S50000 (val_main_cst_22 (F := F))

def val_main_v100 (x1 : (⟨S2x800000, .i32⟩ : BufTy).Contents (Elt F)) : (⟨S50000, .i1⟩ : BufTy).Contents (Elt F) :=
  cmpf (F := F) .ogt (val_main_v98 (F := F) x1) (val_main_v99 (F := F))

def val_main_v101 (x1 : (⟨S2x800000, .i32⟩ : BufTy).Contents (Elt F)) : (⟨S50000, .f32⟩ : BufTy).Contents (Elt F) :=
  Host.rsqrt (val_main_v98 (F := F) x1)

def val_main_cst_23 : (⟨S_, .f32⟩ : BufTy).Contents (Elt F) :=
  constant S_ .f32 0x00000000#32

def val_main_call4_v0 : (⟨S_, .f32⟩ : BufTy).Contents (Elt F) :=
  id (val_main_cst_23 (F := F))

def val_main_call4_v1 : (⟨S50000, .f32⟩ : BufTy).Contents (Elt F) :=
  broadcastInDim S50000 ![] bcast_S_S50000 (val_main_call4_v0 (F := F))

def val_main_v102 (x1 : (⟨S2x800000, .i32⟩ : BufTy).Contents (Elt F)) : (⟨S50000, .f32⟩ : BufTy).Contents (Elt F) :=
  select (val_main_v100 (F := F) x1) (val_main_v101 (F := F) x1) (val_main_call4_v1 (F := F))

def val_main_c_24 : (⟨S_, .i32⟩ : BufTy).Contents (Elt F) :=
  constantI S_ 32 0#32

def val_main_v103 : (⟨S850000, .i32⟩ : BufTy).Contents (Elt F) :=
  broadcastInDim S850000 ![] bcast_S_S850000 (val_main_c_24 (F := F))

def val_main_v104 (x1 : (⟨S2x800000, .i32⟩ : BufTy).Contents (Elt F)) : (⟨S850000, .i1⟩ : BufTy).Contents (Elt F) :=
  cmpi .slt (val_main_v93 (F := F) x1) (val_main_v103 (F := F))

def val_main_c_25 : (⟨S_, .i32⟩ : BufTy).Contents (Elt F) :=
  constantI S_ 32 50000#32

def val_main_v105 : (⟨S850000, .i32⟩ : BufTy).Contents (Elt F) :=
  broadcastInDim S850000 ![] bcast_S_S850000 (val_main_c_25 (F := F))

def val_main_v106 (x1 : (⟨S2x800000, .i32⟩ : BufTy).Contents (Elt F)) : (⟨S850000, .i32⟩ : BufTy).Contents (Elt F) :=
  addi (val_main_v93 (F := F) x1) (val_main_v105 (F := F))

def val_main_v107 (x1 : (⟨S2x800000, .i32⟩ : BufTy).Contents (Elt F)) : (⟨S850000, .i32⟩ : BufTy).Contents (Elt F) :=
  select (val_main_v104 (F := F) x1) (val_main_v106 (F := F) x1) (val_main_v93 (F := F) x1)

def val_main_v108 (x1 : (⟨S2x800000, .i32⟩ : BufTy).Contents (Elt F)) : (⟨S850000x1, .i32⟩ : BufTy).Contents (Elt F) :=
  broadcastInDim S850000x1 ![0] bcast_S850000_S850000x1_0 (val_main_v107 (F := F) x1)

def val_main_v109 (x1 : (⟨S2x800000, .i32⟩ : BufTy).Contents (Elt F)) : (⟨S850000, .f32⟩ : BufTy).Contents (Elt F) :=
  Host.gather gather_S50000_S850000x1_S850000_n_0_n_n_0_1_1 (val_main_v102 (F := F) x1) (val_main_v108 (F := F) x1)

def val_main_c_26 : (⟨S_, .i32⟩ : BufTy).Contents (Elt F) :=
  constantI S_ 32 0#32

def val_main_v110 : (⟨S850000, .i32⟩ : BufTy).Contents (Elt F) :=
  broadcastInDim S850000 ![] bcast_S_S850000 (val_main_c_26 (F := F))

def val_main_v111 (x1 : (⟨S2x800000, .i32⟩ : BufTy).Contents (Elt F)) : (⟨S850000, .i1⟩ : BufTy).Contents (Elt F) :=
  cmpi .slt (val_main_v94 (F := F) x1) (val_main_v110 (F := F))

def val_main_c_27 : (⟨S_, .i32⟩ : BufTy).Contents (Elt F) :=
  constantI S_ 32 50000#32

def val_main_v112 : (⟨S850000, .i32⟩ : BufTy).Contents (Elt F) :=
  broadcastInDim S850000 ![] bcast_S_S850000 (val_main_c_27 (F := F))

def val_main_v113 (x1 : (⟨S2x800000, .i32⟩ : BufTy).Contents (Elt F)) : (⟨S850000, .i32⟩ : BufTy).Contents (Elt F) :=
  addi (val_main_v94 (F := F) x1) (val_main_v112 (F := F))

def val_main_v114 (x1 : (⟨S2x800000, .i32⟩ : BufTy).Contents (Elt F)) : (⟨S850000, .i32⟩ : BufTy).Contents (Elt F) :=
  select (val_main_v111 (F := F) x1) (val_main_v113 (F := F) x1) (val_main_v94 (F := F) x1)

def val_main_v115 (x1 : (⟨S2x800000, .i32⟩ : BufTy).Contents (Elt F)) : (⟨S850000x1, .i32⟩ : BufTy).Contents (Elt F) :=
  broadcastInDim S850000x1 ![0] bcast_S850000_S850000x1_0 (val_main_v114 (F := F) x1)

def val_main_v116 (x1 : (⟨S2x800000, .i32⟩ : BufTy).Contents (Elt F)) : (⟨S850000, .f32⟩ : BufTy).Contents (Elt F) :=
  Host.gather gather_S50000_S850000x1_S850000_n_0_n_n_0_1_1 (val_main_v102 (F := F) x1) (val_main_v115 (F := F) x1)

def val_main_v117 (x1 : (⟨S2x800000, .i32⟩ : BufTy).Contents (Elt F)) : (⟨S850000, .f32⟩ : BufTy).Contents (Elt F) :=
  mulf (val_main_v109 (F := F) x1) (val_main_v116 (F := F) x1)

def val_main_v118 (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) : (⟨S50000x128, .f32⟩ : BufTy).Contents (Elt F) :=
  Host.dotGeneral dot_S50000x128_S128x128_S50000x128_1_0_0_1_n_n none (val_main_v91 (F := F) x0 x1 x3 x4 x5 x6) (x7)

def val_main_c_28 : (⟨S_, .i32⟩ : BufTy).Contents (Elt F) :=
  constantI S_ 32 0#32

def val_main_v119 : (⟨S850000, .i32⟩ : BufTy).Contents (Elt F) :=
  broadcastInDim S850000 ![] bcast_S_S850000 (val_main_c_28 (F := F))

def val_main_v120 (x1 : (⟨S2x800000, .i32⟩ : BufTy).Contents (Elt F)) : (⟨S850000, .i1⟩ : BufTy).Contents (Elt F) :=
  cmpi .slt (val_main_v93 (F := F) x1) (val_main_v119 (F := F))

def val_main_c_29 : (⟨S_, .i32⟩ : BufTy).Contents (Elt F) :=
  constantI S_ 32 50000#32

def val_main_v121 : (⟨S850000, .i32⟩ : BufTy).Contents (Elt F) :=
  broadcastInDim S850000 ![] bcast_S_S850000 (val_main_c_29 (F := F))

def val_main_v122 (x1 : (⟨S2x800000, .i32⟩ : BufTy).Contents (Elt F)) : (⟨S850000, .i32⟩ : BufTy).Contents (Elt F) :=
  addi (val_main_v93 (F := F) x1) (val_main_v121 (F := F))

def val_main_v123 (x1 : (⟨S2x800000, .i32⟩ : BufTy).Contents (Elt F)) : (⟨S850000, .i32⟩ : BufTy).Contents (Elt F) :=
  select (val_main_v120 (F := F) x1) (val_main_v122 (F := F) x1) (val_main_v93 (F := F) x1)

def val_main_v124 (x1 : (⟨S2x800000, .i32⟩ : BufTy).Contents (Elt F)) : (⟨S850000x1, .i32⟩ : BufTy).Contents (Elt F) :=
  broadcastInDim S850000x1 ![0] bcast_S850000_S850000x1_0 (val_main_v123 (F := F) x1)

def val_main_v125 (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) : (⟨S850000x128, .f32⟩ : BufTy).Contents (Elt F) :=
  Host.gather gather_S50000x128_S850000x1_S850000x128_1_0_n_n_0_1_1128 (val_main_v118 (F := F) x0 x1 x3 x4 x5 x6 x7) (val_main_v124 (F := F) x1)

def val_main_v126 (x1 : (⟨S2x800000, .i32⟩ : BufTy).Contents (Elt F)) : (⟨S850000x1, .f32⟩ : BufTy).Contents (Elt F) :=
  broadcastInDim S850000x1 ![0] bcast_S850000_S850000x1_0 (val_main_v117 (F := F) x1)

def val_main_v127 (x1 : (⟨S2x800000, .i32⟩ : BufTy).Contents (Elt F)) : (⟨S850000x128, .f32⟩ : BufTy).Contents (Elt F) :=
  broadcastInDim S850000x128 ![0, 1] bcast_S850000x1_S850000x128_0_1 (val_main_v126 (F := F) x1)

def val_main_v128 (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) : (⟨S850000x128, .f32⟩ : BufTy).Contents (Elt F) :=
  mulf (val_main_v125 (F := F) x0 x1 x3 x4 x5 x6 x7) (val_main_v127 (F := F) x1)

def val_main_cst_30 : (⟨S_, .f32⟩ : BufTy).Contents (Elt F) :=
  constant S_ .f32 0x00000000#32

def val_main_v129 : (⟨S50000x128, .f32⟩ : BufTy).Contents (Elt F) :=
  broadcastInDim S50000x128 ![] bcast_S_S50000x128 (val_main_cst_30 (F := F))

def val_main_v130 (x1 : (⟨S2x800000, .i32⟩ : BufTy).Contents (Elt F)) : (⟨S850000x1, .i32⟩ : BufTy).Contents (Elt F) :=
  broadcastInDim S850000x1 ![0] bcast_S850000_S850000x1_0 (val_main_v94 (F := F) x1)

def val_main_v131 (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) : (⟨S50000x128, .f32⟩ : BufTy).Contents (Elt F) :=
  Host.scatterAdd scatter_S50000x128_S850000x1_S850000x128_1_0_0_1 (val_main_v129 (F := F)) (val_main_v130 (F := F) x1) (val_main_v128 (F := F) x0 x1 x3 x4 x5 x6 x7)

def val_main_v132 (x8 : (⟨S128, .f32⟩ : BufTy).Contents (Elt F)) : (⟨S1x128, .f32⟩ : BufTy).Contents (Elt F) :=
  broadcastInDim S1x128 ![1] bcast_S128_S1x128_1 (x8)

def val_main_v133 (x8 : (⟨S128, .f32⟩ : BufTy).Contents (Elt F)) : (⟨S50000x128, .f32⟩ : BufTy).Contents (Elt F) :=
  broadcastInDim S50000x128 ![0, 1] bcast_S1x128_S50000x128_0_1 (val_main_v132 (F := F) x8)

def val_main_v134 (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) : (⟨S50000x128, .f32⟩ : BufTy).Contents (Elt F) :=
  addf (val_main_v131 (F := F) x0 x1 x3 x4 x5 x6 x7) (val_main_v133 (F := F) x8)

def val_main_cst_31 : (⟨S_, .f32⟩ : BufTy).Contents (Elt F) :=
  constant S_ .f32 0x00000000#32

theorem val_main_cst_31_apply (i : S_.Idx) :
    val_main_cst_31 (F := F) i = FloatOps.ofBits .f32 0x00000000#32 := rfl

def val_main_v135 : (⟨S256x128, .f32⟩ : BufTy).Contents (Elt F) :=
  broadcastInDim S256x128 ![] bcast_S_S256x128 (val_main_cst_31 (F := F))

abbrev idx_main_v135 (i : S256x128.Idx) : S_.Idx := fun a => a.elim0

theorem val_main_v135_apply (i : S256x128.Idx) :
    val_main_v135 (F := F) i = val_main_cst_31 (F := F) (idx_main_v135 i) := by
  unfold val_main_v135
  generalize val_main_cst_31 (F := F) = y
  exact broadcastInDim_apply _ bcast_S_S256x128 y i (idx_main_v135 i) (fun a => a.elim0)

def val_main_v136 (x2 : (⟨S50000, .i32⟩ : BufTy).Contents (Elt F)) : (⟨S50000x1, .i32⟩ : BufTy).Contents (Elt F) :=
  broadcastInDim S50000x1 ![0] bcast_S50000_S50000x1_0 (x2)

abbrev idx_main_v136 (i : S50000x1.Idx) : S50000.Idx := fun a => match a with
  | ⟨0, _⟩ => ⟨(i 0).val, (i 0).isLt⟩

theorem val_main_v136_apply (x2 : (⟨S50000, .i32⟩ : BufTy).Contents (Elt F)) (i : S50000x1.Idx) :
    val_main_v136 (F := F) x2 i = x2 (idx_main_v136 i) := by
  unfold val_main_v136
  exact broadcastInDim_apply _ bcast_S50000_S50000x1_0 x2 i (idx_main_v136 i) (fun a => match a with
    | ⟨0, _⟩ => by show (i 0).val = if (50000 : Nat) = 1 then 0 else (i 0).val; rw [if_neg (by decide)])

def val_main_v137 (x0 : (⟨S50000x128, .f32⟩ : BufTy).Contents (Elt F)) (x1 : (⟨S2x800000, .i32⟩ : BufTy).Contents (Elt F)) (x2 : (⟨S50000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) : (⟨S256x128, .f32⟩ : BufTy).Contents (Elt F) :=
  Host.scatterAdd scatter_S256x128_S50000x1_S50000x128_1_0_0_1 (val_main_v135 (F := F)) (val_main_v136 (F := F) x2) (val_main_v134 (F := F) x0 x1 x3 x4 x5 x6 x7 x8)

def val_main_cst_32 : (⟨S_, .f32⟩ : BufTy).Contents (Elt F) :=
  constant S_ .f32 0x3F800000#32

theorem val_main_cst_32_apply (i : S_.Idx) :
    val_main_cst_32 (F := F) i = FloatOps.ofBits .f32 0x3F800000#32 := rfl

def val_main_v138 : (⟨S50000, .f32⟩ : BufTy).Contents (Elt F) :=
  broadcastInDim S50000 ![] bcast_S_S50000 (val_main_cst_32 (F := F))

abbrev idx_main_v138 (i : S50000.Idx) : S_.Idx := fun a => a.elim0

theorem val_main_v138_apply (i : S50000.Idx) :
    val_main_v138 (F := F) i = val_main_cst_32 (F := F) (idx_main_v138 i) := by
  unfold val_main_v138
  generalize val_main_cst_32 (F := F) = y
  exact broadcastInDim_apply _ bcast_S_S50000 y i (idx_main_v138 i) (fun a => a.elim0)

def val_main_cst_33 : (⟨S_, .f32⟩ : BufTy).Contents (Elt F) :=
  constant S_ .f32 0x00000000#32

theorem val_main_cst_33_apply (i : S_.Idx) :
    val_main_cst_33 (F := F) i = FloatOps.ofBits .f32 0x00000000#32 := rfl

def val_main_v139 : (⟨S256, .f32⟩ : BufTy).Contents (Elt F) :=
  broadcastInDim S256 ![] bcast_S_S256 (val_main_cst_33 (F := F))

abbrev idx_main_v139 (i : S256.Idx) : S_.Idx := fun a => a.elim0

theorem val_main_v139_apply (i : S256.Idx) :
    val_main_v139 (F := F) i = val_main_cst_33 (F := F) (idx_main_v139 i) := by
  unfold val_main_v139
  generalize val_main_cst_33 (F := F) = y
  exact broadcastInDim_apply _ bcast_S_S256 y i (idx_main_v139 i) (fun a => a.elim0)

def val_main_v140 (x2 : (⟨S50000, .i32⟩ : BufTy).Contents (Elt F)) : (⟨S50000x1, .i32⟩ : BufTy).Contents (Elt F) :=
  broadcastInDim S50000x1 ![0] bcast_S50000_S50000x1_0 (x2)

abbrev idx_main_v140 (i : S50000x1.Idx) : S50000.Idx := fun a => match a with
  | ⟨0, _⟩ => ⟨(i 0).val, (i 0).isLt⟩

theorem val_main_v140_apply (x2 : (⟨S50000, .i32⟩ : BufTy).Contents (Elt F)) (i : S50000x1.Idx) :
    val_main_v140 (F := F) x2 i = x2 (idx_main_v140 i) := by
  unfold val_main_v140
  exact broadcastInDim_apply _ bcast_S50000_S50000x1_0 x2 i (idx_main_v140 i) (fun a => match a with
    | ⟨0, _⟩ => by show (i 0).val = if (50000 : Nat) = 1 then 0 else (i 0).val; rw [if_neg (by decide)])

def val_main_v141 (x2 : (⟨S50000, .i32⟩ : BufTy).Contents (Elt F)) : (⟨S256, .f32⟩ : BufTy).Contents (Elt F) :=
  Host.scatterAdd scatter_S256_S50000x1_S50000_n_0_0_1 (val_main_v139 (F := F)) (val_main_v140 (F := F) x2) (val_main_v138 (F := F))

def val_main_cst_34 : (⟨S_, .f32⟩ : BufTy).Contents (Elt F) :=
  constant S_ .f32 0x3F800000#32

theorem val_main_cst_34_apply (i : S_.Idx) :
    val_main_cst_34 (F := F) i = FloatOps.ofBits .f32 0x3F800000#32 := rfl

def val_main_v142 : (⟨S256, .f32⟩ : BufTy).Contents (Elt F) :=
  broadcastInDim S256 ![] bcast_S_S256 (val_main_cst_34 (F := F))

abbrev idx_main_v142 (i : S256.Idx) : S_.Idx := fun a => a.elim0

theorem val_main_v142_apply (i : S256.Idx) :
    val_main_v142 (F := F) i = val_main_cst_34 (F := F) (idx_main_v142 i) := by
  unfold val_main_v142
  generalize val_main_cst_34 (F := F) = y
  exact broadcastInDim_apply _ bcast_S_S256 y i (idx_main_v142 i) (fun a => a.elim0)

def val_main_v143 (x2 : (⟨S50000, .i32⟩ : BufTy).Contents (Elt F)) : (⟨S256, .f32⟩ : BufTy).Contents (Elt F) :=
  maximumf (val_main_v141 (F := F) x2) (val_main_v142 (F := F))

theorem val_main_v143_apply (x2 : (⟨S50000, .i32⟩ : BufTy).Contents (Elt F)) (i : S256.Idx) :
    val_main_v143 (F := F) x2 i = FloatOps.maximumf (val_main_v141 (F := F) x2 i) (val_main_v142 (F := F) i) := rfl

def val_main_v144 (x2 : (⟨S50000, .i32⟩ : BufTy).Contents (Elt F)) : (⟨S256x1, .f32⟩ : BufTy).Contents (Elt F) :=
  broadcastInDim S256x1 ![0] bcast_S256_S256x1_0 (val_main_v143 (F := F) x2)

abbrev idx_main_v144 (i : S256x1.Idx) : S256.Idx := fun a => match a with
  | ⟨0, _⟩ => ⟨(i 0).val, (i 0).isLt⟩

theorem val_main_v144_apply (x2 : (⟨S50000, .i32⟩ : BufTy).Contents (Elt F)) (i : S256x1.Idx) :
    val_main_v144 (F := F) x2 i = val_main_v143 (F := F) x2 (idx_main_v144 i) := by
  unfold val_main_v144
  generalize val_main_v143 (F := F) x2 = y
  exact broadcastInDim_apply _ bcast_S256_S256x1_0 y i (idx_main_v144 i) (fun a => match a with
    | ⟨0, _⟩ => by show (i 0).val = if (256 : Nat) = 1 then 0 else (i 0).val; rw [if_neg (by decide)])

def val_main_v145 (x2 : (⟨S50000, .i32⟩ : BufTy).Contents (Elt F)) : (⟨S256x128, .f32⟩ : BufTy).Contents (Elt F) :=
  broadcastInDim S256x128 ![0, 1] bcast_S256x1_S256x128_0_1 (val_main_v144 (F := F) x2)

abbrev idx_main_v145 (i : S256x128.Idx) : S256x1.Idx := fun a => match a with
  | ⟨0, _⟩ => ⟨(i 0).val, (i 0).isLt⟩
  | ⟨1, _⟩ => ⟨0, Nat.one_pos⟩

theorem val_main_v145_apply (x2 : (⟨S50000, .i32⟩ : BufTy).Contents (Elt F)) (i : S256x128.Idx) :
    val_main_v145 (F := F) x2 i = val_main_v144 (F := F) x2 (idx_main_v145 i) := by
  unfold val_main_v145
  generalize val_main_v144 (F := F) x2 = y
  exact broadcastInDim_apply _ bcast_S256x1_S256x128_0_1 y i (idx_main_v145 i) (fun a => match a with
    | ⟨0, _⟩ => by show (i 0).val = if (256 : Nat) = 1 then 0 else (i 0).val; rw [if_neg (by decide)]
    | ⟨1, _⟩ => by show 0 = if (1 : Nat) = 1 then 0 else (i 1).val; rw [if_pos rfl])

def val_main_v146 (x0 : (⟨S50000x128, .f32⟩ : BufTy).Contents (Elt F)) (x1 : (⟨S2x800000, .i32⟩ : BufTy).Contents (Elt F)) (x2 : (⟨S50000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) : (⟨S256x128, .f32⟩ : BufTy).Contents (Elt F) :=
  Host.divf (val_main_v137 (F := F) x0 x1 x2 x3 x4 x5 x6 x7 x8) (val_main_v145 (F := F) x2)

def val_main_v147 (x0 : (⟨S50000x128, .f32⟩ : BufTy).Contents (Elt F)) (x1 : (⟨S2x800000, .i32⟩ : BufTy).Contents (Elt F)) (x2 : (⟨S50000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x10, .f32⟩ : BufTy).Contents (Elt F)) : (⟨S256x10, .f32⟩ : BufTy).Contents (Elt F) :=
  Host.dotGeneral dot_S256x128_S128x10_S256x10_1_0_0_1_n_n none (val_main_v146 (F := F) x0 x1 x2 x3 x4 x5 x6 x7 x8) (x9)

theorem lhs_main_v147_0 (i : S256x10.Idx) (q : dot_S256x128_S128x10_S256x10_1_0_0_1_n_n.contr.Idx) :
    (dot_S256x128_S128x10_S256x10_1_0_0_1_n_n.lhsIdx i q 0).val = (i 0).val := by
  unfold DotDims.lhsIdx
  rw [dif_neg (show ¬(0 : Fin S256x128.rank) ∈ dot_S256x128_S128x10_S256x10_1_0_0_1_n_n.lhsBatch by decide), dif_pos (show (0 : Fin S256x128.rank) ∈ dot_S256x128_S128x10_S256x10_1_0_0_1_n_n.lhsNonContracting by decide)]
  rfl

theorem lhs_main_v147_1 (i : S256x10.Idx) (q : dot_S256x128_S128x10_S256x10_1_0_0_1_n_n.contr.Idx) :
    (dot_S256x128_S128x10_S256x10_1_0_0_1_n_n.lhsIdx i q 1).val = (q ⟨0, by decide⟩).val :=
  dot_S256x128_S128x10_S256x10_1_0_0_1_n_n.lhsIdx_val_of_single rfl i q

theorem rhs_main_v147_0 (i : S256x10.Idx) (q : dot_S256x128_S128x10_S256x10_1_0_0_1_n_n.contr.Idx) :
    (dot_S256x128_S128x10_S256x10_1_0_0_1_n_n.rhsIdx i q 0).val = (q ⟨0, by decide⟩).val :=
  dot_S256x128_S128x10_S256x10_1_0_0_1_n_n.rhsIdx_val_of_single rfl i q

theorem rhs_main_v147_1 (i : S256x10.Idx) (q : dot_S256x128_S128x10_S256x10_1_0_0_1_n_n.contr.Idx) :
    (dot_S256x128_S128x10_S256x10_1_0_0_1_n_n.rhsIdx i q 1).val = (i 1).val := by
  unfold DotDims.rhsIdx
  rw [dif_neg (show ¬(1 : Fin S128x10.rank) ∈ dot_S256x128_S128x10_S256x10_1_0_0_1_n_n.rhsBatch by decide), dif_pos (show (1 : Fin S128x10.rank) ∈ dot_S256x128_S128x10_S256x10_1_0_0_1_n_n.rhsNonContracting by decide)]
  rfl

def val_main_v148 (x10 : (⟨S10, .f32⟩ : BufTy).Contents (Elt F)) : (⟨S1x10, .f32⟩ : BufTy).Contents (Elt F) :=
  broadcastInDim S1x10 ![1] bcast_S10_S1x10_1 (x10)

abbrev idx_main_v148 (i : S1x10.Idx) : S10.Idx := fun a => match a with
  | ⟨0, _⟩ => ⟨(i 1).val, (i 1).isLt⟩

theorem val_main_v148_apply (x10 : (⟨S10, .f32⟩ : BufTy).Contents (Elt F)) (i : S1x10.Idx) :
    val_main_v148 (F := F) x10 i = x10 (idx_main_v148 i) := by
  unfold val_main_v148
  exact broadcastInDim_apply _ bcast_S10_S1x10_1 x10 i (idx_main_v148 i) (fun a => match a with
    | ⟨0, _⟩ => by show (i 1).val = if (10 : Nat) = 1 then 0 else (i 1).val; rw [if_neg (by decide)])

def val_main_v149 (x10 : (⟨S10, .f32⟩ : BufTy).Contents (Elt F)) : (⟨S256x10, .f32⟩ : BufTy).Contents (Elt F) :=
  broadcastInDim S256x10 ![0, 1] bcast_S1x10_S256x10_0_1 (val_main_v148 (F := F) x10)

abbrev idx_main_v149 (i : S256x10.Idx) : S1x10.Idx := fun a => match a with
  | ⟨0, _⟩ => ⟨0, Nat.one_pos⟩
  | ⟨1, _⟩ => ⟨(i 1).val, (i 1).isLt⟩

theorem val_main_v149_apply (x10 : (⟨S10, .f32⟩ : BufTy).Contents (Elt F)) (i : S256x10.Idx) :
    val_main_v149 (F := F) x10 i = val_main_v148 (F := F) x10 (idx_main_v149 i) := by
  unfold val_main_v149
  generalize val_main_v148 (F := F) x10 = y
  exact broadcastInDim_apply _ bcast_S1x10_S256x10_0_1 y i (idx_main_v149 i) (fun a => match a with
    | ⟨0, _⟩ => by show 0 = if (1 : Nat) = 1 then 0 else (i 0).val; rw [if_pos rfl]
    | ⟨1, _⟩ => by show (i 1).val = if (10 : Nat) = 1 then 0 else (i 1).val; rw [if_neg (by decide)])

def val_main_v150 (x0 : (⟨S50000x128, .f32⟩ : BufTy).Contents (Elt F)) (x1 : (⟨S2x800000, .i32⟩ : BufTy).Contents (Elt F)) (x2 : (⟨S50000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x10, .f32⟩ : BufTy).Contents (Elt F)) (x10 : (⟨S10, .f32⟩ : BufTy).Contents (Elt F)) : (⟨S256x10, .f32⟩ : BufTy).Contents (Elt F) :=
  addf (val_main_v147 (F := F) x0 x1 x2 x3 x4 x5 x6 x7 x8 x9) (val_main_v149 (F := F) x10)

theorem val_main_v150_eq (m : (ℓ : Loc nD τ sig) → Buf (Elt F) ℓ) (c : Dev nD) :
    Cert.ReferenceIdeal.ValueP.res_main_v150 m c = val_main_v150 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Cert.ReferenceIdeal.ValueP.res_main_v150; rfl

end Cert.ReferenceIdeal.ReadP

end
-- ==== Proof.RefRun.lean ====
import proofs.«410102_j40518721470743_1_alg».proof.Proof.RefRunCopy
import proofs.«410102_j40518721470743_1_alg».proof.Proof.RefReadCopy
-- ==== Proof.KI.Host.lean ====
import proofs.«410102_j40518721470743_1_alg».proof.Proof.KI.Run
import proofs.«410102_j40518721470743_1_alg».proof.Proof.RefRun
import Idealize.ShloMosaic.Lib.StableHlo.Run

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)
open Cert.ReferenceIdeal.ReadP

variable {F : FTy → Type} [FloatOps F]

variable (m : (ℓ : Loc nD τ sig) → Buf (Elt F) ℓ) (ρ : Dev nD → PrngReg)

/-- One layer's aggregation: rows gathered at the source ids, scaled by the edge weight, and summed into the rows of the target ids. -/
def agg (h : (⟨S50000x128, .f32⟩ : BufTy).Contents (Elt F)) (s d : (⟨S850000, .i32⟩ : BufTy).Contents (Elt F))
    (nrm : (⟨S850000, .f32⟩ : BufTy).Contents (Elt F)) : (⟨S50000x128, .f32⟩ : BufTy).Contents (Elt F) :=
  Host.scatterAdd scatter_S50000x128_S850000x1_S850000x128_1_0_0_1
    (broadcastInDim S50000x128 ![] bcast_S_S50000x128 (constant (F := F) S_ .f32 0x00000000#32))
    (broadcastInDim S850000x1 ![0] bcast_S850000_S850000x1_0 d)
    (mulf (Host.gather gather_S50000x128_S850000x1_S850000x128_1_0_n_n_0_1_1128 h
        (broadcastInDim S850000x1 ![0] bcast_S850000_S850000x1_0
          (select (cmpi .slt s (broadcastInDim S850000 ![] bcast_S_S850000 (constantI S_ 32 0#32)))
            (addi s (broadcastInDim S850000 ![] bcast_S_S850000 (constantI S_ 32 50000#32))) s)))
      (broadcastInDim S850000x128 ![0, 1] bcast_S850000x1_S850000x128_0_1 (broadcastInDim S850000x1 ![0] bcast_S850000_S850000x1_0 nrm)))

/-! The reference's stages of each layer, one on top of the other: each is the next operation applied to the stage before. -/
section
variable (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F))

theorem ref_agg1 :
    val_main_v43 (F := F) x0 x1 x3 = agg (val_main_v30 (F := F) x0 x3) (val_main_v5 (F := F) x1) (val_main_v6 (F := F) x1) (val_main_v29 (F := F) x1) := rfl
theorem ref_relu1 :
    val_main_v47 (F := F) x0 x1 x3 x4 = maximumf (addf (val_main_v43 (F := F) x0 x1 x3) (val_main_v45 (F := F) x4)) (val_main_call1_v0 (F := F)) := rfl
theorem ref_lin2 :
    val_main_v74 (F := F) x0 x1 x3 x4 x5 = val_main_v30 (F := F) (val_main_v47 (F := F) x0 x1 x3 x4) x5 := rfl
theorem ref_agg2 :
    val_main_v87 (F := F) x0 x1 x3 x4 x5 = agg (val_main_v74 (F := F) x0 x1 x3 x4 x5) (val_main_v5 (F := F) x1) (val_main_v6 (F := F) x1) (val_main_v29 (F := F) x1) := rfl
theorem ref_relu2 :
    val_main_v91 (F := F) x0 x1 x3 x4 x5 x6 = maximumf (addf (val_main_v87 (F := F) x0 x1 x3 x4 x5) (val_main_v45 (F := F) x6)) (val_main_call1_v0 (F := F)) := rfl
theorem ref_lin3 :
    val_main_v118 (F := F) x0 x1 x3 x4 x5 x6 x7 = val_main_v30 (F := F) (val_main_v91 (F := F) x0 x1 x3 x4 x5 x6) x7 := rfl
theorem ref_agg3 :
    val_main_v131 (F := F) x0 x1 x3 x4 x5 x6 x7 = agg (val_main_v118 (F := F) x0 x1 x3 x4 x5 x6 x7) (val_main_v5 (F := F) x1) (val_main_v6 (F := F) x1) (val_main_v29 (F := F) x1) := rfl
theorem ref_bias3 :
    val_main_v134 (F := F) x0 x1 x3 x4 x5 x6 x7 x8 = addf (val_main_v131 (F := F) x0 x1 x3 x4 x5 x6 x7) (val_main_v133 (F := F) x8) := rfl

end

theorem keep_v5_4 (c : Dev nD) : W4 m ρ c (Proc.devRef .tc main_v5) = W3 m ρ c (Proc.devRef .tc main_v5) :=
  between m ρ c main_v5 3 1 (by decide)
theorem keep_v6_4 (c : Dev nD) : W4 m ρ c (Proc.devRef .tc main_v6) = W3 m ρ c (Proc.devRef .tc main_v6) :=
  between m ρ c main_v6 3 1 (by decide)
theorem keep_v29_4 (c : Dev nD) : W4 m ρ c (Proc.devRef .tc main_v29) = W3 m ρ c (Proc.devRef .tc main_v29) :=
  between m ρ c main_v29 3 1 (by decide)
theorem keep_v5_7 (c : Dev nD) : W7 m ρ c (Proc.devRef .tc main_v5) = W3 m ρ c (Proc.devRef .tc main_v5) :=
  between m ρ c main_v5 3 4 (by decide)
theorem keep_v6_7 (c : Dev nD) : W7 m ρ c (Proc.devRef .tc main_v6) = W3 m ρ c (Proc.devRef .tc main_v6) :=
  between m ρ c main_v6 3 4 (by decide)
theorem keep_v29_7 (c : Dev nD) : W7 m ρ c (Proc.devRef .tc main_v29) = W3 m ρ c (Proc.devRef .tc main_v29) :=
  between m ρ c main_v29 3 4 (by decide)
theorem keep_v5_10 (c : Dev nD) : W10 m ρ c (Proc.devRef .tc main_v5) = W3 m ρ c (Proc.devRef .tc main_v5) :=
  between m ρ c main_v5 3 7 (by decide)
theorem keep_v6_10 (c : Dev nD) : W10 m ρ c (Proc.devRef .tc main_v6) = W3 m ρ c (Proc.devRef .tc main_v6) :=
  between m ρ c main_v6 3 7 (by decide)
theorem keep_v29_10 (c : Dev nD) : W10 m ρ c (Proc.devRef .tc main_v29) = W3 m ρ c (Proc.devRef .tc main_v29) :=
  between m ρ c main_v29 3 7 (by decide)
theorem keep_v77_13 (c : Dev nD) : W13 m ρ c (Proc.devRef .tc main_v77) = W12 m ρ c (Proc.devRef .tc main_v77) :=
  between m ρ c main_v77 12 1 (by decide)
theorem keep_arg0_3 (c : Dev nD) : W3 m ρ c (Proc.devRef .tc main_arg0) = m ((c : Thread nD τ).loc main_arg0) :=
  between m ρ c main_arg0 0 3 (by decide)
theorem keep_arg3_3 (c : Dev nD) : W3 m ρ c (Proc.devRef .tc main_arg3) = m ((c : Thread nD τ).loc main_arg3) :=
  between m ρ c main_arg3 0 3 (by decide)
theorem keep_arg4_4 (c : Dev nD) : W4 m ρ c (Proc.devRef .tc main_arg4) = m ((c : Thread nD τ).loc main_arg4) :=
  between m ρ c main_arg4 0 4 (by decide)
theorem keep_arg5_6 (c : Dev nD) : W6 m ρ c (Proc.devRef .tc main_arg5) = m ((c : Thread nD τ).loc main_arg5) :=
  between m ρ c main_arg5 0 6 (by decide)
theorem keep_arg6_7 (c : Dev nD) : W7 m ρ c (Proc.devRef .tc main_arg6) = m ((c : Thread nD τ).loc main_arg6) :=
  between m ρ c main_arg6 0 7 (by decide)
theorem keep_arg7_9 (c : Dev nD) : W9 m ρ c (Proc.devRef .tc main_arg7) = m ((c : Thread nD τ).loc main_arg7) :=
  between m ρ c main_arg7 0 9 (by decide)
theorem keep_arg8_10 (c : Dev nD) : W10 m ρ c (Proc.devRef .tc main_arg8) = m ((c : Thread nD τ).loc main_arg8) :=
  between m ρ c main_arg8 0 10 (by decide)
theorem keep_arg2_12 (c : Dev nD) : W12 m ρ c (Proc.devRef .tc main_arg2) = m ((c : Thread nD τ).loc main_arg2) :=
  between m ρ c main_arg2 0 12 (by decide)
theorem keep_arg10_12 (c : Dev nD) : W12 m ρ c (Proc.devRef .tc main_arg10) = m ((c : Thread nD τ).loc main_arg10) :=
  between m ρ c main_arg10 0 12 (by decide)
theorem keep_arg9_13 (c : Dev nD) : W13 m ρ c (Proc.devRef .tc main_arg9) = m ((c : Thread nD τ).loc main_arg9) :=
  between m ρ c main_arg9 0 13 (by decide)

set_option maxHeartbeats 4000000 in
theorem W3_v5 (c : Dev nD) : W3 m ρ c (Proc.devRef .tc main_v5) = val_main_v5 (F := F) (m ((c : Thread nD τ).loc main_arg1)) := by
  show StableHlo.after hostOps0_2 (StableHlo.after hostOps0_1 (StableHlo.after hostOps0 (W0 m ρ c))) (Proc.devRef .tc main_v5) = _
  rw [StableHlo.after_of_writes_sub hostOps0_2 _ hostOps0_2_writes (by decide : main_v5 ∉ hostOps0_2_W),
    StableHlo.after_of_writes_sub hostOps0_1 _ hostOps0_1_writes (by decide : main_v5 ∉ hostOps0_1_W)]
  after_results_simp
  rfl
set_option maxHeartbeats 4000000 in
theorem W3_v6 (c : Dev nD) : W3 m ρ c (Proc.devRef .tc main_v6) = val_main_v6 (F := F) (m ((c : Thread nD τ).loc main_arg1)) := by
  show StableHlo.after hostOps0_2 (StableHlo.after hostOps0_1 (StableHlo.after hostOps0 (W0 m ρ c))) (Proc.devRef .tc main_v6) = _
  rw [StableHlo.after_of_writes_sub hostOps0_2 _ hostOps0_2_writes (by decide : main_v6 ∉ hostOps0_2_W),
    StableHlo.after_of_writes_sub hostOps0_1 _ hostOps0_1_writes (by decide : main_v6 ∉ hostOps0_1_W)]
  after_results_simp
  rfl
set_option maxHeartbeats 8000000 in
theorem W3_v29 (c : Dev nD) : W3 m ρ c (Proc.devRef .tc main_v29) = val_main_v29 (F := F) (m ((c : Thread nD τ).loc main_arg1)) := by
  show StableHlo.after hostOps0_2 (StableHlo.after hostOps0_1 (StableHlo.after hostOps0 (W0 m ρ c))) (Proc.devRef .tc main_v29) = _
  after_results_simp
  rfl
set_option maxHeartbeats 4000000 in
theorem W5_v43 (c : Dev nD) : W5 m ρ c (Proc.devRef .tc main_v43) = agg (W4 m ρ c (Proc.devRef .tc main_v30)) (W4 m ρ c (Proc.devRef .tc main_v5)) (W4 m ρ c (Proc.devRef .tc main_v6)) (W4 m ρ c (Proc.devRef .tc main_v29)) := by
  show StableHlo.after hostOps1 (W4 m ρ c) (Proc.devRef .tc main_v43) = _
  after_results_simp
  rfl
set_option maxHeartbeats 4000000 in
theorem W5_v44 (c : Dev nD) : W5 m ρ c (Proc.devRef .tc main_v44) = fun i => shapeCast S1x128 (W4 m ρ c (Proc.devRef .tc main_arg4)) shapeCasts_S128_S1x128 i := by
  show StableHlo.after hostOps1 (W4 m ρ c) (Proc.devRef .tc main_v44) = _
  after_results_simp
  rfl
set_option maxHeartbeats 4000000 in
theorem W8_v59 (c : Dev nD) : W8 m ρ c (Proc.devRef .tc main_v59) = agg (W7 m ρ c (Proc.devRef .tc main_v46)) (W7 m ρ c (Proc.devRef .tc main_v5)) (W7 m ρ c (Proc.devRef .tc main_v6)) (W7 m ρ c (Proc.devRef .tc main_v29)) := by
  show StableHlo.after hostOps3 (W7 m ρ c) (Proc.devRef .tc main_v59) = _
  after_results_simp
  rfl
set_option maxHeartbeats 4000000 in
theorem W8_v60 (c : Dev nD) : W8 m ρ c (Proc.devRef .tc main_v60) = fun i => shapeCast S1x128 (W7 m ρ c (Proc.devRef .tc main_arg6)) shapeCasts_S128_S1x128 i := by
  show StableHlo.after hostOps3 (W7 m ρ c) (Proc.devRef .tc main_v60) = _
  after_results_simp
  rfl
set_option maxHeartbeats 4000000 in
theorem W11_v75 (c : Dev nD) : W11 m ρ c (Proc.devRef .tc main_v75) = agg (W10 m ρ c (Proc.devRef .tc main_v62)) (W10 m ρ c (Proc.devRef .tc main_v5)) (W10 m ρ c (Proc.devRef .tc main_v6)) (W10 m ρ c (Proc.devRef .tc main_v29)) := by
  show StableHlo.after hostOps5 (W10 m ρ c) (Proc.devRef .tc main_v75) = _
  after_results_simp
  rfl
set_option maxHeartbeats 4000000 in
theorem W11_v76 (c : Dev nD) : W11 m ρ c (Proc.devRef .tc main_v76) = fun i => shapeCast S1x128 (W10 m ρ c (Proc.devRef .tc main_arg8)) shapeCasts_S128_S1x128 i := by
  show StableHlo.after hostOps5 (W10 m ρ c) (Proc.devRef .tc main_v76) = _
  after_results_simp
  rfl
set_option maxHeartbeats 4000000 in
theorem W13_v78 (c : Dev nD) : W13 m ρ c (Proc.devRef .tc main_v78) = fun i => shapeCast S50000x1 (W12 m ρ c (Proc.devRef .tc main_arg2)) shapeCasts_S50000_S50000x1 i := by
  show StableHlo.after hostOps6 (W12 m ρ c) (Proc.devRef .tc main_v78) = _
  after_results_simp
  rfl
set_option maxHeartbeats 4000000 in
theorem W13_v79 (c : Dev nD) : W13 m ρ c (Proc.devRef .tc main_v79) = fun i => shapeCast S1x10 (W12 m ρ c (Proc.devRef .tc main_arg10)) shapeCasts_S10_S1x10 i := by
  show StableHlo.after hostOps6 (W12 m ρ c) (Proc.devRef .tc main_v79) = _
  after_results_simp
  rfl

end Cert.KernelIdeal.Fr

end
-- ==== Proof.KI.Lin.lean ====
import proofs.«410102_j40518721470743_1_alg».proof.Proof.Gen.KernelIdeal.Skeleton
import proofs.«410102_j40518721470743_1_alg».proof.Proof.RefRun
import Idealize.ShloMosaic.Lib.Pipeline.Value
import Idealize.ShloMosaic.Lib.ValueIdx
import Idealize.ShloMosaic.PureOps.Ideal.Laws

set_option maxRecDepth 16384

noncomputable section

namespace Cert.KernelIdeal.Fr

open Cert.KernelIdeal Cert.KernelIdeal.Gen

open Idealize.ShloMosaic Idealize.ShloMosaic.TcCoe Idealize.SL.Sem
open Idealize.ShloMosaic.ValueIdx

/-- The product of a 50000 x 128 array by a 128 x 128 array, entry by entry. -/
def linFn (X : S50000x128.Idx → EReal) (W : S128x128.Idx → EReal) : S50000x128.Idx → EReal :=
  fun i => ∑ k : Fin 128, X (ix2 (i 0) k) * W (ix2 k (i 1))

theorem val_main_v30_eq_linFn (X : S50000x128.Idx → EReal) (W : S128x128.Idx → EReal) :
    Cert.ReferenceIdeal.ReadP.val_main_v30 (F := Ideal) X W = linFn X W := by
  funext i
  rw [Cert.ReferenceIdeal.ReadP.val_main_v30_apply]
  unfold linFn
  refine Finset.sum_congr rfl fun k _ => ?_
  have el : Cert.ReferenceIdeal.ReadP.lidx_main_v30 i k = ix2 (i 0) k :=
    funext fun a => Fin.ext (by match a with | ⟨0, _⟩ => rfl | ⟨1, _⟩ => rfl)
  have er : Cert.ReferenceIdeal.ReadP.ridx_main_v30 i k = ix2 k (i 1) :=
    funext fun a => Fin.ext (by match a with | ⟨0, _⟩ => rfl | ⟨1, _⟩ => rfl)
  rw [el, er]
  rfl

theorem lhs_lin_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_lin_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_lin_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_lin_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into a zero accumulator, read at an entry, is the sum over the contracted axis. -/
theorem matmul_lin_at (a : FVec Ideal S5000x128 .bf16) (b : FVec Ideal S128x128 .bf16) (p : Fin 5000) (q : Fin 128) :
    FloatOps.matmul dot_S5000x128_S128x128_S5000x128_1_0_0_1_n_n none a b (constant (F := Ideal) S5000x128 .f32 0x00000000#32) (ix2 p q)
      = ∑ k : Fin 128, a (ix2 p k) * b (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_lin_0 _ _
    | ⟨1, _⟩ => exact (lhs_lin_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_lin_0 _ _).trans hk
    | ⟨1, _⟩ => exact rhs_lin_1 _ _)
  rw [el, er]

theorem zeros2 : (![0, 0] : Fin 2 → Nat) = fun _ => 0 := funext fun a => by fin_cases a <;> rfl

end Cert.KernelIdeal.Fr

end
-- ==== Proof.KI.Val0.lean ====
import proofs.«410102_j40518721470743_1_alg».proof.Proof.KI.Reg0
import proofs.«410102_j40518721470743_1_alg».proof.Proof.KI.Lin

noncomputable section

namespace Cert.KernelIdeal.Fr

open Cert.KernelIdeal.Gen Idealize.ShloMosaic TcCoe ValueIdx

/-- The body's value at an entry: a row of the first block against a column of the second operand. -/
theorem pay0_at (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  simp only [shapeCast_self, matmul]
  rw [matmul_lin_at]
  rfl

variable (V : (c : Dev nD) → (b : Ref sig .tc) → Buf (Elt Ideal) ((c : Thread nD τ).loc b))

/-- Block `t` of the output is block `t` of the product: each entry reads both operands at the array's own indices. -/
theorem flushed0_eq (c : Dev nD) (t : Fin cfg0.N) :
    (dat0 (F := Ideal) V c).flushed 2 t
      = ((cfg0.win 2).blk t).view.read (Elt Ideal) (linFn (V c main_arg0) (V c main_arg3)) := by
  show (cfg0.win 2).cut (grid0.coords t) ((dat0 V c).after 2 t) = _
  rw [after0_2]
  unfold out0_2
  rw [View.canon_unit_zero zeros2]
  simp only [View.ld_unit_zero (S := S5000x128) zeros2, View.ld_unit_zero (S := S128x128) zeros2]
  funext j
  obtain ⟨p, q, rfl⟩ : ∃ (p : Fin 5000) (q : Fin 128), j = ix2 p q := ⟨j 0, j 1, eq_ix2 j⟩
  have e (n : ℕ) : 0 + 1 * n = n := by omega
  refine (pay0_at _ _ p q).trans ?_
  show _ = linFn _ _ _
  unfold linFn
  refine Finset.sum_congr rfl fun k _ => ?_
  let X : S50000x128.Idx → EReal := V c main_arg0
  let W : S128x128.Idx → EReal := V c main_arg3
  show X _ * W _ = X _ * W _
  congr 2
  · exact Shape.idx_ext₂ rfl (e _)
  · exact Shape.idx_ext₂ (e _) rfl

theorem idx0 : ∀ t : Fin cfg0.N, win0_2.index t (0 : Fin 2) = t.val :=
  (by decide +kernel : ∀ t : Fin grid0.N, _)

/-- Row `r` of the array lies in block `r / 5000`. -/
theorem cover0 (i : S50000x128.Idx) : ∃ t : Fin cfg0.N, (cfg0.win 2).flush t = true ∧ i ∈ ((cfg0.win 2).blk t).view.set := by
  have h : (i 0).val < 50000 := (i 0).isLt
  have hN := N_0
  obtain ⟨t, ht⟩ : ∃ t : Fin cfg0.N, t.val = (i 0).val / 5000 := ⟨⟨(i 0).val / 5000, by show _ < grid0.N; omega⟩, rfl⟩
  have e : ((cfg0.win 2).blk t).view.emb (ix2 ⟨(i 0).val % 5000, Nat.mod_lt _ (by decide)⟩ (i 1)) = i :=
    Shape.idx_ext₂ (by show win0_2.index t (0 : Fin 2) * 5000 + 1 * ((i 0).val % 5000) = _; rw [idx0]; omega) (by show 0 + 1 * (i 1).val = _; omega)
  exact ⟨t, flush0_2 t, e ▸ View.emb_mem_set _ _⟩

theorem arr0_eq (c : Dev nD) :
    (dat0 (F := Ideal) V c).arrAt 2 cfg0.N
      = Cert.ReferenceIdeal.ReadP.val_main_v30 (F := Ideal) (V c main_arg0) (V c main_arg3) := by
  rw [val_main_v30_eq_linFn]
  exact (dat0 V c).arrAt_eq_of_cover 2 (linFn (V c main_arg0) (V c main_arg3)) (fun t _ => flushed0_eq V c t) cover0

end Cert.KernelIdeal.Fr

end
-- ==== Proof.KI.Val2.lean ====
import proofs.«410102_j40518721470743_1_alg».proof.Proof.KI.Reg2
import proofs.«410102_j40518721470743_1_alg».proof.Proof.KI.Lin

noncomputable section

namespace Cert.KernelIdeal.Fr

open Cert.KernelIdeal.Gen Idealize.ShloMosaic TcCoe ValueIdx

/-- The body's value at an entry: a row of the first block against a column of the second operand. -/
theorem pay2_at (x0 : Vec Ideal S5000x128 .f32) (x1 : Vec Ideal S128x128 .f32) (p : Fin 5000) (q : Fin 128) :
    k2_pay1 x0 x1 (ix2 p q) = ∑ k : Fin 128, x0 (ix2 p k) * x1 (ix2 k q) := by
  unfold k2_pay1
  simp only [shapeCast_self, matmul]
  rw [matmul_lin_at]
  rfl

variable (V : (c : Dev nD) → (b : Ref sig .tc) → Buf (Elt Ideal) ((c : Thread nD τ).loc b))

/-- Block `t` of the output is block `t` of the product: each entry reads both operands at the array's own indices. -/
theorem flushed2_eq (c : Dev nD) (t : Fin cfg2.N) :
    (dat2 (F := Ideal) V c).flushed 2 t
      = ((cfg2.win 2).blk t).view.read (Elt Ideal) (linFn (V c main_v45) (V c main_arg5)) := by
  show (cfg2.win 2).cut (grid2.coords t) ((dat2 V c).after 2 t) = _
  rw [after2_2]
  unfold out2_2
  rw [View.canon_unit_zero zeros2]
  simp only [View.ld_unit_zero (S := S5000x128) zeros2, View.ld_unit_zero (S := S128x128) zeros2]
  funext j
  obtain ⟨p, q, rfl⟩ : ∃ (p : Fin 5000) (q : Fin 128), j = ix2 p q := ⟨j 0, j 1, eq_ix2 j⟩
  have e (n : ℕ) : 0 + 1 * n = n := by omega
  refine (pay2_at _ _ p q).trans ?_
  show _ = linFn _ _ _
  unfold linFn
  refine Finset.sum_congr rfl fun k _ => ?_
  let X : S50000x128.Idx → EReal := V c main_v45
  let W : S128x128.Idx → EReal := V c main_arg5
  show X _ * W _ = X _ * W _
  congr 2
  · exact Shape.idx_ext₂ rfl (e _)
  · exact Shape.idx_ext₂ (e _) rfl

theorem idx2 : ∀ t : Fin cfg2.N, win2_2.index t (0 : Fin 2) = t.val :=
  (by decide +kernel : ∀ t : Fin grid2.N, _)

/-- Row `r` of the array lies in block `r / 5000`. -/
theorem cover2 (i : S50000x128.Idx) : ∃ t : Fin cfg2.N, (cfg2.win 2).flush t = true ∧ i ∈ ((cfg2.win 2).blk t).view.set := by
  have h : (i 0).val < 50000 := (i 0).isLt
  have hN := N_2
  obtain ⟨t, ht⟩ : ∃ t : Fin cfg2.N, t.val = (i 0).val / 5000 := ⟨⟨(i 0).val / 5000, by show _ < grid2.N; omega⟩, rfl⟩
  have e : ((cfg2.win 2).blk t).view.emb (ix2 ⟨(i 0).val % 5000, Nat.mod_lt _ (by decide)⟩ (i 1)) = i :=
    Shape.idx_ext₂ (by show win2_2.index t (0 : Fin 2) * 5000 + 1 * ((i 0).val % 5000) = _; rw [idx2]; omega) (by show 0 + 1 * (i 1).val = _; omega)
  exact ⟨t, flush2_2 t, e ▸ View.emb_mem_set _ _⟩

theorem arr2_eq (c : Dev nD) :
    (dat2 (F := Ideal) V c).arrAt 2 cfg2.N
      = Cert.ReferenceIdeal.ReadP.val_main_v30 (F := Ideal) (V c main_v45) (V c main_arg5) := by
  rw [val_main_v30_eq_linFn]
  exact (dat2 V c).arrAt_eq_of_cover 2 (linFn (V c main_v45) (V c main_arg5)) (fun t _ => flushed2_eq V c t) cover2

end Cert.KernelIdeal.Fr

end
-- ==== Proof.KI.Val4.lean ====
import proofs.«410102_j40518721470743_1_alg».proof.Proof.KI.Reg4
import proofs.«410102_j40518721470743_1_alg».proof.Proof.KI.Lin

noncomputable section

namespace Cert.KernelIdeal.Fr

open Cert.KernelIdeal.Gen Idealize.ShloMosaic TcCoe ValueIdx

/-- The body's value at an entry: a row of the first block against a column of the second operand. -/
theorem pay4_at (x0 : Vec Ideal S5000x128 .f32) (x1 : Vec Ideal S128x128 .f32) (p : Fin 5000) (q : Fin 128) :
    k4_pay1 x0 x1 (ix2 p q) = ∑ k : Fin 128, x0 (ix2 p k) * x1 (ix2 k q) := by
  unfold k4_pay1
  simp only [shapeCast_self, matmul]
  rw [matmul_lin_at]
  rfl

variable (V : (c : Dev nD) → (b : Ref sig .tc) → Buf (Elt Ideal) ((c : Thread nD τ).loc b))

/-- Block `t` of the output is block `t` of the product: each entry reads both operands at the array's own indices. -/
theorem flushed4_eq (c : Dev nD) (t : Fin cfg4.N) :
    (dat4 (F := Ideal) V c).flushed 2 t
      = ((cfg4.win 2).blk t).view.read (Elt Ideal) (linFn (V c main_v61) (V c main_arg7)) := by
  show (cfg4.win 2).cut (grid4.coords t) ((dat4 V c).after 2 t) = _
  rw [after4_2]
  unfold out4_2
  rw [View.canon_unit_zero zeros2]
  simp only [View.ld_unit_zero (S := S5000x128) zeros2, View.ld_unit_zero (S := S128x128) zeros2]
  funext j
  obtain ⟨p, q, rfl⟩ : ∃ (p : Fin 5000) (q : Fin 128), j = ix2 p q := ⟨j 0, j 1, eq_ix2 j⟩
  have e (n : ℕ) : 0 + 1 * n = n := by omega
  refine (pay4_at _ _ p q).trans ?_
  show _ = linFn _ _ _
  unfold linFn
  refine Finset.sum_congr rfl fun k _ => ?_
  let X : S50000x128.Idx → EReal := V c main_v61
  let W : S128x128.Idx → EReal := V c main_arg7
  show X _ * W _ = X _ * W _
  congr 2
  · exact Shape.idx_ext₂ rfl (e _)
  · exact Shape.idx_ext₂ (e _) rfl

theorem idx4 : ∀ t : Fin cfg4.N, win4_2.index t (0 : Fin 2) = t.val :=
  (by decide +kernel : ∀ t : Fin grid4.N, _)

/-- Row `r` of the array lies in block `r / 5000`. -/
theorem cover4 (i : S50000x128.Idx) : ∃ t : Fin cfg4.N, (cfg4.win 2).flush t = true ∧ i ∈ ((cfg4.win 2).blk t).view.set := by
  have h : (i 0).val < 50000 := (i 0).isLt
  have hN := N_4
  obtain ⟨t, ht⟩ : ∃ t : Fin cfg4.N, t.val = (i 0).val / 5000 := ⟨⟨(i 0).val / 5000, by show _ < grid4.N; omega⟩, rfl⟩
  have e : ((cfg4.win 2).blk t).view.emb (ix2 ⟨(i 0).val % 5000, Nat.mod_lt _ (by decide)⟩ (i 1)) = i :=
    Shape.idx_ext₂ (by show win4_2.index t (0 : Fin 2) * 5000 + 1 * ((i 0).val % 5000) = _; rw [idx4]; omega) (by show 0 + 1 * (i 1).val = _; omega)
  exact ⟨t, flush4_2 t, e ▸ View.emb_mem_set _ _⟩

theorem arr4_eq (c : Dev nD) :
    (dat4 (F := Ideal) V c).arrAt 2 cfg4.N
      = Cert.ReferenceIdeal.ReadP.val_main_v30 (F := Ideal) (V c main_v61) (V c main_arg7) := by
  rw [val_main_v30_eq_linFn]
  exact (dat4 V c).arrAt_eq_of_cover 2 (linFn (V c main_v61) (V c main_arg7)) (fun t _ => flushed4_eq V c t) cover4

end Cert.KernelIdeal.Fr

end
-- ==== Proof.KI.BiasSpec.lean ====
import proofs.«410102_j40518721470743_1_alg».proof.KernelIdeal
import Idealize.ShloMosaic.PureOps.Ideal
import Idealize.ShloMosaic.Lib.ValueIdx

noncomputable section

namespace Cert.KernelIdeal.Fr

open Cert.KernelIdeal
open Idealize.ShloMosaic Idealize.ShloMosaic.ValueIdx

def biasRelu (Y : S50000x128.Idx → EReal) (B : S1x128.Idx → EReal) : S50000x128.Idx → EReal :=
  fun i => max (Y i + B (ix2 (0 : Fin 1) (i 1 : Fin 128))) 0

def biasOnly (Y : S50000x128.Idx → EReal) (B : S1x128.Idx → EReal) : S50000x128.Idx → EReal :=
  fun i => Y i + B (ix2 (0 : Fin 1) (i 1 : Fin 128))

theorem biasRelu_apply (Y : S50000x128.Idx → EReal) (B : S1x128.Idx → EReal) (r : Fin 50000) (q : Fin 128) :
    biasRelu Y B (ix2 r q) = max (Y (ix2 r q) + B (ix2 (0 : Fin 1) q)) 0 := rfl

theorem biasOnly_apply (Y : S50000x128.Idx → EReal) (B : S1x128.Idx → EReal) (r : Fin 50000) (q : Fin 128) :
    biasOnly Y B (ix2 r q) = Y (ix2 r q) + B (ix2 (0 : Fin 1) q) := rfl

end Cert.KernelIdeal.Fr

end
-- ==== Proof.KI.Val1.lean ====
import proofs.«410102_j40518721470743_1_alg».proof.Proof.KI.Reg1
import proofs.«410102_j40518721470743_1_alg».proof.Proof.KI.BiasSpec
import Idealize.ShloMosaic.Lib.Pipeline.Value
import Idealize.ShloMosaic.Lib.ValueLayout
import Idealize.ShloMosaic.PureOps.Ideal.Laws

noncomputable section

namespace Cert.KernelIdeal.Fr

open Cert.KernelIdeal.Gen Idealize.ShloMosaic TcCoe ValueIdx

/-- The body's value at an entry: the block's entry plus the bias of its column, cut off below at zero. -/
theorem pay1_apply (x0 : Vec Ideal S5000x128 .f32) (x1 : Vec Ideal S1x128 .f32) (p : Fin 5000) (q : Fin 128) :
    k1_pay1 x0 x1 (ix2 p q) = max (x0 (ix2 p q) + x1 (ix2 (0 : Fin 1) q)) 0 := by
  unfold k1_pay1
  rw [maximumf_apply, addf_apply, broadcast_apply, shapeCast_self, shapeCast_self, broadcastTo_1b_ab_apply, Ideal.ofBits_def,
    Ideal.ofBits_zero_f32]

variable (V : (c : Dev nD) → (b : Ref sig .tc) → Buf (Elt Ideal) ((c : Thread nD τ).loc b))

/-- Block `t` of the output is block `t` of the bias stage's function of the whole arrays. -/
theorem flushed1_eq (c : Dev nD) (t : Fin cfg1.N) :
    (dat1 (F := Ideal) V c).flushed 2 t
      = ((cfg1.win 2).blk t).view.read (Elt Ideal) (biasRelu (V c main_v43) (V c main_v44)) := by
  have hz : (![0, 0] : Fin 2 → Nat) = fun _ => 0 := funext fun a => by fin_cases a <;> rfl
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  refine (pay1_apply _ _ p q).trans ?_
  let X : S50000x128.Idx → EReal := V c main_v43
  let B : S1x128.Idx → EReal := V c main_v44
  show max (X _ + B _) 0 = max (X _ + B _) 0
  congr 3
  exact Shape.idx_ext₂ rfl rfl

theorem idx1 : ∀ t : Fin cfg1.N, win1_2.index t (0 : Fin 2) = t.val :=
  (by decide +kernel : ∀ t : Fin grid1.N, _)

/-- Row `r` of the array lies in block `r / 5000`. -/
theorem cover1 (i : S50000x128.Idx) : ∃ t : Fin cfg1.N, (cfg1.win 2).flush t = true ∧ i ∈ ((cfg1.win 2).blk t).view.set := by
  have h : (i 0).val < 50000 := (i 0).isLt
  have hN := N_1
  obtain ⟨t, ht⟩ : ∃ t : Fin cfg1.N, t.val = (i 0).val / 5000 := ⟨⟨(i 0).val / 5000, by show _ < grid1.N; omega⟩, rfl⟩
  have e : ((cfg1.win 2).blk t).view.emb (ix2 ⟨(i 0).val % 5000, Nat.mod_lt _ (by decide)⟩ (i 1)) = i :=
    Shape.idx_ext₂ (by show win1_2.index t (0 : Fin 2) * 5000 + 1 * ((i 0).val % 5000) = _; rw [idx1]; omega) (by show 0 + 1 * (i 1).val = _; omega)
  exact ⟨t, flush1_2 t, e ▸ View.emb_mem_set _ _⟩

theorem arr1_eq (c : Dev nD) : (dat1 (F := Ideal) V c).arrAt 2 cfg1.N = biasRelu (V c main_v43) (V c main_v44) :=
  (dat1 (F := Ideal) V c).arrAt_eq_of_cover 2 (biasRelu (V c main_v43) (V c main_v44)) (fun t _ => flushed1_eq V c t) cover1

end Cert.KernelIdeal.Fr

end
-- ==== Proof.KI.Val3.lean ====
import proofs.«410102_j40518721470743_1_alg».proof.Proof.KI.Reg3
import proofs.«410102_j40518721470743_1_alg».proof.Proof.KI.BiasSpec
import Idealize.ShloMosaic.Lib.Pipeline.Value
import Idealize.ShloMosaic.Lib.ValueLayout
import Idealize.ShloMosaic.PureOps.Ideal.Laws

noncomputable section

namespace Cert.KernelIdeal.Fr

open Cert.KernelIdeal.Gen Idealize.ShloMosaic TcCoe ValueIdx

/-- The body's value at an entry: the block's entry plus the bias of its column, cut off below at zero. -/
theorem pay3_apply (x0 : Vec Ideal S5000x128 .f32) (x1 : Vec Ideal S1x128 .f32) (p : Fin 5000) (q : Fin 128) :
    k3_pay1 x0 x1 (ix2 p q) = max (x0 (ix2 p q) + x1 (ix2 (0 : Fin 1) q)) 0 := by
  unfold k3_pay1
  rw [maximumf_apply, addf_apply, broadcast_apply, shapeCast_self, shapeCast_self, broadcastTo_1b_ab_apply, Ideal.ofBits_def,
    Ideal.ofBits_zero_f32]

variable (V : (c : Dev nD) → (b : Ref sig .tc) → Buf (Elt Ideal) ((c : Thread nD τ).loc b))

/-- Block `t` of the output is block `t` of the bias stage's function of the whole arrays. -/
theorem flushed3_eq (c : Dev nD) (t : Fin cfg3.N) :
    (dat3 (F := Ideal) V c).flushed 2 t
      = ((cfg3.win 2).blk t).view.read (Elt Ideal) (biasRelu (V c main_v59) (V c main_v60)) := by
  have hz : (![0, 0] : Fin 2 → Nat) = fun _ => 0 := funext fun a => by fin_cases a <;> rfl
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  refine (pay3_apply _ _ p q).trans ?_
  let X : S50000x128.Idx → EReal := V c main_v59
  let B : S1x128.Idx → EReal := V c main_v60
  show max (X _ + B _) 0 = max (X _ + B _) 0
  congr 3
  exact Shape.idx_ext₂ rfl rfl

theorem idx3 : ∀ t : Fin cfg3.N, win3_2.index t (0 : Fin 2) = t.val :=
  (by decide +kernel : ∀ t : Fin grid3.N, _)

/-- Row `r` of the array lies in block `r / 5000`. -/
theorem cover3 (i : S50000x128.Idx) : ∃ t : Fin cfg3.N, (cfg3.win 2).flush t = true ∧ i ∈ ((cfg3.win 2).blk t).view.set := by
  have h : (i 0).val < 50000 := (i 0).isLt
  have hN := N_3
  obtain ⟨t, ht⟩ : ∃ t : Fin cfg3.N, t.val = (i 0).val / 5000 := ⟨⟨(i 0).val / 5000, by show _ < grid3.N; omega⟩, rfl⟩
  have e : ((cfg3.win 2).blk t).view.emb (ix2 ⟨(i 0).val % 5000, Nat.mod_lt _ (by decide)⟩ (i 1)) = i :=
    Shape.idx_ext₂ (by show win3_2.index t (0 : Fin 2) * 5000 + 1 * ((i 0).val % 5000) = _; rw [idx3]; omega) (by show 0 + 1 * (i 1).val = _; omega)
  exact ⟨t, flush3_2 t, e ▸ View.emb_mem_set _ _⟩

theorem arr3_eq (c : Dev nD) : (dat3 (F := Ideal) V c).arrAt 2 cfg3.N = biasRelu (V c main_v59) (V c main_v60) :=
  (dat3 (F := Ideal) V c).arrAt_eq_of_cover 2 (biasRelu (V c main_v59) (V c main_v60)) (fun t _ => flushed3_eq V c t) cover3

end Cert.KernelIdeal.Fr

end
-- ==== Proof.KI.Val5.lean ====
import proofs.«410102_j40518721470743_1_alg».proof.Proof.KI.Reg5
import proofs.«410102_j40518721470743_1_alg».proof.Proof.KI.BiasSpec
import Idealize.ShloMosaic.Lib.Pipeline.Value
import Idealize.ShloMosaic.Lib.ValueLayout
import Idealize.ShloMosaic.PureOps.Ideal.Laws

noncomputable section

namespace Cert.KernelIdeal.Fr

open Cert.KernelIdeal.Gen Idealize.ShloMosaic TcCoe ValueIdx

/-- The body's value at an entry: the block's entry plus the bias of its column. -/
theorem pay5_apply (x0 : Vec Ideal S5000x128 .f32) (x1 : Vec Ideal S1x128 .f32) (p : Fin 5000) (q : Fin 128) :
    k5_pay1 x0 x1 (ix2 p q) = x0 (ix2 p q) + x1 (ix2 (0 : Fin 1) q) := by
  unfold k5_pay1
  rw [addf_apply, shapeCast_self, shapeCast_self, broadcastTo_1b_ab_apply]

variable (V : (c : Dev nD) → (b : Ref sig .tc) → Buf (Elt Ideal) ((c : Thread nD τ).loc b))

/-- Block `t` of the output is block `t` of the bias stage's function of the whole arrays. -/
theorem flushed5_eq (c : Dev nD) (t : Fin cfg5.N) :
    (dat5 (F := Ideal) V c).flushed 2 t
      = ((cfg5.win 2).blk t).view.read (Elt Ideal) (biasOnly (V c main_v75) (V c main_v76)) := by
  have hz : (![0, 0] : Fin 2 → Nat) = fun _ => 0 := funext fun a => by fin_cases a <;> rfl
  show (cfg5.win 2).cut (grid5.coords t) ((dat5 V c).after 2 t) = _
  rw [after5_2]
  unfold out5_2
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  refine (pay5_apply _ _ p q).trans ?_
  let X : S50000x128.Idx → EReal := V c main_v75
  let B : S1x128.Idx → EReal := V c main_v76
  show X _ + B _ = X _ + B _
  congr 2
  exact Shape.idx_ext₂ rfl rfl

theorem idx5 : ∀ t : Fin cfg5.N, win5_2.index t (0 : Fin 2) = t.val :=
  (by decide +kernel : ∀ t : Fin grid5.N, _)

/-- Row `r` of the array lies in block `r / 5000`. -/
theorem cover5 (i : S50000x128.Idx) : ∃ t : Fin cfg5.N, (cfg5.win 2).flush t = true ∧ i ∈ ((cfg5.win 2).blk t).view.set := by
  have h : (i 0).val < 50000 := (i 0).isLt
  have hN := N_5
  obtain ⟨t, ht⟩ : ∃ t : Fin cfg5.N, t.val = (i 0).val / 5000 := ⟨⟨(i 0).val / 5000, by show _ < grid5.N; omega⟩, rfl⟩
  have e : ((cfg5.win 2).blk t).view.emb (ix2 ⟨(i 0).val % 5000, Nat.mod_lt _ (by decide)⟩ (i 1)) = i :=
    Shape.idx_ext₂ (by show win5_2.index t (0 : Fin 2) * 5000 + 1 * ((i 0).val % 5000) = _; rw [idx5]; omega) (by show 0 + 1 * (i 1).val = _; omega)
  exact ⟨t, flush5_2 t, e ▸ View.emb_mem_set _ _⟩

theorem arr5_eq (c : Dev nD) : (dat5 (F := Ideal) V c).arrAt 2 cfg5.N = biasOnly (V c main_v75) (V c main_v76) :=
  (dat5 (F := Ideal) V c).arrAt_eq_of_cover 2 (biasOnly (V c main_v75) (V c main_v76)) (fun t _ => flushed5_eq V c t) cover5

end Cert.KernelIdeal.Fr

end
-- ==== Proof.Spec.lean ====
import Idealize.ShloMosaic.Lib.ValueIdx
import Idealize.ShloMosaic.PureOps.Ideal.Laws

noncomputable section

namespace Cert.Spec

open Idealize.ShloMosaic Idealize.ShloMosaic.ValueIdx

def hit (B : (⟨1, ![50000]⟩ : Shape).Idx → BitVec 32) (n : Fin 50000) (g : Fin 256) : EReal :=
  if B (ix1 n) = BitVec.ofNat 32 g.val then 1 else 0

def sums (H : (⟨2, ![50000, 128]⟩ : Shape).Idx → EReal) (B : (⟨1, ![50000]⟩ : Shape).Idx → BitVec 32) (g : Fin 256) (f : Fin 128) : EReal :=
  ∑ n : Fin 50000, hit B n g * H (ix2 n f)

def cnt (B : (⟨1, ![50000]⟩ : Shape).Idx → BitVec 32) (g : Fin 256) : EReal :=
  ∑ n : Fin 50000, hit B n g

def pooled (H : (⟨2, ![50000, 128]⟩ : Shape).Idx → EReal) (B : (⟨1, ![50000]⟩ : Shape).Idx → BitVec 32) (g : Fin 256) (f : Fin 128) : EReal :=
  Ideal.div (sums H B g f) (max (cnt B g) 1)

def poolSpec (H : (⟨2, ![50000, 128]⟩ : Shape).Idx → EReal) (B : (⟨1, ![50000]⟩ : Shape).Idx → BitVec 32)
    (Wl : (⟨2, ![128, 10]⟩ : Shape).Idx → EReal) (bl : (⟨1, ![10]⟩ : Shape).Idx → EReal) : (⟨2, ![256, 10]⟩ : Shape).Idx → EReal :=
  fun i => (∑ f : Fin 128, pooled H B (i 0 : Fin 256) f * Wl (ix2 f (i 1 : Fin 10))) + bl (ix1 (i 1 : Fin 10))

end Cert.Spec

end
-- ==== Proof.KI.PoolMath.lean ====
import proofs.«410102_j40518721470743_1_alg».proof.Proof.Gen.KernelIdeal.Skeleton
import proofs.«410102_j40518721470743_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.ValueIdx

def hitw (w : BitVec 32) (g : Fin 256) : EReal := if w = BitVec.ofNat 32 g.val then 1 else 0

theorem sitofp_extui_cmpi_eq (w : BitVec 32) (g : Fin 256) :
    ((((IntOp.cmpi .eq w (BitVec.ofNat 32 g.val)).setWidth 32).toInt : ℝ) : EReal) = hitw w g := by
  unfold hitw IntOp.cmpi
  by_cases h : w = BitVec.ofNat 32 g.val
  · rw [if_pos h]
    have e : (w == BitVec.ofNat 32 g.val) = true := by rw [h]; exact beq_self_eq_true _
    simp only [e]
    have t : ((BitVec.ofBool true).setWidth 32).toInt = 1 := by decide
    rw [t]; norm_num
  · rw [if_neg h]
    have e : (w == BitVec.ofNat 32 g.val) = false := by
      rw [beq_eq_false_iff_ne]; exact h
    simp only [e]
    have t : ((BitVec.ofBool false).setWidth 32).toInt = 0 := by decide
    rw [t]; norm_num

theorem pool_onehot_apply (ids : Vec Ideal S5000x1 .i32) (n : Fin 5000) (g : Fin 256) :
    k6_pay3 (F := Ideal) ids (ix2 n g) = hitw (ids (ix2 n (0 : Fin 1))) g := by
  unfold k6_pay3
  rw [shapeCast_self]
  show ((((IntOp.cmpi .eq (broadcastTo S5000x256 ids broadcasts_S5000x1_S5000x256 (ix2 n g))
      (iota .tc S5000x256 32 [1] iota_S5000x256_d1_w32 (ix2 n g))).setWidth 32).toInt : ℝ) : EReal) = _
  rw [iota_single_apply, broadcastTo_apply ids broadcasts_S5000x1_S5000x256 (ix2 n g) (ix2 n (0 : Fin 1)) (fun ax => by
    match ax with
    | ⟨0, _⟩ => rfl
    | ⟨1, _⟩ => rfl)]
  exact sitofp_extui_cmpi_eq _ g

theorem lhs_pool_sum_0 (i : S256x128.Idx) (q : dot_S5000x256_S5000x128_S256x128_0_0_1_1_n_n.contr.Idx) :
    (dot_S5000x256_S5000x128_S256x128_0_0_1_1_n_n.lhsIdx i q 0).val = (q ⟨0, by decide⟩).val :=
  dot_S5000x256_S5000x128_S256x128_0_0_1_1_n_n.lhsIdx_val_of_single rfl i q
theorem lhs_pool_sum_1 (i : S256x128.Idx) (q : dot_S5000x256_S5000x128_S256x128_0_0_1_1_n_n.contr.Idx) :
    (dot_S5000x256_S5000x128_S256x128_0_0_1_1_n_n.lhsIdx i q 1).val = (i 0).val := by
  unfold DotDims.lhsIdx
  rw [dif_neg (show ¬(1 : Fin S5000x256.rank) ∈ dot_S5000x256_S5000x128_S256x128_0_0_1_1_n_n.lhsBatch by decide), dif_pos (show (1 : Fin S5000x256.rank) ∈ dot_S5000x256_S5000x128_S256x128_0_0_1_1_n_n.lhsNonContracting by decide)]
  rfl
theorem rhs_pool_sum_0 (i : S256x128.Idx) (q : dot_S5000x256_S5000x128_S256x128_0_0_1_1_n_n.contr.Idx) :
    (dot_S5000x256_S5000x128_S256x128_0_0_1_1_n_n.rhsIdx i q 0).val = (q ⟨0, by decide⟩).val :=
  dot_S5000x256_S5000x128_S256x128_0_0_1_1_n_n.rhsIdx_val_of_single rfl i q
theorem rhs_pool_sum_1 (i : S256x128.Idx) (q : dot_S5000x256_S5000x128_S256x128_0_0_1_1_n_n.contr.Idx) :
    (dot_S5000x256_S5000x128_S256x128_0_0_1_1_n_n.rhsIdx i q 1).val = (i 1).val := by
  unfold DotDims.rhsIdx
  rw [dif_neg (show ¬(1 : Fin S5000x128.rank) ∈ dot_S5000x256_S5000x128_S256x128_0_0_1_1_n_n.rhsBatch by decide), dif_pos (show (1 : Fin S5000x128.rank) ∈ dot_S5000x256_S5000x128_S256x128_0_0_1_1_n_n.rhsNonContracting by decide)]
  rfl

theorem pool_sum_step_apply (ids : Vec Ideal S5000x1 .i32) (x : Vec Ideal S5000x128 .f32) (acc : Vec Ideal S256x128 .f32)
    (g : Fin 256) (f : Fin 128) :
    k6_pay4 (F := Ideal) ids x acc (ix2 g f)
      = acc (ix2 g f) + ∑ n : Fin 5000, hitw (ids (ix2 n (0 : Fin 1))) g * x (ix2 n f) := by
  unfold k6_pay4
  rw [shapeCast_self, shapeCast_self]
  refine (addf_apply _ _ _).trans (congrArg (acc (ix2 g f) + ·) ?_)
  simp only [matmul]
  rw [Ideal.matmul_constant_zero_apply, ← Equiv.sum_comp (ValueIdx.contrEquiv1 dot_S5000x256_S5000x128_S256x128_0_0_1_1_n_n 5000 rfl rfl).symm]
  refine Finset.sum_congr rfl fun k _ => ?_
  have hk := ValueIdx.contrEquiv1_symm_val dot_S5000x256_S5000x128_S256x128_0_0_1_1_n_n 5000 rfl rfl k
  have el : dot_S5000x256_S5000x128_S256x128_0_0_1_1_n_n.lhsIdx (ix2 g f) ((ValueIdx.contrEquiv1 dot_S5000x256_S5000x128_S256x128_0_0_1_1_n_n 5000 rfl rfl).symm k) = ix2 k g := funext fun a => Fin.ext (by
    match a with
    | ⟨0, _⟩ => exact (lhs_pool_sum_0 _ _).trans hk
    | ⟨1, _⟩ => exact lhs_pool_sum_1 _ _)
  have er : dot_S5000x256_S5000x128_S256x128_0_0_1_1_n_n.rhsIdx (ix2 g f) ((ValueIdx.contrEquiv1 dot_S5000x256_S5000x128_S256x128_0_0_1_1_n_n 5000 rfl rfl).symm k) = ix2 k f := funext fun a => Fin.ext (by
    match a with
    | ⟨0, _⟩ => exact (rhs_pool_sum_0 _ _).trans hk
    | ⟨1, _⟩ => exact rhs_pool_sum_1 _ _)
  rw [el, er, pool_onehot_apply]
  rfl

theorem lhs_pool_cnt_0 (i : S256x1.Idx) (q : dot_S5000x256_S5000x1_S256x1_0_0_1_1_n_n.contr.Idx) :
    (dot_S5000x256_S5000x1_S256x1_0_0_1_1_n_n.lhsIdx i q 0).val = (q ⟨0, by decide⟩).val :=
  dot_S5000x256_S5000x1_S256x1_0_0_1_1_n_n.lhsIdx_val_of_single rfl i q
theorem lhs_pool_cnt_1 (i : S256x1.Idx) (q : dot_S5000x256_S5000x1_S256x1_0_0_1_1_n_n.contr.Idx) :
    (dot_S5000x256_S5000x1_S256x1_0_0_1_1_n_n.lhsIdx i q 1).val = (i 0).val := by
  unfold DotDims.lhsIdx
  rw [dif_neg (show ¬(1 : Fin S5000x256.rank) ∈ dot_S5000x256_S5000x1_S256x1_0_0_1_1_n_n.lhsBatch by decide), dif_pos (show (1 : Fin S5000x256.rank) ∈ dot_S5000x256_S5000x1_S256x1_0_0_1_1_n_n.lhsNonContracting by decide)]
  rfl

theorem ofBits_one_bf16 : Ideal.ofBits .bf16 0x3F80#16 = 1 := by
  simp [Ideal.ofBits, Ideal.ieee]
  rw [← EReal.coe_mul]
  norm_num

theorem ofBits_one_f32 : Ideal.ofBits .f32 0x3F800000#32 = 1 := by
  simp [Ideal.ofBits, Ideal.ieee]
  rw [← EReal.coe_mul]
  norm_num

theorem pool_cnt_step_apply (ids : Vec Ideal S5000x1 .i32) (acc : Vec Ideal S256x1 .f32) (g : Fin 256) :
    k6_pay5 (F := Ideal) ids acc (ix2 g (0 : Fin 1))
      = acc (ix2 g (0 : Fin 1)) + ∑ n : Fin 5000, hitw (ids (ix2 n (0 : Fin 1))) g := by
  unfold k6_pay5
  rw [shapeCast_self]
  refine (addf_apply _ _ _).trans (congrArg (acc (ix2 g (0 : Fin 1)) + ·) ?_)
  simp only [matmul]
  rw [Ideal.matmul_constant_zero_apply, ← Equiv.sum_comp (ValueIdx.contrEquiv1 dot_S5000x256_S5000x1_S256x1_0_0_1_1_n_n 5000 rfl rfl).symm]
  refine Finset.sum_congr rfl fun k _ => ?_
  have hk := ValueIdx.contrEquiv1_symm_val dot_S5000x256_S5000x1_S256x1_0_0_1_1_n_n 5000 rfl rfl k
  have el : dot_S5000x256_S5000x1_S256x1_0_0_1_1_n_n.lhsIdx (ix2 g (0 : Fin 1)) ((ValueIdx.contrEquiv1 dot_S5000x256_S5000x1_S256x1_0_0_1_1_n_n 5000 rfl rfl).symm k) = ix2 k g := funext fun a => Fin.ext (by
    match a with
    | ⟨0, _⟩ => exact (lhs_pool_cnt_0 _ _).trans hk
    | ⟨1, _⟩ => exact lhs_pool_cnt_1 _ _)
  rw [el, pool_onehot_apply]
  show hitw _ g * Ideal.ofBits .bf16 0x3F80#16 = _
  rw [ofBits_one_bf16, mul_one]

theorem lhs_pool_out_0 (i : S256x10.Idx) (q : dot_S256x128_S128x10_S256x10_1_0_0_1_n_n.contr.Idx) :
    (dot_S256x128_S128x10_S256x10_1_0_0_1_n_n.lhsIdx i q 0).val = (i 0).val := by
  unfold DotDims.lhsIdx
  rw [dif_neg (show ¬(0 : Fin S256x128.rank) ∈ dot_S256x128_S128x10_S256x10_1_0_0_1_n_n.lhsBatch by decide), dif_pos (show (0 : Fin S256x128.rank) ∈ dot_S256x128_S128x10_S256x10_1_0_0_1_n_n.lhsNonContracting by decide)]
  rfl
theorem lhs_pool_out_1 (i : S256x10.Idx) (q : dot_S256x128_S128x10_S256x10_1_0_0_1_n_n.contr.Idx) :
    (dot_S256x128_S128x10_S256x10_1_0_0_1_n_n.lhsIdx i q 1).val = (q ⟨0, by decide⟩).val :=
  dot_S256x128_S128x10_S256x10_1_0_0_1_n_n.lhsIdx_val_of_single rfl i q
theorem rhs_pool_out_0 (i : S256x10.Idx) (q : dot_S256x128_S128x10_S256x10_1_0_0_1_n_n.contr.Idx) :
    (dot_S256x128_S128x10_S256x10_1_0_0_1_n_n.rhsIdx i q 0).val = (q ⟨0, by decide⟩).val :=
  dot_S256x128_S128x10_S256x10_1_0_0_1_n_n.rhsIdx_val_of_single rfl i q
theorem rhs_pool_out_1 (i : S256x10.Idx) (q : dot_S256x128_S128x10_S256x10_1_0_0_1_n_n.contr.Idx) :
    (dot_S256x128_S128x10_S256x10_1_0_0_1_n_n.rhsIdx i q 1).val = (i 1).val := by
  unfold DotDims.rhsIdx
  rw [dif_neg (show ¬(1 : Fin S128x10.rank) ∈ dot_S256x128_S128x10_S256x10_1_0_0_1_n_n.rhsBatch by decide), dif_pos (show (1 : Fin S128x10.rank) ∈ dot_S256x128_S128x10_S256x10_1_0_0_1_n_n.rhsNonContracting by decide)]
  rfl

theorem pool_denom_apply (s1 : Vec Ideal S256x1 .f32) (g : Fin 256) (f : Fin 128) :
    broadcastTo S256x128 (maximumf s1 (broadcast S256x1 (Scalar.ofBits (F := Ideal) .f32 0x3F800000#32))) broadcasts_S256x1_S256x128 (ix2 g f)
      = max (s1 (ix2 g (0 : Fin 1))) 1 := by
  rw [broadcastTo_apply _ broadcasts_S256x1_S256x128 (ix2 g f) (ix2 g (0 : Fin 1)) (fun ax => by
    match ax with
    | ⟨0, _⟩ => rfl
    | ⟨1, _⟩ => rfl)]
  show max (s1 (ix2 g (0 : Fin 1))) (Ideal.ofBits .f32 0x3F800000#32) = _
  rw [ofBits_one_f32]

theorem pool_out_apply (s1 : Vec Ideal S256x1 .f32) (s0 : Vec Ideal S256x128 .f32) (Wl : Vec Ideal S128x10 .f32) (bl : Vec Ideal S1x10 .f32)
    (g : Fin 256) (j : Fin 10) :
    k6_pay6 (F := Ideal) s1 s0 Wl bl (ix2 g j)
      = (∑ f : Fin 128, Ideal.div (s0 (ix2 g f)) (max (s1 (ix2 g (0 : Fin 1))) 1) * Wl (ix2 f j)) + bl (ix2 (0 : Fin 1) j) := by
  unfold k6_pay6
  rw [shapeCast_self]
  refine (addf_apply _ _ _).trans ?_
  rw [broadcastTo_1b_ab_apply]
  refine congrArg (· + bl (ix2 (0 : Fin 1) j)) ?_
  simp only [matmul]
  rw [Ideal.matmul_constant_zero_apply, ← Equiv.sum_comp (ValueIdx.contrEquiv1 dot_S256x128_S128x10_S256x10_1_0_0_1_n_n 128 rfl rfl).symm]
  refine Finset.sum_congr rfl fun k _ => ?_
  have hk := ValueIdx.contrEquiv1_symm_val dot_S256x128_S128x10_S256x10_1_0_0_1_n_n 128 rfl rfl k
  have el : dot_S256x128_S128x10_S256x10_1_0_0_1_n_n.lhsIdx (ix2 g j) ((ValueIdx.contrEquiv1 dot_S256x128_S128x10_S256x10_1_0_0_1_n_n 128 rfl rfl).symm k) = ix2 g k := funext fun a => Fin.ext (by
    match a with
    | ⟨0, _⟩ => exact lhs_pool_out_0 _ _
    | ⟨1, _⟩ => exact (lhs_pool_out_1 _ _).trans hk)
  have er : dot_S256x128_S128x10_S256x10_1_0_0_1_n_n.rhsIdx (ix2 g j) ((ValueIdx.contrEquiv1 dot_S256x128_S128x10_S256x10_1_0_0_1_n_n 128 rfl rfl).symm k) = ix2 k j := funext fun a => Fin.ext (by
    match a with
    | ⟨0, _⟩ => exact (rhs_pool_out_0 _ _).trans hk
    | ⟨1, _⟩ => exact rhs_pool_out_1 _ _)
  rw [el, er]
  show Ideal.div (s0 (ix2 g k)) (broadcastTo S256x128 (maximumf s1 (broadcast S256x1 (Scalar.ofBits (F := Ideal) .f32 0x3F800000#32))) broadcasts_S256x1_S256x128 (ix2 g k)) * Wl (ix2 k j) = _
  rw [pool_denom_apply]

def sumTerm (H : S50000x128.Idx → EReal) (IDS : S50000x1.Idx → BitVec 32) (g : Fin 256) (f : Fin 128) (m : ℕ) : EReal :=
  if h : m < 50000 then hitw (IDS (ix2 (⟨m, h⟩ : Fin 50000) (0 : Fin 1))) g * H (ix2 (⟨m, h⟩ : Fin 50000) f) else 0

def cntTerm (IDS : S50000x1.Idx → BitVec 32) (g : Fin 256) (m : ℕ) : EReal :=
  if h : m < 50000 then hitw (IDS (ix2 (⟨m, h⟩ : Fin 50000) (0 : Fin 1))) g else 0

def psum (H : S50000x128.Idx → EReal) (IDS : S50000x1.Idx → BitVec 32) (g : Fin 256) (f : Fin 128) (k : ℕ) : EReal :=
  ∑ m ∈ Finset.range (5000 * k), sumTerm H IDS g f m

def pcnt (IDS : S50000x1.Idx → BitVec 32) (g : Fin 256) (k : ℕ) : EReal :=
  ∑ m ∈ Finset.range (5000 * k), cntTerm IDS g m

theorem psum_zero (H : S50000x128.Idx → EReal) (IDS : S50000x1.Idx → BitVec 32) (g : Fin 256) (f : Fin 128) : psum H IDS g f 0 = 0 := by
  unfold psum; rw [Nat.mul_zero, Finset.range_zero, Finset.sum_empty]

theorem pcnt_zero (IDS : S50000x1.Idx → BitVec 32) (g : Fin 256) : pcnt IDS g 0 = 0 := by
  unfold pcnt; rw [Nat.mul_zero, Finset.range_zero, Finset.sum_empty]

theorem psum_succ (H : S50000x128.Idx → EReal) (IDS : S50000x1.Idx → BitVec 32) (g : Fin 256) (f : Fin 128) (k : ℕ) (hk : k < 10)
    (ids : S5000x1.Idx → BitVec 32) (x : S5000x128.Idx → EReal)
    (hids : ∀ r : Fin 5000, ids (ix2 r (0 : Fin 1)) = IDS (ix2 (⟨5000 * k + r.val, by have := r.isLt; omega⟩ : Fin 50000) (0 : Fin 1)))
    (hx : ∀ (r : Fin 5000) (f : Fin 128), x (ix2 r f) = H (ix2 (⟨5000 * k + r.val, by have := r.isLt; omega⟩ : Fin 50000) f)) :
    psum H IDS g f k + ∑ r : Fin 5000, hitw (ids (ix2 r (0 : Fin 1))) g * x (ix2 r f) = psum H IDS g f (k + 1) := by
  unfold psum
  rw [Nat.mul_succ, Finset.sum_range_add, ← Fin.sum_univ_eq_sum_range (fun r => sumTerm H IDS g f (5000 * k + r)) 5000]
  refine congrArg (_ + ·) (Finset.sum_congr rfl fun r _ => ?_)
  unfold sumTerm
  rw [dif_pos (by have := r.isLt; omega), hids r, hx r f]

theorem pcnt_succ (IDS : S50000x1.Idx → BitVec 32) (g : Fin 256) (k : ℕ) (hk : k < 10)
    (ids : S5000x1.Idx → BitVec 32)
    (hids : ∀ r : Fin 5000, ids (ix2 r (0 : Fin 1)) = IDS (ix2 (⟨5000 * k + r.val, by have := r.isLt; omega⟩ : Fin 50000) (0 : Fin 1))) :
    pcnt IDS g k + ∑ r : Fin 5000, hitw (ids (ix2 r (0 : Fin 1))) g = pcnt IDS g (k + 1) := by
  unfold pcnt
  rw [Nat.mul_succ, Finset.sum_range_add, ← Fin.sum_univ_eq_sum_range (fun r => cntTerm IDS g (5000 * k + r)) 5000]
  refine congrArg (_ + ·) (Finset.sum_congr rfl fun r _ => ?_)
  unfold cntTerm
  rw [dif_pos (by have := r.isLt; omega), hids r]

theorem psum_ten (H : S50000x128.Idx → EReal) (IDS : S50000x1.Idx → BitVec 32) (g : Fin 256) (f : Fin 128) :
    psum H IDS g f 10 = Cert.Spec.sums H (fun j => IDS (ix2 (j 0) (0 : Fin 1))) g f := by
  unfold psum Cert.Spec.sums
  rw [show 5000 * 10 = 50000 from rfl, ← Fin.sum_univ_eq_sum_range (fun m => sumTerm H IDS g f m) 50000]
  refine Finset.sum_congr rfl fun n _ => ?_
  unfold sumTerm Cert.Spec.hit hitw
  rw [dif_pos n.isLt]

theorem pcnt_ten (IDS : S50000x1.Idx → BitVec 32) (g : Fin 256) :
    pcnt IDS g 10 = Cert.Spec.cnt (fun j => IDS (ix2 (j 0) (0 : Fin 1))) g := by
  unfold pcnt Cert.Spec.cnt
  rw [show 5000 * 10 = 50000 from rfl, ← Fin.sum_univ_eq_sum_range (fun m => cntTerm IDS g m) 50000]
  refine Finset.sum_congr rfl fun n _ => ?_
  unfold cntTerm Cert.Spec.hit hitw
  rw [dif_pos n.isLt]

end Cert.KernelIdeal.Fr

end
-- ==== Proof.KI.Val6.lean ====
import proofs.«410102_j40518721470743_1_alg».proof.Proof.KI.Reg6
import proofs.«410102_j40518721470743_1_alg».proof.Proof.KI.PoolMath
import Idealize.ShloMosaic.Lib.Pipeline.Value
import Idealize.ShloMosaic.Lib.ValueIdx

set_option maxRecDepth 16384

noncomputable section

namespace Cert.KernelIdeal.Fr

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz6 : (![0, 0] : Fin 2 → Nat) = fun _ => 0 := funext fun a => by fin_cases a <;> rfl

section
variable (c : Dev nD) (i : grid6.Coords) (arg1 : Memref sig .tc .vmem S5000x128 .f32) (harg1 : arg1.IsWhole) (arg2 : Memref sig .tc .vmem S5000x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S256x10 .f32) (harg5 : arg5.IsWhole) (arg6 : Memref sig .tc .vmem S256x128 .f32) (harg6 : arg6.IsWhole) (arg7 : Memref sig .tc .vmem S256x1 .f32) (harg7 : arg7.IsWhole)

section
variable (hc0 : cond6_0 i) (hc1 : ¬cond6_1 i) (x0 : Vec F S5000x128 .f32) (x1 : Vec F S5000x1 .i32) (x2 : Vec F S128x10 .f32) (x3 : Vec F S1x10 .f32)

theorem sout6_A_0_eq :
    sout6_A_0 c i arg1 harg1 arg2 harg2 arg3 harg3 arg4 harg4 arg5 harg5 arg6 harg6 arg7 harg7 hc0 hc1 x0 x1 x2 x3 = k6_pay4 x1 x0 (k6_pay1 (F := F)) := by
  unfold sout6_A_0
  rw [View.read_writes_eq_canon _ _ _ (scover6_A_0 c i arg1 harg1 arg2 harg2 arg3 harg3 arg4 harg4 arg5 harg5 arg6 harg6 arg7 harg7 hc0 hc1 x0 x1 x2 x3)]
  unfold kernelRun6_A
  dsimp only
  sl_unfold_words
  rw [View.canon_cons_unit_zero (S := S256x128) hz6, View.readCov_unit_zero (S := S256x128) _ hz6]
  simp only [View.readAt_eq_ld, harg1.read_unread, harg2.read_unread, harg3.read_unread, harg4.read_unread, harg6.read_unread, harg7.read_unread, View.ld_unit_zero (S := S5000x128) hz6, View.ld_unit_zero (S := S5000x1) hz6, View.ld_unit_zero (S := S128x10) hz6, View.ld_unit_zero (S := S1x10) hz6, View.ld_unit_zero (S := S256x128) hz6, View.ld_unit_zero (S := S256x1) hz6]

theorem sout6_A_1_eq :
    sout6_A_1 c i arg1 harg1 arg2 harg2 arg3 harg3 arg4 harg4 arg5 harg5 arg6 harg6 arg7 harg7 hc0 hc1 x0 x1 x2 x3 = k6_pay5 x1 (k6_pay2 (F := F)) := by
  unfold sout6_A_1
  rw [View.read_writes_eq_canon _ _ _ (scover6_A_1 c i arg1 harg1 arg2 harg2 arg3 harg3 arg4 harg4 arg5 harg5 arg6 harg6 arg7 harg7 hc0 hc1 x0 x1 x2 x3)]
  unfold kernelRun6_A
  dsimp only
  sl_unfold_words
  rw [View.canon_cons_unit_zero (S := S256x1) hz6, View.readCov_unit_zero (S := S256x1) _ hz6]
  simp only [View.readAt_eq_ld, harg1.read_unread, harg2.read_unread, harg3.read_unread, harg4.read_unread, harg6.read_unread, harg7.read_unread, View.ld_unit_zero (S := S5000x128) hz6, View.ld_unit_zero (S := S5000x1) hz6, View.ld_unit_zero (S := S128x10) hz6, View.ld_unit_zero (S := S1x10) hz6, View.ld_unit_zero (S := S256x128) hz6, View.ld_unit_zero (S := S256x1) hz6]

end

section
variable (hc0 : ¬cond6_0 i) (hc1 : ¬cond6_1 i) (x0 : Vec F S5000x128 .f32) (x1 : Vec F S5000x1 .i32) (x2 : Vec F S128x10 .f32) (x3 : Vec F S1x10 .f32) (xs0 : Vec F S256x128 .f32) (xs1 : Vec F S256x1 .f32)

theorem sout6_B_0_eq :
    sout6_B_0 c i arg1 harg1 arg2 harg2 arg3 harg3 arg4 harg4 arg5 harg5 arg6 harg6 arg7 harg7 hc0 hc1 x0 x1 x2 x3 xs0 xs1 = k6_pay4 x1 x0 xs0 := by
  unfold sout6_B_0
  rw [View.read_writes_eq_canon _ _ _ (scover6_B_0 c i arg1 harg1 arg2 harg2 arg3 harg3 arg4 harg4 arg5 harg5 arg6 harg6 arg7 harg7 hc0 hc1 x0 x1 x2 x3 xs0 xs1)]
  unfold kernelRun6_B
  dsimp only
  sl_unfold_words
  rw [View.canon_unit_zero hz6]
  simp only [View.readAt_eq_ld, harg1.read_unread, harg2.read_unread, harg3.read_unread, harg4.read_unread, harg6.read_unread, harg7.read_unread, View.ld_unit_zero (S := S5000x128) hz6, View.ld_unit_zero (S := S5000x1) hz6, View.ld_unit_zero (S := S128x10) hz6, View.ld_unit_zero (S := S1x10) hz6, View.ld_unit_zero (S := S256x128) hz6, View.ld_unit_zero (S := S256x1) hz6]

theorem sout6_B_1_eq :
    sout6_B_1 c i arg1 harg1 arg2 harg2 arg3 harg3 arg4 harg4 arg5 harg5 arg6 harg6 arg7 harg7 hc0 hc1 x0 x1 x2 x3 xs0 xs1 = k6_pay5 x1 xs1 := by
  unfold sout6_B_1
  rw [View.read_writes_eq_canon _ _ _ (scover6_B_1 c i arg1 harg1 arg2 harg2 arg3 harg3 arg4 harg4 arg5 harg5 arg6 harg6 arg7 harg7 hc0 hc1 x0 x1 x2 x3 xs0 xs1)]
  unfold kernelRun6_B
  dsimp only
  sl_unfold_words
  rw [View.canon_unit_zero hz6]
  simp only [View.readAt_eq_ld, harg1.read_unread, harg2.read_unread, harg3.read_unread, harg4.read_unread, harg6.read_unread, harg7.read_unread, View.ld_unit_zero (S := S5000x128) hz6, View.ld_unit_zero (S := S5000x1) hz6, View.ld_unit_zero (S := S128x10) hz6, View.ld_unit_zero (S := S1x10) hz6, View.ld_unit_zero (S := S256x128) hz6, View.ld_unit_zero (S := S256x1) hz6]

end

section
variable (hc0 : ¬cond6_0 i) (hc1 : cond6_1 i) (x0 : Vec F S5000x128 .f32) (x1 : Vec F S5000x1 .i32) (x2 : Vec F S128x10 .f32) (x3 : Vec F S1x10 .f32) (xs0 : Vec F S256x128 .f32) (xs1 : Vec F S256x1 .f32)

theorem sout6_C_0_eq :
    sout6_C_0 c i arg1 harg1 arg2 harg2 arg3 harg3 arg4 harg4 arg5 harg5 arg6 harg6 arg7 harg7 hc0 hc1 x0 x1 x2 x3 xs0 xs1 = k6_pay4 x1 x0 xs0 := by
  unfold sout6_C_0
  rw [View.read_writes_eq_canon _ _ _ (scover6_C_0 c i arg1 harg1 arg2 harg2 arg3 harg3 arg4 harg4 arg5 harg5 arg6 harg6 arg7 harg7 hc0 hc1 x0 x1 x2 x3 xs0 xs1)]
  unfold kernelRun6_C
  dsimp only
  sl_unfold_words
  rw [View.canon_unit_zero hz6]
  simp only [View.readAt_eq_ld, harg1.read_unread, harg2.read_unread, harg3.read_unread, harg4.read_unread, harg6.read_unread, harg7.read_unread, View.ld_unit_zero (S := S5000x128) hz6, View.ld_unit_zero (S := S5000x1) hz6, View.ld_unit_zero (S := S128x10) hz6, View.ld_unit_zero (S := S1x10) hz6, View.ld_unit_zero (S := S256x128) hz6, View.ld_unit_zero (S := S256x1) hz6]

theorem sout6_C_1_eq :
    sout6_C_1 c i arg1 harg1 arg2 harg2 arg3 harg3 arg4 harg4 arg5 harg5 arg6 harg6 arg7 harg7 hc0 hc1 x0 x1 x2 x3 xs0 xs1 = k6_pay5 x1 xs1 := by
  unfold sout6_C_1
  rw [View.read_writes_eq_canon _ _ _ (scover6_C_1 c i arg1 harg1 arg2 harg2 arg3 harg3 arg4 harg4 arg5 harg5 arg6 harg6 arg7 harg7 hc0 hc1 x0 x1 x2 x3 xs0 xs1)]
  unfold kernelRun6_C
  dsimp only
  sl_unfold_words
  rw [View.canon_unit_zero hz6]
  simp only [View.readAt_eq_ld, harg1.read_unread, harg2.read_unread, harg3.read_unread, harg4.read_unread, harg6.read_unread, harg7.read_unread, View.ld_unit_zero (S := S5000x128) hz6, View.ld_unit_zero (S := S5000x1) hz6, View.ld_unit_zero (S := S128x10) hz6, View.ld_unit_zero (S := S1x10) hz6, View.ld_unit_zero (S := S256x128) hz6, View.ld_unit_zero (S := S256x1) hz6]

theorem out6_C_4_eq :
    out6_C_4 c i arg1 harg1 arg2 harg2 arg3 harg3 arg4 harg4 arg5 harg5 arg6 harg6 arg7 harg7 hc0 hc1 x0 x1 x2 x3 xs0 xs1 = k6_pay6 (k6_pay5 x1 xs1) (k6_pay4 x1 x0 xs0) x2 x3 := by
  unfold out6_C_4
  rw [View.read_writes_eq_canon _ _ _ (cover6_C_4 c i arg1 harg1 arg2 harg2 arg3 harg3 arg4 harg4 arg5 harg5 arg6 harg6 arg7 harg7 hc0 hc1 x0 x1 x2 x3 xs0 xs1)]
  unfold kernelRun6_C
  dsimp only
  sl_unfold_words
  rw [View.canon_unit_zero hz6]
  simp only [View.readAt_eq_ld, harg1.read_unread, harg2.read_unread, harg3.read_unread, harg4.read_unread, harg6.read_unread, harg7.read_unread, View.ld_unit_zero (S := S5000x128) hz6, View.ld_unit_zero (S := S5000x1) hz6, View.ld_unit_zero (S := S128x10) hz6, View.ld_unit_zero (S := S1x10) hz6, View.ld_unit_zero (S := S256x128) hz6, View.ld_unit_zero (S := S256x1) hz6, View.readCov_unit_zero (S := S256x128) _ hz6, View.readCov_unit_zero (S := S256x1) _ hz6]

end

end

variable (V : (c : Dev nD) → (b : Ref sig .tc) → Buf (Elt F) ((c : Thread nD τ).loc b))

abbrev xblk6 (c : Dev nD) (t : Fin cfg6.N) : Vec F S5000x128 .f32 := iblk6 V c 0 t
abbrev idblk6 (c : Dev nD) (t : Fin cfg6.N) : Vec F S5000x1 .i32 := iblk6 V c 1 t
abbrev wblk6 (c : Dev nD) (t : Fin cfg6.N) : Vec F S128x10 .f32 := iblk6 V c 2 t
abbrev bblk6 (c : Dev nD) (t : Fin cfg6.N) : Vec F S1x10 .f32 := iblk6 V c 3 t

abbrev sums6 (c : Dev nD) (n : ℕ) (hn : n < cfg6.N) : Vec F S256x128 .f32 := (outsAt6 V c n hn).2.1
abbrev cnts6 (c : Dev nD) (n : ℕ) (hn : n < cfg6.N) : Vec F S256x1 .f32 := (outsAt6 V c n hn).2.2

theorem sums6_first (c : Dev nD) (t : Fin cfg6.N) (h0 : t.val = 0) :
    sums6 V c t.val t.isLt = k6_pay4 (idblk6 V c t) (xblk6 V c t) (k6_pay1 (F := F)) := by
  have h1 : ¬t.val = 9 := by omega
  show (outsAt6 V c t.val t.isLt).2.1 = _
  rw [outsAt6_A V c t h0 h1]
  dsimp only
  exact sout6_A_0_eq ..

theorem cnts6_first (c : Dev nD) (t : Fin cfg6.N) (h0 : t.val = 0) :
    cnts6 V c t.val t.isLt = k6_pay5 (idblk6 V c t) (k6_pay2 (F := F)) := by
  have h1 : ¬t.val = 9 := by omega
  show (outsAt6 V c t.val t.isLt).2.2 = _
  rw [outsAt6_A V c t h0 h1]
  dsimp only
  exact sout6_A_1_eq ..

theorem sums6_step (c : Dev nD) (t : Fin cfg6.N) (h0 : ¬t.val = 0) :
    sums6 V c t.val t.isLt = k6_pay4 (idblk6 V c t) (xblk6 V c t) (sums6 V c (t.val - 1) (Nat.lt_of_le_of_lt (Nat.sub_le _ _) t.isLt)) := by
  show (outsAt6 V c t.val t.isLt).2.1 = _
  by_cases h1 : t.val = 9
  · rw [outsAt6_C V c t h0 h1]
    dsimp only
    exact sout6_C_0_eq ..
  · rw [outsAt6_B V c t h0 h1]
    dsimp only
    exact sout6_B_0_eq ..

theorem cnts6_step (c : Dev nD) (t : Fin cfg6.N) (h0 : ¬t.val = 0) :
    cnts6 V c t.val t.isLt = k6_pay5 (idblk6 V c t) (cnts6 V c (t.val - 1) (Nat.lt_of_le_of_lt (Nat.sub_le _ _) t.isLt)) := by
  show (outsAt6 V c t.val t.isLt).2.2 = _
  by_cases h1 : t.val = 9
  · rw [outsAt6_C V c t h0 h1]
    dsimp only
    exact sout6_C_1_eq ..
  · rw [outsAt6_B V c t h0 h1]
    dsimp only
    exact sout6_B_1_eq ..

theorem out6_last (c : Dev nD) (t : Fin cfg6.N) (h0 : ¬t.val = 0) (h1 : t.val = 9) :
    (outsAt6 V c t.val t.isLt).1 = k6_pay6 (cnts6 V c t.val t.isLt) (sums6 V c t.val t.isLt) (wblk6 V c t) (bblk6 V c t) := by
  show (outsAt6 V c t.val t.isLt).1 = k6_pay6 (outsAt6 V c t.val t.isLt).2.2 (outsAt6 V c t.val t.isLt).2.1 (wblk6 V c t) (bblk6 V c t)
  rw [outsAt6_C V c t h0 h1]
  dsimp only
  exact (out6_C_4_eq ..).trans
    (congrArg₂ (fun a b => k6_pay6 a b (wblk6 V c t) (bblk6 V c t))
      (sout6_C_1_eq ..).symm
      (sout6_C_0_eq ..).symm)

theorem idx6_0 : ∀ t : Fin cfg6.N, win6_0.index t 0 = t.val ∧ win6_0.index t 1 = 0 :=
  (by decide +kernel : ∀ t : Fin grid6.N, win6_0.index t 0 = t.val ∧ win6_0.index t 1 = 0)
theorem idx6_1 : ∀ t : Fin cfg6.N, win6_1.index t 0 = t.val ∧ win6_1.index t 1 = 0 :=
  (by decide +kernel : ∀ t : Fin grid6.N, win6_1.index t 0 = t.val ∧ win6_1.index t 1 = 0)
theorem idx6_2 : ∀ t : Fin cfg6.N, win6_2.index t 0 = 0 ∧ win6_2.index t 1 = 0 :=
  (by decide +kernel : ∀ t : Fin grid6.N, win6_2.index t 0 = 0 ∧ win6_2.index t 1 = 0)
theorem idx6_3 : ∀ t : Fin cfg6.N, win6_3.index t 0 = 0 ∧ win6_3.index t 1 = 0 :=
  (by decide +kernel : ∀ t : Fin grid6.N, win6_3.index t 0 = 0 ∧ win6_3.index t 1 = 0)
theorem idx6_4 : ∀ t : Fin cfg6.N, win6_4.index t 0 = 0 ∧ win6_4.index t 1 = 0 :=
  (by decide +kernel : ∀ t : Fin grid6.N, win6_4.index t 0 = 0 ∧ win6_4.index t 1 = 0)

theorem xblk6_apply (c : Dev nD) (t : Fin cfg6.N) (r : Fin 5000) (f : Fin 128) :
    xblk6 V c t (ix2 r f)
      = (V c main_v77 : S50000x128.Idx → Elt F .f32) (ix2 (⟨5000 * t.val + r.val, by have := r.isLt; have := t.isLt; have : cfg6.N = 10 := rfl; omega⟩ : Fin 50000) f) := by
  unfold xblk6 iblk6
  rw [View.read_apply]
  show V c main_v77 _ = V c main_v77 _
  congr 1
  funext a
  apply Fin.ext
  match a with
  | ⟨0, _⟩ => show win6_0.index t 0 * 5000 + 1 * r.val = 5000 * t.val + r.val; rw [(idx6_0 t).1]; omega
  | ⟨1, _⟩ => show win6_0.index t 1 * 128 + 1 * f.val = f.val; rw [(idx6_0 t).2]; omega

theorem idblk6_apply (c : Dev nD) (t : Fin cfg6.N) (r : Fin 5000) :
    idblk6 V c t (ix2 r (0 : Fin 1))
      = (V c main_v78 : S50000x1.Idx → Elt F .i32) (ix2 (⟨5000 * t.val + r.val, by have := r.isLt; have := t.isLt; have : cfg6.N = 10 := rfl; omega⟩ : Fin 50000) (0 : Fin 1)) := by
  unfold idblk6 iblk6
  rw [View.read_apply]
  show V c main_v78 _ = V c main_v78 _
  congr 1
  funext a
  apply Fin.ext
  match a with
  | ⟨0, _⟩ => show win6_1.index t 0 * 5000 + 1 * r.val = 5000 * t.val + r.val; rw [(idx6_1 t).1]; omega
  | ⟨1, _⟩ => show win6_1.index t 1 * 1 + 1 * 0 = 0; rw [(idx6_1 t).2]

theorem wblk6_eq (c : Dev nD) (t : Fin cfg6.N) : wblk6 V c t = (V c main_arg9 : S128x10.Idx → Elt F .f32) := by
  funext y
  unfold wblk6 iblk6
  rw [View.read_apply]
  show V c main_arg9 _ = V c main_arg9 _
  congr 1
  funext a
  apply Fin.ext
  match a with
  | ⟨0, _⟩ => show win6_2.index t 0 * 128 + 1 * (y 0).val = (y 0).val; rw [(idx6_2 t).1]; omega
  | ⟨1, _⟩ => show win6_2.index t 1 * 10 + 1 * (y 1).val = (y 1).val; rw [(idx6_2 t).2]; omega

theorem bblk6_eq (c : Dev nD) (t : Fin cfg6.N) : bblk6 V c t = (V c main_v79 : S1x10.Idx → Elt F .f32) := by
  funext y
  unfold bblk6 iblk6
  rw [View.read_apply]
  show V c main_v79 _ = V c main_v79 _
  congr 1
  funext a
  apply Fin.ext
  match a with
  | ⟨0, _⟩ => show win6_3.index t 0 * 1 + 1 * (y 0).val = (y 0).val; rw [(idx6_3 t).1]; omega
  | ⟨1, _⟩ => show win6_3.index t 1 * 10 + 1 * (y 1).val = (y 1).val; rw [(idx6_3 t).2]; omega

theorem blk6_4_read (c : Dev nD) (t : Fin cfg6.N) (G : S256x10.Idx → Elt F .f32) :
    (((cfg6.win 4).blk t).view.read (Elt F) (G : Buf (Elt F) ((cfg6.win 4).arr.view.loc (c.tc : Thread nD τ))) : Vec F S256x10 .f32) = G := by
  funext y
  rw [View.read_apply]
  show G _ = G _
  congr 1
  funext a
  apply Fin.ext
  match a with
  | ⟨0, _⟩ => show win6_4.index t 0 * 256 + 1 * (y 0).val = (y 0).val; rw [(idx6_4 t).1]; omega
  | ⟨1, _⟩ => show win6_4.index t 1 * 10 + 1 * (y 1).val = (y 1).val; rw [(idx6_4 t).2]; omega

theorem mem_blk6_4 (t : Fin cfg6.N) (i : S256x10.Idx) : i ∈ ((cfg6.win 4).blk t).view.set := by
  show i ∈ ((View.whole main_v80).slice (win6_4.rect t)).set
  rw [View.set_slice_whole, Rect.mem_set_unit]
  intro a
  have h0 : (i 0 : Nat) < 256 := (i 0).isLt
  have h1 : (i 1 : Nat) < 10 := (i 1).isLt
  match a with
  | ⟨0, _⟩ => show win6_4.index t 0 * 256 ≤ (i 0 : Nat) ∧ (i 0 : Nat) < win6_4.index t 0 * 256 + 256; rw [(idx6_4 t).1]; omega
  | ⟨1, _⟩ => show win6_4.index t 1 * 10 ≤ (i 1 : Nat) ∧ (i 1 : Nat) < win6_4.index t 1 * 10 + 10; rw [(idx6_4 t).2]; omega

section AtIdeal

variable (W : (c : Dev nD) → (b : Ref sig .tc) → Buf (Elt Ideal) ((c : Thread nD τ).loc b))

abbrev tbl6 (c : Dev nD) : S50000x128.Idx → EReal := W c main_v77
abbrev gid6 (c : Dev nD) : S50000x1.Idx → BitVec 32 := W c main_v78
abbrev wgt6 (c : Dev nD) : S128x10.Idx → EReal := W c main_arg9
abbrev bia6 (c : Dev nD) : S1x10.Idx → EReal := W c main_v79

theorem pool_zero_sums_apply (g : Fin 256) (f : Fin 128) : k6_pay1 (F := Ideal) (ix2 g f) = 0 := by
  unfold k6_pay1
  rw [shapeCast_self]
  exact Ideal.ofBits_zero_f32
theorem pool_zero_cnts_apply (g : Fin 256) : k6_pay2 (F := Ideal) (ix2 g (0 : Fin 1)) = 0 := by
  unfold k6_pay2
  rw [shapeCast_self]
  exact Ideal.ofBits_zero_f32

theorem tables6 (c : Dev nD) : ∀ (n : ℕ) (hn : n < cfg6.N),
    (∀ (g : Fin 256) (f : Fin 128), sums6 W c n hn (ix2 g f) = psum (tbl6 W c) (gid6 W c) g f (n + 1))
    ∧ (∀ g : Fin 256, cnts6 W c n hn (ix2 g (0 : Fin 1)) = pcnt (gid6 W c) g (n + 1)) := by
  intro n
  induction n with
  | zero =>
    intro hn
    refine ⟨fun g f => ?_, fun g => ?_⟩
    · refine (congrFun (sums6_first W c ⟨0, hn⟩ rfl) (ix2 g f)).trans ?_
      refine (pool_sum_step_apply (idblk6 W c ⟨0, hn⟩) (xblk6 W c ⟨0, hn⟩) (k6_pay1 (F := Ideal)) g f).trans ?_
      have key := psum_succ (tbl6 W c) (gid6 W c) g f 0 (by omega) (idblk6 W c ⟨0, hn⟩) (xblk6 W c ⟨0, hn⟩)
        (fun r => idblk6_apply W c ⟨0, hn⟩ r) (fun r f => xblk6_apply W c ⟨0, hn⟩ r f)
      rw [psum_zero] at key
      rw [pool_zero_sums_apply]
      exact key
    · refine (congrFun (cnts6_first W c ⟨0, hn⟩ rfl) (ix2 g (0 : Fin 1))).trans ?_
      refine (pool_cnt_step_apply (idblk6 W c ⟨0, hn⟩) (k6_pay2 (F := Ideal)) g).trans ?_
      have key := pcnt_succ (gid6 W c) g 0 (by omega) (idblk6 W c ⟨0, hn⟩) (fun r => idblk6_apply W c ⟨0, hn⟩ r)
      rw [pcnt_zero] at key
      rw [pool_zero_cnts_apply]
      exact key
  | succ n ih =>
    intro hn
    obtain ⟨ihs, ihc⟩ := ih (Nat.lt_of_succ_lt hn)
    have hk : n + 1 < 10 := hn
    refine ⟨fun g f => ?_, fun g => ?_⟩
    · refine (congrFun (sums6_step W c ⟨n + 1, hn⟩ (Nat.succ_ne_zero n)) (ix2 g f)).trans ?_
      refine (pool_sum_step_apply (idblk6 W c ⟨n + 1, hn⟩) (xblk6 W c ⟨n + 1, hn⟩) (sums6 W c n (Nat.lt_of_succ_lt hn)) g f).trans ?_
      rw [ihs g f]
      exact psum_succ (tbl6 W c) (gid6 W c) g f (n + 1) hk (idblk6 W c ⟨n + 1, hn⟩) (xblk6 W c ⟨n + 1, hn⟩)
        (fun r => idblk6_apply W c ⟨n + 1, hn⟩ r) (fun r f => xblk6_apply W c ⟨n + 1, hn⟩ r f)
    · refine (congrFun (cnts6_step W c ⟨n + 1, hn⟩ (Nat.succ_ne_zero n)) (ix2 g (0 : Fin 1))).trans ?_
      refine (pool_cnt_step_apply (idblk6 W c ⟨n + 1, hn⟩) (cnts6 W c n (Nat.lt_of_succ_lt hn)) g).trans ?_
      rw [ihc g]
      exact pcnt_succ (gid6 W c) g (n + 1) hk (idblk6 W c ⟨n + 1, hn⟩) (fun r => idblk6_apply W c ⟨n + 1, hn⟩ r)

end AtIdeal

section Result

variable (W : (c : Dev nD) → (b : Ref sig .tc) → Buf (Elt Ideal) ((c : Thread nD τ).loc b))

abbrev res6 (c : Dev nD) : S256x10.Idx → EReal :=
  Cert.Spec.poolSpec (tbl6 W c) (fun j => gid6 W c (ix2 (j 0) (0 : Fin 1))) (wgt6 W c) (fun j => bia6 W c (ix2 (0 : Fin 1) (j 0)))

theorem out6_final (c : Dev nD) (t : Fin cfg6.N) (h9 : t.val = 9) : (outsAt6 W c t.val t.isLt).1 = res6 W c := by
  have h0 : ¬t.val = 0 := by omega
  have e10 : t.val + 1 = 10 := by omega
  funext i
  obtain ⟨g, j, rfl⟩ : ∃ (g : Fin 256) (j : Fin 10), i = ix2 g j := ⟨i 0, i 1, eq_ix2 i⟩
  refine (congrFun (out6_last W c t h0 h9) (ix2 g j)).trans ?_
  refine (pool_out_apply (cnts6 W c t.val t.isLt) (sums6 W c t.val t.isLt) (wblk6 W c t) (bblk6 W c t) g j).trans ?_
  obtain ⟨hs, hc⟩ := tables6 W c t.val t.isLt
  have hc' : cnts6 W c t.val t.isLt (ix2 g (0 : Fin 1)) = Cert.Spec.cnt (fun j => gid6 W c (ix2 (j 0) (0 : Fin 1))) g := by
    rw [hc g, e10]; exact pcnt_ten (gid6 W c) g
  have hs' : ∀ f : Fin 128, sums6 W c t.val t.isLt (ix2 g f) = Cert.Spec.sums (tbl6 W c) (fun j => gid6 W c (ix2 (j 0) (0 : Fin 1))) g f :=
    fun f => by rw [hs g f, e10]; exact psum_ten (tbl6 W c) (gid6 W c) g f
  show _ = (∑ f : Fin 128, Ideal.div (Cert.Spec.sums (tbl6 W c) (fun j => gid6 W c (ix2 (j 0) (0 : Fin 1))) g f)
      (max (Cert.Spec.cnt (fun j => gid6 W c (ix2 (j 0) (0 : Fin 1))) g) 1) * wgt6 W c (ix2 f j)) + bia6 W c (ix2 (0 : Fin 1) j)
  rw [hc', wblk6_eq, bblk6_eq]
  simp only [hs']

theorem flushed6_4_eq (c : Dev nD) (t : Fin cfg6.N) (hf : (cfg6.win 4).flush t = true) :
    (dat6 W c).flushed 4 t = ((cfg6.win 4).blk t).view.read (Elt Ideal) (res6 W c) := by
  have h9 : t.val = 9 := by
    have h := (flush6_4 t).mp hf
    have hlt : t.val < 10 := t.isLt
    omega
  rw [blk6_4_read (F := Ideal) c t (res6 W c)]
  show (cfg6.win 4).cut (grid6.coords t) ((dat6 W c).after 4 t) = _
  rw [after6_4, out6_final W c t h9]
  rfl

theorem arr6_eq (c : Dev nD) :
    (dat6 (F := Ideal) W c).arrAt 4 cfg6.N
      = Cert.Spec.poolSpec (W c main_v77) (fun j => W c main_v78 (ix2 (j 0) (0 : Fin 1))) (W c main_arg9) (fun j => W c main_v79 (ix2 (0 : Fin 1) (j 0))) :=
  (dat6 W c).arrAt_eq_of_cover 4 (res6 W c) (fun t hf => flushed6_4_eq W c t hf)
    fun i => ⟨⟨9, by decide⟩, (flush6_4 _).mpr rfl, mem_blk6_4 _ i⟩

end Result

end Cert.KernelIdeal.Fr

end
-- ==== Proof.RefPool.lean ====
import proofs.«410102_j40518721470743_1_alg».proof.Proof.RefRun
import proofs.«410102_j40518721470743_1_alg».proof.Proof.Spec
import Idealize.ShloMosaic.Lib.ValueIdxRank1

noncomputable section

namespace Cert.RefPool

open Cert.ReferenceIdeal Cert.ReferenceIdeal.Gen Idealize.ShloMosaic Idealize.ShloMosaic.TcCoe Idealize.SL.Sem Idealize.ShloMosaic.StableHlo
open Cert.ReferenceIdeal.ReadP Idealize.ShloMosaic.ValueIdx

def segSum (H : (⟨S50000x128, .f32⟩ : BufTy).Contents (Elt Ideal)) (x2 : (⟨S50000, .i32⟩ : BufTy).Contents (Elt Ideal)) :
    (⟨S256x128, .f32⟩ : BufTy).Contents (Elt Ideal) :=
  Host.scatterAdd (F := Ideal) (φ := .f32) scatter_S256x128_S50000x1_S50000x128_1_0_0_1 (val_main_v135 (F := Ideal)) (val_main_v136 (F := Ideal) x2) H

def refPool (H : (⟨S50000x128, .f32⟩ : BufTy).Contents (Elt Ideal)) (x2 : (⟨S50000, .i32⟩ : BufTy).Contents (Elt Ideal))
    (x9 : (⟨S128x10, .f32⟩ : BufTy).Contents (Elt Ideal)) (x10 : (⟨S10, .f32⟩ : BufTy).Contents (Elt Ideal)) :
    (⟨S256x10, .f32⟩ : BufTy).Contents (Elt Ideal) :=
  addf (F := Ideal) (φ := .f32) (Host.dotGeneral (F := Ideal) (φ₁ := .f32) (φ₂ := .f32) dot_S256x128_S128x10_S256x10_1_0_0_1_n_n none (Host.divf (F := Ideal) (φ := .f32) (segSum H x2) (val_main_v145 (F := Ideal) x2)) x9)
    (val_main_v149 (F := Ideal) x10)

theorem val_main_v150_refPool (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x10, .f32⟩ : BufTy).Contents (Elt Ideal)) (x10 : (⟨S10, .f32⟩ : BufTy).Contents (Elt Ideal)) :
    val_main_v150 (F := Ideal) x0 x1 x2 x3 x4 x5 x6 x7 x8 x9 x10
      = refPool (val_main_v134 (F := Ideal) x0 x1 x3 x4 x5 x6 x7 x8) x2 x9 x10 := by
  unfold val_main_v150 val_main_v147 val_main_v146 val_main_v137 refPool segSum
  rfl

theorem val_congr {s : Shape} (j : s.Idx) {a b : Fin s.rank} (h : a = b) : (j a).val = (j b).val := by subst h; rfl

theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some_inj]
    constructor
    · rintro rfl a
      have := (h a).1
      show _ = ((d.start j idx a + (d.window j a : Int)).toNat : Int)
      omega
    · intro hi
      funext a
      apply Fin.ext
      show (d.start j idx a + (d.window j a : Int)).toNat = (i a).val
      rw [hi a]; exact Int.toNat_natCast _
  · constructor
    · intro h'; cases h'
    · intro hi
      exfalso; apply h; intro a
      rw [hi a]
      exact ⟨Int.natCast_nonneg _, by exact_mod_cast (i a).isLt⟩

theorem toInt_eq_iff (x : BitVec 32) (g : Fin 256) : x.toInt = (g.val : Int) ↔ x = BitVec.ofNat 32 g.val := by
  have hg : (BitVec.ofNat 32 g.val).toInt = (g.val : Int) := by
    rw [BitVec.toInt_eq_toNat_cond, BitVec.toNat_ofNat]
    have := g.isLt
    omega
  rw [← hg, BitVec.toInt_inj]

theorem d1_start0 (n : Fin 50000) (f : Fin 128) (idx : IVec S50000x1 32) :
    scatter_S256x128_S50000x1_S50000x128_1_0_0_1.start (ix2 n f) idx 0 = (idx (ix2 n (0 : Fin 1))).toInt := by
  unfold ScatterDims.start
  rw [dif_pos (show (0 : Fin S256x128.rank) ∈ scatter_S256x128_S50000x1_S50000x128_1_0_0_1.scatterDimsToOperandDims by decide)]
  congr 2
  funext b
  fin_cases b
  · unfold ScatterDims.siIdx
    rw [dif_neg (by decide)]
    unfold ScatterDims.siCoord
    apply Fin.ext
    exact val_congr (ix2 n f) (b := 0) (by decide)
  · unfold ScatterDims.siIdx
    rw [dif_pos (by decide)]
    apply Fin.ext
    show List.idxOf (0 : Fin S256x128.rank) scatter_S256x128_S50000x1_S50000x128_1_0_0_1.scatterDimsToOperandDims = 0
    decide

theorem d1_start1 (n : Fin 50000) (f : Fin 128) (idx : IVec S50000x1 32) :
    scatter_S256x128_S50000x1_S50000x128_1_0_0_1.start (ix2 n f) idx 1 = 0 := by
  unfold ScatterDims.start
  rw [dif_neg (show ¬ (1 : Fin S256x128.rank) ∈ scatter_S256x128_S50000x1_S50000x128_1_0_0_1.scatterDimsToOperandDims by decide)]

theorem d1_window0 (n : Fin 50000) (f : Fin 128) : scatter_S256x128_S50000x1_S50000x128_1_0_0_1.window (ix2 n f) 0 = 0 := by
  unfold ScatterDims.window
  rw [dif_neg (show ¬ (0 : Fin S256x128.rank) ∈ scatter_S256x128_S50000x1_S50000x128_1_0_0_1.sKept by decide)]

theorem d1_window1 (n : Fin 50000) (f : Fin 128) : scatter_S256x128_S50000x1_S50000x128_1_0_0_1.window (ix2 n f) 1 = f.val := by
  unfold ScatterDims.window
  rw [dif_pos (show (1 : Fin S256x128.rank) ∈ scatter_S256x128_S50000x1_S50000x128_1_0_0_1.sKept by decide)]
  exact val_congr (ix2 n f) (b := 1) (by decide)

theorem d1_result (n : Fin 50000) (f : Fin 128) (idx : IVec S50000x1 32) (g : Fin 256) (f' : Fin 128) :
    scatter_S256x128_S50000x1_S50000x128_1_0_0_1.resultIdx? (ix2 n f) idx = some (ix2 g f')
      ↔ idx (ix2 n (0 : Fin 1)) = BitVec.ofNat 32 g.val ∧ f = f' := by
  rw [resultIdx?_eq_some_iff, ← toInt_eq_iff]
  constructor
  · intro h
    have h0 := h 0
    have h1 := h 1
    rw [d1_start0, d1_window0] at h0
    rw [d1_start1, d1_window1] at h1
    refine ⟨by simpa using h0, Fin.ext ?_⟩
    have h1' : ((f.val : Int)) = (f'.val : Int) := by simpa using h1
    exact_mod_cast h1'
  · rintro ⟨h0, rfl⟩ a
    fin_cases a
    · show scatter_S256x128_S50000x1_S50000x128_1_0_0_1.start (ix2 n f) idx 0 + (scatter_S256x128_S50000x1_S50000x128_1_0_0_1.window (ix2 n f) 0 : Int) = (g.val : Int)
      rw [d1_start0, d1_window0, h0]; simp
    · show scatter_S256x128_S50000x1_S50000x128_1_0_0_1.start (ix2 n f) idx 1 + (scatter_S256x128_S50000x1_S50000x128_1_0_0_1.window (ix2 n f) 1 : Int) = (f.val : Int)
      rw [d1_start1, d1_window1]; simp

theorem d2_start0 (n : Fin 50000) (idx : IVec S50000x1 32) :
    scatter_S256_S50000x1_S50000_n_0_0_1.start (ix1 n) idx 0 = (idx (ix2 n (0 : Fin 1))).toInt := by
  unfold ScatterDims.start
  rw [dif_pos (show (0 : Fin S256.rank) ∈ scatter_S256_S50000x1_S50000_n_0_0_1.scatterDimsToOperandDims by decide)]
  congr 2
  funext b
  fin_cases b
  · unfold ScatterDims.siIdx
    rw [dif_neg (by decide)]
    unfold ScatterDims.siCoord
    apply Fin.ext
    exact val_congr (ix1 n) (b := 0) (by decide)
  · unfold ScatterDims.siIdx
    rw [dif_pos (by decide)]
    apply Fin.ext
    show List.idxOf (0 : Fin S256.rank) scatter_S256_S50000x1_S50000_n_0_0_1.scatterDimsToOperandDims = 0
    decide

theorem d2_window0 (n : Fin 50000) : scatter_S256_S50000x1_S50000_n_0_0_1.window (ix1 n) 0 = 0 := by
  unfold ScatterDims.window
  rw [dif_neg (show ¬ (0 : Fin S256.rank) ∈ scatter_S256_S50000x1_S50000_n_0_0_1.sKept by decide)]

theorem d2_result (n : Fin 50000) (idx : IVec S50000x1 32) (g : Fin 256) :
    scatter_S256_S50000x1_S50000_n_0_0_1.resultIdx? (ix1 n) idx = some (ix1 g) ↔ idx (ix2 n (0 : Fin 1)) = BitVec.ofNat 32 g.val := by
  rw [resultIdx?_eq_some_iff, ← toInt_eq_iff]
  constructor
  · intro h
    have h0 := h 0
    rw [d2_start0, d2_window0] at h0
    simpa using h0
  · intro h0 a
    fin_cases a
    show scatter_S256_S50000x1_S50000_n_0_0_1.start (ix1 n) idx 0 + (scatter_S256_S50000x1_S50000_n_0_0_1.window (ix1 n) 0 : Int) = (g.val : Int)
    rw [d2_start0, d2_window0, h0]; simp

theorem ids_apply (x2 : (⟨S50000, .i32⟩ : BufTy).Contents (Elt Ideal)) (n : Fin 50000) :
    val_main_v136 (F := Ideal) x2 (ix2 n (0 : Fin 1)) = x2 (ix1 n) := by
  rw [val_main_v136_apply]
  congr 1
  funext a
  fin_cases a
  rfl

theorem segSum_apply (H : (⟨S50000x128, .f32⟩ : BufTy).Contents (Elt Ideal)) (x2 : (⟨S50000, .i32⟩ : BufTy).Contents (Elt Ideal))
    (g : Fin 256) (f : Fin 128) : segSum H x2 (ix2 g f) = Cert.Spec.sums H x2 g f := by
  show Ideal.hostScatterAdd scatter_S256x128_S50000x1_S50000x128_1_0_0_1 (val_main_v135 (F := Ideal)) (val_main_v136 (F := Ideal) x2) H (ix2 g f) = _
  unfold Ideal.hostScatterAdd
  rw [val_main_v135_apply, val_main_cst_31_apply, Ideal.ofBits_def, Ideal.ofBits_zero_f32, zero_add, Finset.sum_filter, sum_idx2]
  unfold Cert.Spec.sums
  refine Finset.sum_congr rfl fun n _ => ?_
  simp only [d1_result, ids_apply]
  unfold Cert.Spec.hit
  by_cases hc : x2 (ix1 n) = BitVec.ofNat 32 g.val
  · simp only [hc, true_and, if_true, one_mul, Finset.sum_ite_eq', Finset.mem_univ]
  · simp only [hc, false_and, if_false, Finset.sum_const_zero, zero_mul]

theorem ofBits_one_f32 : Ideal.ofBits .f32 0x3F800000#32 = 1 := by
  simp [Ideal.ofBits, Ideal.ieee]
  rw [← EReal.coe_mul, ← EReal.coe_one]
  congr 1
  norm_num

theorem count_apply (x2 : (⟨S50000, .i32⟩ : BufTy).Contents (Elt Ideal)) (g : Fin 256) :
    val_main_v141 (F := Ideal) x2 (ix1 g) = Cert.Spec.cnt x2 g := by
  show Ideal.hostScatterAdd scatter_S256_S50000x1_S50000_n_0_0_1 (val_main_v139 (F := Ideal)) (val_main_v140 (F := Ideal) x2) (val_main_v138 (F := Ideal)) (ix1 g) = _
  unfold Ideal.hostScatterAdd
  rw [val_main_v139_apply, val_main_cst_33_apply, Ideal.ofBits_def, Ideal.ofBits_zero_f32, zero_add, Finset.sum_filter]
  rw [← Equiv.sum_comp (idxEquiv1 (n := 50000)).symm]
  unfold Cert.Spec.cnt
  refine Finset.sum_congr rfl fun n _ => ?_
  show (if scatter_S256_S50000x1_S50000_n_0_0_1.resultIdx? (ix1 n) (val_main_v140 (F := Ideal) x2) = some (ix1 g) then val_main_v138 (F := Ideal) (ix1 n) else 0) = _
  have hid : val_main_v140 (F := Ideal) x2 (ix2 n (0 : Fin 1)) = x2 (ix1 n) := by
    rw [val_main_v140_apply]
    congr 1
    funext a
    fin_cases a
    rfl
  simp only [d2_result, hid]
  rw [val_main_v138_apply, val_main_cst_32_apply, Ideal.ofBits_def, ofBits_one_f32]
  rfl

theorem denom_apply (x2 : (⟨S50000, .i32⟩ : BufTy).Contents (Elt Ideal)) (g : Fin 256) (f : Fin 128) :
    val_main_v145 (F := Ideal) x2 (ix2 g f) = max (Cert.Spec.cnt x2 g) 1 := by
  have hi : idx_main_v144 (idx_main_v145 (ix2 g f)) = ix1 g := by
    funext a
    fin_cases a
    rfl
  rw [val_main_v145_apply, val_main_v144_apply, val_main_v143_apply, Ideal.maximumf_def, hi, count_apply,
    val_main_v142_apply, val_main_cst_34_apply, Ideal.ofBits_def, ofBits_one_f32]

theorem dot_apply (y : (⟨S256x128, .f32⟩ : BufTy).Contents (Elt Ideal)) (x9 : (⟨S128x10, .f32⟩ : BufTy).Contents (Elt Ideal))
    (g : Fin 256) (c : Fin 10) :
    Host.dotGeneral (F := Ideal) (φ₁ := .f32) (φ₂ := .f32) dot_S256x128_S128x10_S256x10_1_0_0_1_n_n none y x9 (ix2 g c)
      = ∑ k : Fin 128, y (ix2 g k) * x9 (ix2 k c) := by
  simp only [Host.dotGeneral]
  rw [Ideal.dotGeneral_apply, ← Equiv.sum_comp (contrEquiv1 dot_S256x128_S128x10_S256x10_1_0_0_1_n_n 128 rfl rfl).symm]
  refine Finset.sum_congr rfl fun k _ => ?_
  have hk := contrEquiv1_symm_val dot_S256x128_S128x10_S256x10_1_0_0_1_n_n 128 rfl rfl k
  have el : dot_S256x128_S128x10_S256x10_1_0_0_1_n_n.lhsIdx (ix2 g c) ((contrEquiv1 dot_S256x128_S128x10_S256x10_1_0_0_1_n_n 128 rfl rfl).symm k) = ix2 g k := by
    funext a
    apply Fin.ext
    fin_cases a
    · exact lhs_main_v147_0 _ _
    · exact (lhs_main_v147_1 _ _).trans hk
  have er : dot_S256x128_S128x10_S256x10_1_0_0_1_n_n.rhsIdx (ix2 g c) ((contrEquiv1 dot_S256x128_S128x10_S256x10_1_0_0_1_n_n 128 rfl rfl).symm k) = ix2 k c := by
    funext a
    apply Fin.ext
    fin_cases a
    · exact (rhs_main_v147_0 _ _).trans hk
    · exact rhs_main_v147_1 _ _
  rw [el, er]

theorem divf_apply (x y : (⟨S256x128, .f32⟩ : BufTy).Contents (Elt Ideal)) (i : S256x128.Idx) :
    Host.divf (F := Ideal) (φ := .f32) x y i = Ideal.div (x i) (y i) := rfl

theorem refPool_eq (H : (⟨S50000x128, .f32⟩ : BufTy).Contents (Elt Ideal)) (x2 : (⟨S50000, .i32⟩ : BufTy).Contents (Elt Ideal))
    (x9 : (⟨S128x10, .f32⟩ : BufTy).Contents (Elt Ideal)) (x10 : (⟨S10, .f32⟩ : BufTy).Contents (Elt Ideal)) :
    refPool H x2 x9 x10 = Cert.Spec.poolSpec H x2 x9 x10 := by
  funext i
  obtain ⟨g, c, rfl⟩ : ∃ (g : Fin 256) (c : Fin 10), i = ix2 g c := ⟨i 0, i 1, eq_ix2 i⟩
  show Host.dotGeneral (F := Ideal) (φ₁ := .f32) (φ₂ := .f32) dot_S256x128_S128x10_S256x10_1_0_0_1_n_n none
        (Host.divf (F := Ideal) (φ := .f32) (segSum H x2) (val_main_v145 (F := Ideal) x2)) x9 (ix2 g c)
      + val_main_v149 (F := Ideal) x10 (ix2 g c)
      = (∑ f : Fin 128, Cert.Spec.pooled H x2 g f * x9 (ix2 f c)) + x10 (ix1 c)
  rw [dot_apply]
  refine congrArg₂ (· + ·) ?_ ?_
  · refine Finset.sum_congr rfl fun k _ => ?_
    rw [divf_apply, segSum_apply, denom_apply, Cert.Spec.pooled]
  · rw [val_main_v149_apply, val_main_v148_apply]
    congr 1
    funext a
    fin_cases a
    rfl

end Cert.RefPool
end
-- ==== Proof.KI.BiasRef.lean ====
import proofs.«410102_j40518721470743_1_alg».proof.Proof.KI.BiasSpec
import proofs.«410102_j40518721470743_1_alg».proof.Proof.RefRun
import Idealize.ShloMosaic.Lib.ValueLayout

noncomputable section

namespace Cert.KernelIdeal.Fr

open Cert.KernelIdeal
open Idealize.ShloMosaic Idealize.ShloMosaic.ValueIdx

abbrev biasRow (b : S128.Idx → EReal) : S1x128.Idx → EReal := fun j => b (ix1 (j 1 : Fin 128))

theorem ref_bcast1_apply (b : (⟨S128, .f32⟩ : BufTy).Contents (Elt Ideal)) (i : S50000x128.Idx) :
    Cert.ReferenceIdeal.ReadP.val_main_v45 (F := Ideal) b i = b (ix1 (i 1 : Fin 128)) := by
  rw [Cert.ReferenceIdeal.ReadP.val_main_v45_apply, Cert.ReferenceIdeal.ReadP.val_main_v44_apply]
  exact congrArg b (funext fun a => by match a with | ⟨0, _⟩ => rfl)

theorem ref_zero1_apply (i : S50000x128.Idx) : Cert.ReferenceIdeal.ReadP.val_main_call1_v0 (F := Ideal) i = 0 := by
  rw [Cert.ReferenceIdeal.ReadP.val_main_call1_v0_apply, Cert.ReferenceIdeal.ReadP.val_main_call1_cst_apply, Ideal.ofBits_def,
    Ideal.ofBits_zero_f32]

theorem ref_biasRelu (Y : FVec Ideal S50000x128 .f32) (b : (⟨S128, .f32⟩ : BufTy).Contents (Elt Ideal)) :
    maximumf (addf Y (Cert.ReferenceIdeal.ReadP.val_main_v45 (F := Ideal) b)) (Cert.ReferenceIdeal.ReadP.val_main_call1_v0 (F := Ideal))
      = biasRelu Y (biasRow b) := by
  funext i
  rw [maximumf_apply, addf_apply, ref_bcast1_apply, ref_zero1_apply]
  rfl

theorem ref_bcast3_eq : (Cert.ReferenceIdeal.ReadP.val_main_v89 (F := Ideal)) = Cert.ReferenceIdeal.ReadP.val_main_v45 (F := Ideal) := rfl
theorem ref_zero3_eq : (Cert.ReferenceIdeal.ReadP.val_main_call3_v0 (F := Ideal)) = Cert.ReferenceIdeal.ReadP.val_main_call1_v0 (F := Ideal) := rfl

theorem ref_bcast5_eq : (Cert.ReferenceIdeal.ReadP.val_main_v133 (F := Ideal)) = Cert.ReferenceIdeal.ReadP.val_main_v45 (F := Ideal) := rfl

theorem ref_biasRelu3 (Y : FVec Ideal S50000x128 .f32) (b : (⟨S128, .f32⟩ : BufTy).Contents (Elt Ideal)) :
    maximumf (addf Y (Cert.ReferenceIdeal.ReadP.val_main_v89 (F := Ideal) b)) (Cert.ReferenceIdeal.ReadP.val_main_call3_v0 (F := Ideal))
      = biasRelu Y (biasRow b) := by
  rw [ref_bcast3_eq, ref_zero3_eq]; exact ref_biasRelu Y b

theorem ref_biasOnly (Y : FVec Ideal S50000x128 .f32) (b : (⟨S128, .f32⟩ : BufTy).Contents (Elt Ideal)) :
    addf Y (Cert.ReferenceIdeal.ReadP.val_main_v133 (F := Ideal) b) = biasOnly Y (biasRow b) := by
  funext i
  rw [ref_bcast5_eq, addf_apply, ref_bcast1_apply]
  rfl

theorem reshape_row (b : S128.Idx → EReal) (h : S128.ShapeCasts S1x128) :
    (fun j : S1x128.Idx => (shapeCast S1x128 b h : S1x128.Idx → EReal) j) = biasRow b := by
  funext j
  obtain ⟨u, q, rfl⟩ : ∃ (u : Fin 1) (q : Fin 128), j = ix2 u q := ⟨j 0, j 1, eq_ix2 j⟩
  exact shapeCast_a_1a_apply b h u q

theorem reshape_row' (b : S128.Idx → EReal) (h : S128.ShapeCasts S1x128) :
    (shapeCast S1x128 b h : S1x128.Idx → EReal) = biasRow b := reshape_row b h

theorem reshape_col {α : Type} (b : S50000.Idx → α) (h : S50000.ShapeCasts S50000x1) :
    (fun j : S50000.Idx => (shapeCast S50000x1 b h : S50000x1.Idx → α) (ix2 (j 0 : Fin 50000) (0 : Fin 1))) = b := by
  funext j
  obtain ⟨r, rfl⟩ : ∃ r : Fin 50000, j = ix1 r := ⟨j 0, eq_ix1 j⟩
  refine shapeCast_apply b h _ (ix1 r) ?_
  rw [Shape.rowMajor_val_two, Shape.rowMajor_val_one]
  show r.val = r.val * 1 + 0
  omega

theorem reshape_row10 {α : Type} (b : S10.Idx → α) (h : S10.ShapeCasts S1x10) :
    (fun j : S10.Idx => (shapeCast S1x10 b h : S1x10.Idx → α) (ix2 (0 : Fin 1) (j 0 : Fin 10))) = b := by
  funext j
  obtain ⟨q, rfl⟩ : ∃ q : Fin 10, j = ix1 q := ⟨j 0, eq_ix1 j⟩
  exact shapeCast_a_1a_apply b h 0 q

end Cert.KernelIdeal.Fr

end
-- ==== Proof.KI.Chain.lean ====
import proofs.«410102_j40518721470743_1_alg».proof.Proof.KI.Host
import proofs.«410102_j40518721470743_1_alg».proof.Proof.KI.Val0
import proofs.«410102_j40518721470743_1_alg».proof.Proof.KI.Val2
import proofs.«410102_j40518721470743_1_alg».proof.Proof.KI.Val4
import proofs.«410102_j40518721470743_1_alg».proof.Proof.KI.Val1
import proofs.«410102_j40518721470743_1_alg».proof.Proof.KI.Val3
import proofs.«410102_j40518721470743_1_alg».proof.Proof.KI.Val5
import proofs.«410102_j40518721470743_1_alg».proof.Proof.KI.Val6
import proofs.«410102_j40518721470743_1_alg».proof.Proof.RefPool
import proofs.«410102_j40518721470743_1_alg».proof.Proof.KI.BiasRef
import proofs.«410102_j40518721470743_1_alg».proof.Proof.Spec

set_option maxRecDepth 16384

noncomputable section

namespace Cert.KernelIdeal.Fr

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)
open Cert.ReferenceIdeal.ReadP

open Idealize.ShloMosaic.ValueIdx

variable (m : (ℓ : Loc nD τ sig) → Buf (Elt Ideal) ℓ) (ρ : Dev nD → PrngReg)

theorem ref_pool (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x10, .f32⟩ : BufTy).Contents (Elt Ideal)) (x10 : (⟨S10, .f32⟩ : BufTy).Contents (Elt Ideal)) :
    val_main_v150 (F := Ideal) x0 x1 x2 x3 x4 x5 x6 x7 x8 x9 x10 = Cert.Spec.poolSpec (val_main_v134 (F := Ideal) x0 x1 x3 x4 x5 x6 x7 x8) x2 x9 x10 :=
  (Cert.RefPool.val_main_v150_refPool x0 x1 x2 x3 x4 x5 x6 x7 x8 x9 x10).trans (Cert.RefPool.refPool_eq _ x2 x9 x10)

abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)
abbrev a9 (c : Dev nD) := m ((c : Thread nD τ).loc main_arg9)
abbrev a10 (c : Dev nD) := m ((c : Thread nD τ).loc main_arg10)

/-! Stage by stage: each array the kernel's program leaves is the reference's stage of the same arguments. -/

theorem E1 (c : Dev nD) : W4 m ρ c (Proc.devRef .tc main_v30) = val_main_v30 (F := Ideal) (a0 m c) (a3 m c) := by
  refine (W4_arr m ρ c 2).trans ((arr0_eq (Vin0 m ρ) c).trans ?_)
  show val_main_v30 (F := Ideal) (W3 m ρ c (Proc.devRef .tc main_arg0)) (W3 m ρ c (Proc.devRef .tc main_arg3)) = _
  rw [keep_arg0_3 m ρ c, keep_arg3_3 m ρ c]

theorem E2 (c : Dev nD) : W5 m ρ c (Proc.devRef .tc main_v43) = val_main_v43 (F := Ideal) (a0 m c) (a1 m c) (a3 m c) := by
  rw [W5_v43 m ρ c, E1 m ρ c, keep_v5_4 m ρ c, keep_v6_4 m ρ c, keep_v29_4 m ρ c, W3_v5 m ρ c, W3_v6 m ρ c, W3_v29 m ρ c, ← ref_agg1]

theorem E2b (c : Dev nD) : W5 m ρ c (Proc.devRef .tc main_v44) = biasRow (a4 m c) := by
  rw [W5_v44 m ρ c, keep_arg4_4 m ρ c]; exact reshape_row _ shapeCasts_S128_S1x128

theorem E3 (c : Dev nD) : W6 m ρ c (Proc.devRef .tc main_v45) = val_main_v47 (F := Ideal) (a0 m c) (a1 m c) (a3 m c) (a4 m c) := by
  refine (W6_arr m ρ c 2).trans ((arr1_eq (Vin1 m ρ) c).trans ?_)
  show biasRelu (W5 m ρ c (Proc.devRef .tc main_v43)) (W5 m ρ c (Proc.devRef .tc main_v44)) = _
  rw [E2 m ρ c, E2b m ρ c, ref_relu1, ref_biasRelu]

theorem E4 (c : Dev nD) : W7 m ρ c (Proc.devRef .tc main_v46) = val_main_v74 (F := Ideal) (a0 m c) (a1 m c) (a3 m c) (a4 m c) (a5 m c) := by
  refine (W7_arr m ρ c 2).trans ((arr2_eq (Vin2 m ρ) c).trans ?_)
  show val_main_v30 (F := Ideal) (W6 m ρ c (Proc.devRef .tc main_v45)) (W6 m ρ c (Proc.devRef .tc main_arg5)) = _
  rw [E3 m ρ c, keep_arg5_6 m ρ c, ← ref_lin2]

theorem E5 (c : Dev nD) : W8 m ρ c (Proc.devRef .tc main_v59) = val_main_v87 (F := Ideal) (a0 m c) (a1 m c) (a3 m c) (a4 m c) (a5 m c) := by
  rw [W8_v59 m ρ c, E4 m ρ c, keep_v5_7 m ρ c, keep_v6_7 m ρ c, keep_v29_7 m ρ c, W3_v5 m ρ c, W3_v6 m ρ c, W3_v29 m ρ c, ← ref_agg2]

theorem E5b (c : Dev nD) : W8 m ρ c (Proc.devRef .tc main_v60) = biasRow (a6 m c) := by
  rw [W8_v60 m ρ c, keep_arg6_7 m ρ c]; exact reshape_row _ shapeCasts_S128_S1x128

theorem E6 (c : Dev nD) : W9 m ρ c (Proc.devRef .tc main_v61) = val_main_v91 (F := Ideal) (a0 m c) (a1 m c) (a3 m c) (a4 m c) (a5 m c) (a6 m c) := by
  refine (W9_arr m ρ c 2).trans ((arr3_eq (Vin3 m ρ) c).trans ?_)
  show biasRelu (W8 m ρ c (Proc.devRef .tc main_v59)) (W8 m ρ c (Proc.devRef .tc main_v60)) = _
  rw [E5 m ρ c, E5b m ρ c, ref_relu2, ref_biasRelu]

theorem E7 (c : Dev nD) : W10 m ρ c (Proc.devRef .tc main_v62) = val_main_v118 (F := Ideal) (a0 m c) (a1 m c) (a3 m c) (a4 m c) (a5 m c) (a6 m c) (a7 m c) := by
  refine (W10_arr m ρ c 2).trans ((arr4_eq (Vin4 m ρ) c).trans ?_)
  show val_main_v30 (F := Ideal) (W9 m ρ c (Proc.devRef .tc main_v61)) (W9 m ρ c (Proc.devRef .tc main_arg7)) = _
  rw [E6 m ρ c, keep_arg7_9 m ρ c, ← ref_lin3]

theorem E8 (c : Dev nD) : W11 m ρ c (Proc.devRef .tc main_v75) = val_main_v131 (F := Ideal) (a0 m c) (a1 m c) (a3 m c) (a4 m c) (a5 m c) (a6 m c) (a7 m c) := by
  rw [W11_v75 m ρ c, E7 m ρ c, keep_v5_10 m ρ c, keep_v6_10 m ρ c, keep_v29_10 m ρ c, W3_v5 m ρ c, W3_v6 m ρ c, W3_v29 m ρ c, ← ref_agg3]

theorem E8b (c : Dev nD) : W11 m ρ c (Proc.devRef .tc main_v76) = biasRow (a8 m c) := by
  rw [W11_v76 m ρ c, keep_arg8_10 m ρ c]; exact reshape_row _ shapeCasts_S128_S1x128

theorem E9 (c : Dev nD) : W12 m ρ c (Proc.devRef .tc main_v77) = val_main_v134 (F := Ideal) (a0 m c) (a1 m c) (a3 m c) (a4 m c) (a5 m c) (a6 m c) (a7 m c) (a8 m c) := by
  refine (W12_arr m ρ c 2).trans ((arr5_eq (Vin5 m ρ) c).trans ?_)
  show biasOnly (W11 m ρ c (Proc.devRef .tc main_v75)) (W11 m ρ c (Proc.devRef .tc main_v76)) = _
  rw [E8 m ρ c, E8b m ρ c, ref_bias3, ref_biasOnly]

theorem E10 (c : Dev nD) : W14 m ρ c (Proc.devRef .tc main_v80) = val_main_v150 (F := Ideal) (a0 m c) (a1 m c) (a2 m c) (a3 m c) (a4 m c) (a5 m c) (a6 m c) (a7 m c) (a8 m c) (a9 m c) (a10 m c) := by
  refine (W14_arr m ρ c 4).trans ((arr6_eq (Vin6 m ρ) c).trans ?_)
  show Cert.Spec.poolSpec (W13 m ρ c (Proc.devRef .tc main_v77)) (fun j => W13 m ρ c (Proc.devRef .tc main_v78) (ix2 (j 0 : Fin 50000) (0 : Fin 1)))
    (W13 m ρ c (Proc.devRef .tc main_arg9)) (fun j => W13 m ρ c (Proc.devRef .tc main_v79) (ix2 (0 : Fin 1) (j 0 : Fin 10))) = _
  rw [keep_v77_13 m ρ c, E9 m ρ c, W13_v78 m ρ c, W13_v79 m ρ c, keep_arg2_12 m ρ c, keep_arg10_12 m ρ c, keep_arg9_13 m ρ c, ref_pool]
  congr 1
  · exact reshape_col _ shapeCasts_S50000_S50000x1
  · exact reshape_row10 _ shapeCasts_S10_S1x10

end Cert.KernelIdeal.Fr

end
-- ==== Proof.lean ====
import proofs.«410102_j40518721470743_1_alg».proof.Defs
import proofs.«410102_j40518721470743_1_alg».proof.Proof.Gen.Kernel
import proofs.«410102_j40518721470743_1_alg».proof.Proof.Gen.KernelIdeal
import proofs.«410102_j40518721470743_1_alg».proof.Proof.Gen.ReferenceIdeal
import proofs.«410102_j40518721470743_1_alg».proof.Proof.Gen.Pre_finite_inputs
import proofs.«410102_j40518721470743_1_alg».proof.Proof.K.Run
import proofs.«410102_j40518721470743_1_alg».proof.Proof.KI.Chain
import proofs.«410102_j40518721470743_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

theorem frame_r : Cert.frame_ReferenceIdeal := fun m ρ _ =>
  (θ_run Cert.ReferenceIdeal.defs _ _).mono (fun _ h c => (h c).2) (Cert.ReferenceIdeal.ValueP.run (F := Ideal) m ρ)

/-- Both programs end at the reference's last stage as one function of the arguments: the kernel by its chain of stages, the reference by its own run. -/
theorem algebraic : Cert.algebraic_KernelIdeal_ReferenceIdeal := by
  intro m ρ m' ρ' _ hagree
  refine ⟨_, (θ_run Cert.KernelIdeal.defs _ _).mono (fun r h c => ⟨(h c _ (Cert.KernelIdeal.Fr.mem_uc Cert.KernelIdeal.main_v80 (by decide))).trans (Cert.KernelIdeal.Fr.E10 m ρ c),
      Cert.KernelIdeal.Fr.args_kept m ρ c r.2 (h c)⟩) (Cert.KernelIdeal.Fr.run_all m ρ), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v150_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
